-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x256 : Shape := ⟨2, ![256, 256]⟩
abbrev S100000 : Shape := ⟨1, ![100000]⟩
abbrev S65536 : Shape := ⟨1, ![65536]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S100000 : S_.BroadcastsInDim S100000 (![] : Fin 0 → Fin S100000.rank)
  reducesTo_S100000_S_d0 : S100000.ReducesTo [0] S_
  bcast_S_S65536 : S_.BroadcastsInDim S65536 (![] : Fin 0 → Fin S65536.rank)
  reducesTo_S65536_S_d0 : S65536.ReducesTo [0] S_

variable [Facts]

def fn_part5 {F : FTy → Type} [FloatOps F] (main_arg17 : IVec S65536 32) (main_v81 : IVec S_ 1) (main_v83 : IVec S65536 1) (main_c_33 : IVec S_ 1) : IVec S_ 1 :=
  let main_v84 : IVec S_ 1 := (fun x v => Host.reduce IntOp.andi x v reducesTo_S65536_S_d0 h_S_) main_v83 main_c_33
  let main_v85 : IVec S_ 1 := andi main_v81 main_v84
  let main_c_34 : IVec S_ 32 := constantI S_ 32 2048#32
  let main_v86 : IVec S65536 32 := broadcastInDim S65536 ![] bcast_S_S65536 main_c_34
  let main_v87 : IVec S65536 1 := cmpi .slt main_arg17 main_v86
  let main_c_35 : IVec S_ 1 := constantI S_ 1 1#1
  let main_v88 : IVec S_ 1 := (fun x v => Host.reduce IntOp.andi x v reducesTo_S65536_S_d0 h_S_) main_v87 main_c_35
  let main_v89 : IVec S_ 1 := andi main_v85 main_v88
  main_v89

def fn_part4 {F : FTy → Type} [FloatOps F] (main_arg14 : FVec F S65536 .f32) (main_arg16 : IVec S65536 32) (main_arg17 : IVec S65536 32) (main_v63 : IVec S_ 1) (main_v67 : IVec S_ 1) : IVec S_ 1 :=
  let main_v68 : IVec S_ 1 := andi main_v63 main_v67
  let main_v69 : FVec F S65536 .f32 := Host.absf main_arg14
  let main_cst_26 : FVec F S_ .f32 := constant S_ .f32 0x7F800000#32
  let main_v70 : FVec F S65536 .f32 := broadcastInDim S65536 ![] bcast_S_S65536 main_cst_26
  let main_v71 : IVec S65536 1 := cmpf .olt main_v69 main_v70
  let main_c_27 : IVec S_ 1 := constantI S_ 1 1#1
  let main_v72 : IVec S_ 1 := (fun x v => Host.reduce IntOp.andi x v reducesTo_S65536_S_d0 h_S_) main_v71 main_c_27
  let main_v73 : IVec S_ 1 := andi main_v68 main_v72
  let main_c_28 : IVec S_ 32 := constantI S_ 32 0#32
  let main_v74 : IVec S65536 32 := broadcastInDim S65536 ![] bcast_S_S65536 main_c_28
  let main_v75 : IVec S65536 1 := cmpi .sge main_arg16 main_v74
  let main_c_29 : IVec S_ 1 := constantI S_ 1 1#1
  let main_v76 : IVec S_ 1 := (fun x v => Host.reduce IntOp.andi x v reducesTo_S65536_S_d0 h_S_) main_v75 main_c_29
  let main_v77 : IVec S_ 1 := andi main_v73 main_v76
  let main_c_30 : IVec S_ 32 := constantI S_ 32 2048#32
  let main_v78 : IVec S65536 32 := broadcastInDim S65536 ![] bcast_S_S65536 main_c_30
  let main_v79 : IVec S65536 1 := cmpi .slt main_arg16 main_v78
  let main_c_31 : IVec S_ 1 := constantI S_ 1 1#1
  let main_v80 : IVec S_ 1 := (fun x v => Host.reduce IntOp.andi x v reducesTo_S65536_S_d0 h_S_) main_v79 main_c_31
  let main_v81 : IVec S_ 1 := andi main_v77 main_v80
  let main_c_32 : IVec S_ 32 := constantI S_ 32 0#32
  let main_v82 : IVec S65536 32 := broadcastInDim S65536 ![] bcast_S_S65536 main_c_32
  let main_v83 : IVec S65536 1 := cmpi .sge main_arg17 main_v82
  let main_c_33 : IVec S_ 1 := constantI S_ 1 1#1
  fn_part5 (F := F) main_arg17 main_v81 main_v83 main_c_33

def fn_part3 {F : FTy → Type} [FloatOps F] (main_arg11 : FVec F S256x256 .f32) (main_arg12 : FVec F S256 .f32) (main_arg13 : FVec F S100000 .f32) (main_arg14 : FVec F S65536 .f32) (main_arg16 : IVec S65536 32) (main_arg17 : IVec S65536 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S100000 .f32 := Host.absf main_arg13
  let main_cst_24 : FVec F S_ .f32 := constant S_ .f32 0x7F800000#32
  let main_v65 : FVec F S100000 .f32 := broadcastInDim S100000 ![] bcast_S_S100000 main_cst_24
  let main_v66 : IVec S100000 1 := cmpf .olt main_v64 main_v65
  let main_c_25 : IVec S_ 1 := constantI S_ 1 1#1
  let main_v67 : IVec S_ 1 := (fun x v => Host.reduce IntOp.andi x v reducesTo_S100000_S_d0 h_S_) main_v66 main_c_25
  fn_part4 (F := F) main_arg14 main_arg16 main_arg17 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S100000 .f32) (main_arg14 : FVec F S65536 .f32) (main_arg16 : IVec S65536 32) (main_arg17 : IVec S65536 32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg16 main_arg17 main_v48 main_v49 main_v50

def fn_part1 {F : FTy → Type} [FloatOps F] (main_arg4 : FVec F S256 .f32) (main_arg5 : FVec F S512x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S100000 .f32) (main_arg14 : FVec F S65536 .f32) (main_arg16 : IVec S65536 32) (main_arg17 : IVec S65536 32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg16 main_arg17 main_v33

def fn {F : FTy → Type} [FloatOps F] (main_arg0 : FVec F S100000x512 .f32) (main_arg1 : FVec F S512x256 .f32) (main_arg2 : FVec F S256 .f32) (main_arg3 : FVec F S256x256 .f32) (main_arg4 : FVec F S256 .f32) (main_arg5 : FVec F S512x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S100000 .f32) (main_arg14 : FVec F S65536 .f32) (main_arg15 : IVec S100000 32) (main_arg16 : IVec S65536 32) (main_arg17 : IVec S65536 32) (main_arg18 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg16 main_arg17 main_v13 main_v16
-- ==== Kernel.lean ====
abbrev S100000x512 : Shape := ⟨2, ![100000, 512]⟩
abbrev S512x256 : Shape := ⟨2, ![512, 256]⟩
abbrev S256 : Shape := ⟨1, ![256]⟩
abbrev S256x256 : Shape := ⟨2, ![256, 256]⟩
abbrev S100000 : Shape := ⟨1, ![100000]⟩
abbrev S65536 : Shape := ⟨1, ![65536]⟩
abbrev S100000x1 : Shape := ⟨2, ![100000, 1]⟩
abbrev S2048x256 : Shape := ⟨2, ![2048, 256]⟩
abbrev S2000x512 : Shape := ⟨2, ![2000, 512]⟩
abbrev S2000x1 : Shape := ⟨2, ![2000, 1]⟩
abbrev S2000x256 : Shape := ⟨2, ![2000, 256]⟩
abbrev S1x256 : Shape := ⟨2, ![1, 256]⟩
abbrev S2000 : Shape := ⟨1, ![2000]⟩
abbrev S2000x2048 : Shape := ⟨2, ![2000, 2048]⟩
abbrev S2048x1 : Shape := ⟨2, ![2048, 1]⟩
abbrev S2048 : Shape := ⟨1, ![2048]⟩
abbrev S2048x2048 : Shape := ⟨2, ![2048, 2048]⟩
abbrev S256x2048 : Shape := ⟨2, ![256, 2048]⟩
abbrev S256x1 : Shape := ⟨2, ![256, 1]⟩
abbrev S1x2048 : Shape := ⟨2, ![1, 2048]⟩
abbrev S_ : Shape := ⟨0, ![]⟩
abbrev S4194304 : Shape := ⟨1, ![4194304]⟩
abbrev S65536x1 : Shape := ⟨2, ![65536, 1]⟩
abbrev S1x1 : Shape := ⟨2, ![1, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 41
  | .vmem => 39
  | .smem => 0
  | _ => 0

abbrev bufTy : (tb : Table) → Fin (tcTables nBuf tb) → BufTy
  | .hbm, ⟨0, _⟩ => ⟨S100000x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S100000, .f32⟩
  | .hbm, ⟨14, _⟩ => ⟨S65536, .f32⟩
  | .hbm, ⟨15, _⟩ => ⟨S100000, .i32⟩
  | .hbm, ⟨16, _⟩ => ⟨S65536, .i32⟩
  | .hbm, ⟨17, _⟩ => ⟨S65536, .i32⟩
  | .hbm, ⟨18, _⟩ => ⟨S100000, .i32⟩
  | .hbm, ⟨19, _⟩ => ⟨S512x256, .bf16⟩
  | .hbm, ⟨20, _⟩ => ⟨S512x256, .bf16⟩
  | .hbm, ⟨21, _⟩ => ⟨S100000x1, .i32⟩
  | .hbm, ⟨22, _⟩ => ⟨S100000x1, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S2048x1, .f32⟩
  | .hbm, ⟨27, _⟩ => ⟨S2048x2048, .f32⟩
  | .hbm, ⟨28, _⟩ => ⟨S2048x1, .f32⟩
  | .hbm, ⟨29, _⟩ => ⟨S1x2048, .f32⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S_, .f32⟩
  | .hbm, ⟨35, _⟩ => ⟨S4194304, .f32⟩
  | .hbm, ⟨36, _⟩ => ⟨S65536x1, .i32⟩
  | .hbm, ⟨37, _⟩ => ⟨S4194304, .f32⟩
  | .hbm, ⟨38, _⟩ => ⟨S2048x2048, .f32⟩
  | .hbm, ⟨39, _⟩ => ⟨S1x1, .f32⟩
  | .hbm, ⟨40, _⟩ => ⟨S_, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S512x256, .bf16⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S2000x1, .i32⟩
  | .local _ .vmem, ⟨11, _⟩ => ⟨S2000x1, .i32⟩
  | .local _ .vmem, ⟨12, _⟩ => ⟨S2000x1, .f32⟩
  | .local _ .vmem, ⟨13, _⟩ => ⟨S2000x1, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S2048x256, .f32⟩
  | .local _ .vmem, ⟨23, _⟩ => ⟨S2048x1, .f32⟩
  | .local _ .vmem, ⟨24, _⟩ => ⟨S256x256, .f32⟩
  | .local _ .vmem, ⟨25, _⟩ => ⟨S256x256, .f32⟩
  | .local _ .vmem, ⟨26, _⟩ => ⟨S2048x256, .f32⟩
  | .local _ .vmem, ⟨27, _⟩ => ⟨S256x2048, .f32⟩
  | .local _ .vmem, ⟨28, _⟩ => ⟨S256x2048, .f32⟩
  | .local _ .vmem, ⟨29, _⟩ => ⟨S256x1, .f32⟩
  | .local _ .vmem, ⟨30, _⟩ => ⟨S256x1, .f32⟩
  | .local _ .vmem, ⟨31, _⟩ => ⟨S256x2048, .f32⟩
  | .local _ .vmem, ⟨32, _⟩ => ⟨S256x2048, .f32⟩
  | .local _ .vmem, ⟨33, _⟩ => ⟨S2048x2048, .f32⟩
  | .local _ .vmem, ⟨34, _⟩ => ⟨S1x2048, .f32⟩
  | .local _ .vmem, ⟨35, _⟩ => ⟨S256x1, .f32⟩
  | .local _ .vmem, ⟨36, _⟩ => ⟨S256x1, .f32⟩
  | .local _ .vmem, ⟨37, _⟩ => ⟨S1x1, .f32⟩
  | .local _ .vmem, ⟨38, _⟩ => ⟨S1x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v5_0 : Ref sig .tc := ⟨.hbm, 25, rfl⟩
abbrev main_v5_1 : Ref sig .tc := ⟨.hbm, 26, rfl⟩
abbrev main_v6_0 : Ref sig .tc := ⟨.hbm, 27, rfl⟩
abbrev main_v6_1 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem3_1 : DmaSem sig := 36
abbrev cc3_sem4_0 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_15 : BitVec 32 := 0#32
  let v36 : BitVec 1 := Scalar.cmpi .ne v35 c0_i32_15
  v36

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  bitsLt_bf16_f32 : FTy.bits .bf16 < FTy.bits .f32
  shapeCasts_S100000_S100000x1 : S100000.ShapeCasts S100000x1
  inb_S2048x256_S2048x256_0_0 : ∀ a, (![0, 0] : Fin 2 → Nat) a + S2048x256.size a ≤ S2048x256.size a
  h_S2048x256 : 0 < S2048x256.numel
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  reduces_S2000x256_S2000 : S2000x256.Reduces [1] S2000
  shapeCasts_S2000_S2000x1 : S2000.ShapeCasts S2000x1
  broadcasts_S2000x1_S2000x256 : S2000x1.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x2048_d1_w32 : S2000x2048.Iotas .tc 32 [1]
  broadcasts_S2000x1_S2000x2048 : S2000x1.Broadcasts S2000x2048
  natLt_1_32 : 1 < 32
  shapeCasts_S2048x256_S2048x256 : S2048x256.ShapeCasts S2048x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S2048x1_S2048x1_0_0 : ∀ a, (![0, 0] : Fin 2 → Nat) a + S2048x1.size a ≤ S2048x1.size a
  h_S2048x1 : 0 < S2048x1.numel
  shapeCasts_S256x256_S256x256 : S256x256.ShapeCasts S256x256
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S2048x1_S1x2048 : S2048x1.ShapeCasts S1x2048
  bcast_S_S65536 : S_.BroadcastsInDim S65536 (![] : Fin 0 → Fin S65536.rank)
  bcast_S_S4194304 : S_.BroadcastsInDim S4194304 (![] : Fin 0 → Fin S4194304.rank)
  bcast_S65536_S65536x1_0 : S65536.BroadcastsInDim S65536x1 (![0] : Fin 1 → Fin S65536x1.rank)
  shapeCasts_S4194304_S2048x2048 : S4194304.ShapeCasts S2048x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S256x1_S256x1 : S256x1.ShapeCasts S256x1
  broadcasts_S256x1_S256x2048 : S256x1.Broadcasts S256x2048
  broadcasts_S1x2048_S256x2048 : S1x2048.Broadcasts S256x2048
  shapeCasts_S256x2048_S1x256x2048 : S256x2048.ShapeCasts S1x256x2048
  reduces_S1x256x2048_S1 : S1x256x2048.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x2048_S2000x256_S2048x256_0_0_1_1_n_n_wf : DotDims.WF S2000x2048 S2000x256 S2048x256 [0] [0] [1] [1] [] []
  dot_S2048x256_S256x256_S2048x256_1_0_0_1_n_n_wf : DotDims.WF S2048x256 S256x256 S2048x256 [1] [0] [0] [1] [] []
  dot_S256x256_S2048x256_S256x2048_1_1_0_0_n_n_wf : DotDims.WF S256x256 S2048x256 S256x2048 [1] [1] [0] [0] [] []
  scatter_S4194304_S65536x1_S65536_n_0_0_1_wf : ScatterDims.WF S4194304 S65536x1 S65536 [] [0] [0] 1
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S100000x1.size a
  hwx0_9 : ∀ i : grid0.Coords, EltTy.bits .i32 = 32 ∨ (Rect.block (s := S100000x1) S2000x1.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S100000x1.size a
  hwx0_10 : ∀ i : grid0.Coords, EltTy.bits .f32 = 32 ∨ (Rect.block (s := S100000x1) S2000x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S2048x256.size a
  hwx0_11 : ∀ i : grid0.Coords, EltTy.bits .f32 = 32 ∨ (Rect.block (s := S2048x256) S2048x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S2048x256.size a
  hwx0_12 : ∀ i : grid0.Coords, EltTy.bits .f32 = 32 ∨ (Rect.block (s := S2048x256) S2048x256.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S2048x256.size a
  hwx1_0 : ∀ i : grid1.Coords, EltTy.bits .f32 = 32 ∨ (Rect.block (s := S2048x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S2048x256.size a
  hwx1_6 : ∀ i : grid1.Coords, EltTy.bits .f32 = 32 ∨ (Rect.block (s := S2048x256) S2048x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S2048x1.size a
  hwx1_7 : ∀ i : grid1.Coords, EltTy.bits .f32 = 32 ∨ (Rect.block (s := S2048x1) S2048x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S2048x256.size a
  hwx2_0 : ∀ i : grid2.Coords, EltTy.bits .f32 = 32 ∨ (Rect.block (s := S2048x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S2048x2048.size a
  hwx2_2 : ∀ i : grid2.Coords, EltTy.bits .f32 = 32 ∨ (Rect.block (s := S2048x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S2048x1.size a
  hwx2_3 : ∀ i : grid2.Coords, EltTy.bits .f32 = 32 ∨ (Rect.block (s := S2048x1) S256x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S2048x2048.size a
  hwx3_0 : ∀ i : grid3.Coords, EltTy.bits .f32 = 32 ∨ (Rect.block (s := S2048x2048) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x2048.size a
  hwx3_1 : ∀ i : grid3.Coords, EltTy.bits .f32 = 32 ∨ (Rect.block (s := S2048x2048) S2048x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S2048x1.size a
  hwx3_3 : ∀ i : grid3.Coords, EltTy.bits .f32 = 32 ∨ (Rect.block (s := S2048x1) S256x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x2048_S2000x256_S2048x256_0_0_1_1_n_n : DotDims S2000x2048 S2000x256 S2048x256 where
  lhsContracting := [0]
  rhsContracting := [0]
  lhsNonContracting := [1]
  rhsNonContracting := [1]
  lhsBatch := []
  rhsBatch := []
  wf := dot_S2000x2048_S2000x256_S2048x256_0_0_1_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def scatter_S4194304_S65536x1_S65536_n_0_0_1 : ScatterDims S4194304 S65536x1 S65536 where
  updateWindowDims := []
  insertedWindowDims := [0]
  scatterDimsToOperandDims := [0]
  indexVectorDim := 1
  wf := scatter_S4194304_S65536x1_S65536_n_0_0_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S2000x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S2000x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S2048x256.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S2048x256.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v4_0) S2048x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S2048x256.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S2048x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v5_0) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S2048x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S256x2048.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6_1) S256x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_0) S2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5_1) S256x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x256 : Shape := ⟨2, ![256, 256]⟩
abbrev S100000 : Shape := ⟨1, ![100000]⟩
abbrev S65536 : Shape := ⟨1, ![65536]⟩
abbrev S100000x256 : Shape := ⟨2, ![100000, 256]⟩
abbrev S1x256 : Shape := ⟨2, ![1, 256]⟩
abbrev S100000x1 : Shape := ⟨2, ![100000, 1]⟩
abbrev S_ : Shape := ⟨0, ![]⟩
abbrev S2048x256 : Shape := ⟨2, ![2048, 256]⟩
abbrev S2048 : Shape := ⟨1, ![2048]⟩
abbrev S2048x1 : Shape := ⟨2, ![2048, 1]⟩
abbrev S256x2048 : Shape := ⟨2, ![256, 2048]⟩
abbrev S2048x2048 : Shape := ⟨2, ![2048, 2048]⟩
abbrev S65536x1 : Shape := ⟨2, ![65536, 1]⟩
abbrev S65536x2048 : Shape := ⟨2, ![65536, 2048]⟩
abbrev S1x2048 : Shape := ⟨2, ![1, 2048]⟩

abbrev nBuf : Space → Nat
  | .hbm => 146
  | .vmem => 0
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x256, .f32⟩
  | 4 => ⟨S256, .f32⟩
  | 5 => ⟨S512x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S100000, .f32⟩
  | 14 => ⟨S65536, .f32⟩
  | 15 => ⟨S100000, .i32⟩
  | 16 => ⟨S65536, .i32⟩
  | 17 => ⟨S65536, .i32⟩
  | 18 => ⟨S100000, .i32⟩
  | 19 => ⟨S100000x256, .f32⟩
  | 20 => ⟨S1x256, .f32⟩
  | 21 => ⟨S100000x256, .f32⟩
  | 22 => ⟨S100000x256, .f32⟩
  | 23 => ⟨S100000x256, .f32⟩
  | 24 => ⟨S1x256, .f32⟩
  | 25 => ⟨S100000x256, .f32⟩
  | 26 => ⟨S100000x256, .f32⟩
  | 27 => ⟨S100000x1, .f32⟩
  | 28 => ⟨S100000x256, .f32⟩
  | 29 => ⟨S100000x256, .f32⟩
  | 30 => ⟨S_, .f32⟩
  | 31 => ⟨S2048x256, .f32⟩
  | 32 => ⟨S100000x1, .i32⟩
  | 33 => ⟨S2048x256, .f32⟩
  | 34 => ⟨S100000x256, .f32⟩
  | 35 => ⟨S1x256, .f32⟩
  | 36 => ⟨S100000x256, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S2048x256, .f32⟩
  | 43 => ⟨S1x256, .f32⟩
  | 44 => ⟨S2048x256, .f32⟩
  | 45 => ⟨S2048x256, .f32⟩
  | 46 => ⟨S_, .f32⟩
  | 47 => ⟨S2048x256, .f32⟩
  | 48 => ⟨S2048x256, .f32⟩
  | 49 => ⟨S2048x256, .f32⟩
  | 50 => ⟨S1x256, .f32⟩
  | 51 => ⟨S2048x256, .f32⟩
  | 52 => ⟨S2048x256, .f32⟩
  | 53 => ⟨S2048x256, .f32⟩
  | 54 => ⟨S_, .f32⟩
  | 55 => ⟨S2048, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x256, .f32⟩
  | 62 => ⟨S2048x256, .f32⟩
  | 63 => ⟨S100000x256, .f32⟩
  | 64 => ⟨S_, .f32⟩
  | 65 => ⟨S100000, .f32⟩
  | 66 => ⟨S100000x1, .f32⟩
  | 67 => ⟨S100000x1, .f32⟩
  | 68 => ⟨S_, .f32⟩
  | 69 => ⟨S100000x1, .f32⟩
  | 70 => ⟨S100000x1, .f32⟩
  | 71 => ⟨S100000x256, .f32⟩
  | 72 => ⟨S100000x256, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x256, .f32⟩
  | 82 => ⟨S100000x256, .f32⟩
  | 83 => ⟨S_, .f32⟩
  | 84 => ⟨S100000, .f32⟩
  | 85 => ⟨S_, .f32⟩
  | 86 => ⟨S100000, .f32⟩
  | 87 => ⟨S100000, .f32⟩
  | 88 => ⟨S100000, .f32⟩
  | 89 => ⟨S_, .f32⟩
  | 90 => ⟨S2048, .f32⟩
  | 91 => ⟨S100000x1, .i32⟩
  | 92 => ⟨S2048, .f32⟩
  | 93 => ⟨S2048, .f32⟩
  | 94 => ⟨S2048x1, .f32⟩
  | 95 => ⟨S2048x256, .f32⟩
  | 96 => ⟨S_, .f32⟩
  | 97 => ⟨S2048, .f32⟩
  | 98 => ⟨S2048x1, .f32⟩
  | 99 => ⟨S2048x1, .f32⟩
  | 100 => ⟨S_, .f32⟩
  | 101 => ⟨S2048x1, .f32⟩
  | 102 => ⟨S2048x1, .f32⟩
  | 103 => ⟨S2048x256, .f32⟩
  | 104 => ⟨S2048x256, .f32⟩
  | 105 => ⟨S256x2048, .f32⟩
  | 106 => ⟨S2048x2048, .f32⟩
  | 107 => ⟨S_, .f32⟩
  | 108 => ⟨S2048x2048, .f32⟩
  | 109 => ⟨S2048x2048, .f32⟩
  | 110 => ⟨S2048x2048, .f32⟩
  | 111 => ⟨S65536x1, .f32⟩
  | 112 => ⟨S_, .i32⟩
  | 113 => ⟨S65536, .i32⟩
  | 114 => ⟨S65536, .i1⟩
  | 115 => ⟨S_, .i32⟩
  | 116 => ⟨S65536, .i32⟩
  | 117 => ⟨S65536, .i32⟩
  | 118 => ⟨S65536, .i32⟩
  | 119 => ⟨S65536x1, .i32⟩
  | 120 => ⟨S65536x2048, .f32⟩
  | 121 => ⟨S65536x2048, .f32⟩
  | 122 => ⟨S65536x2048, .f32⟩
  | 123 => ⟨S_, .f32⟩
  | 124 => ⟨S2048x2048, .f32⟩
  | 125 => ⟨S65536x1, .i32⟩
  | 126 => ⟨S2048x2048, .f32⟩
  | 127 => ⟨S_, .f32⟩
  | _ => ⟨S100000x512, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S_, .f32⟩
  | 7 => ⟨S2048, .f32⟩
  | 8 => ⟨S1x2048, .f32⟩
  | 9 => ⟨S2048x2048, .f32⟩
  | 10 => ⟨S2048x2048, .f32⟩
  | 11 => ⟨S2048x2048, .f32⟩
  | 12 => ⟨S2048x2048, .f32⟩
  | 13 => ⟨S2048x2048, .f32⟩
  | 14 => ⟨S_, .f32⟩
  | 15 => ⟨S_, .f32⟩
  | 16 => ⟨S_, .f32⟩
  | 17 => ⟨S_, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call0_cst : Ref sig .tc := ⟨.hbm, 46, rfl⟩
abbrev main_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_v0 : Ref sig .tc := ⟨.hbm, 53, rfl⟩
abbrev main_call1_cst : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v36 : Ref sig .tc := ⟨.hbm, 67, rfl⟩
abbrev main_cst_1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c : Ref sig .tc := ⟨.hbm, 73, rfl⟩
abbrev main_v41 : Ref sig .tc := ⟨.hbm, 74, rfl⟩
abbrev main_v42 : Ref sig .tc := ⟨.hbm, 75, rfl⟩
abbrev main_c_2 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_3 : Ref sig .tc := ⟨.hbm, 83, rfl⟩
abbrev main_v49 : Ref sig .tc := ⟨.hbm, 84, rfl⟩
abbrev main_cst_4 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call3_v0 : Ref sig .tc := ⟨.hbm, 95, rfl⟩
abbrev main_call3_cst : Ref sig .tc := ⟨.hbm, 96, rfl⟩
abbrev main_call3_v1 : Ref sig .tc := ⟨.hbm, 97, rfl⟩
abbrev main_call3_v2 : Ref sig .tc := ⟨.hbm, 98, rfl⟩
abbrev main_v58 : Ref sig .tc := ⟨.hbm, 99, rfl⟩
abbrev main_cst_6 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_7 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_8 : Ref sig .tc := ⟨.hbm, 112, rfl⟩
abbrev main_v69 : Ref sig .tc := ⟨.hbm, 113, rfl⟩
abbrev main_v70 : Ref sig .tc := ⟨.hbm, 114, rfl⟩
abbrev main_c_9 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_10 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_11 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_12 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_13 : Ref sig .tc := ⟨.hbm, 142, rfl⟩
abbrev main_v94 : Ref sig .tc := ⟨.hbm, 143, rfl⟩
abbrev main_cst_14 : Ref sig .tc := ⟨.hbm, 144, rfl⟩
abbrev main_v95 : Ref sig .tc := ⟨.hbm, 145, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S2048x256 : S_.BroadcastsInDim S2048x256 (![] : Fin 0 → Fin S2048x256.rank)
  bcast_S1x256_S2048x256_0_1 : S1x256.BroadcastsInDim S2048x256 (![0, 1] : Fin 2 → Fin S2048x256.rank)
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  reducesTo_S100000x256_S100000_d1 : S100000x256.ReducesTo [1] S100000
  bcast_S_S100000x1 : S_.BroadcastsInDim S100000x1 (![] : Fin 0 → Fin S100000x1.rank)
  bcast_S_S100000 : S_.BroadcastsInDim S100000 (![] : Fin 0 → Fin S100000.rank)
  bcast_S_S2048 : S_.BroadcastsInDim S2048 (![] : Fin 0 → Fin S2048.rank)
  transposes_S2048x256_S256x2048_1_0 : S2048x256.Transposes [1, 0] S256x2048
  bcast_S_S2048x2048 : S_.BroadcastsInDim S2048x2048 (![] : Fin 0 → Fin S2048x2048.rank)
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x2048_0_1 : S65536x1.BroadcastsInDim S65536x2048 (![0, 1] : Fin 2 → Fin S65536x2048.rank)
  bcast_S2048x1_S2048x2048_0_1 : S2048x1.BroadcastsInDim S2048x2048 (![0, 1] : Fin 2 → Fin S2048x2048.rank)
  reducesTo_S2048x2048_S2048_d1 : S2048x2048.ReducesTo [1] S2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  reducesTo_S2048x2048_S_d0_1 : S2048x2048.ReducesTo [0, 1] S_
  dot_S100000x512_S512x256_S100000x256_1_0_0_1_n_n_wf : DotDims.WF S100000x512 S512x256 S100000x256 [1] [0] [0] [1] [] []
  dot_S100000x256_S256x256_S100000x256_1_0_0_1_n_n_wf : DotDims.WF S100000x256 S256x256 S100000x256 [1] [0] [0] [1] [] []
  scatter_S2048x256_S100000x1_S100000x256_1_0_0_1_wf : ScatterDims.WF S2048x256 S100000x1 S100000x256 [1] [0] [0] 1
  dot_S2048x256_S256x256_S2048x256_1_0_0_1_n_n_wf : DotDims.WF S2048x256 S256x256 S2048x256 [1] [0] [0] [1] [] []
  gather_S2048x256_S100000x1_S100000x256_1_0_n_n_0_1_1256_wf : GatherDims.WF S2048x256 S100000x1 S100000x256 [1] [0] [] [0] [] 1 ![1, 256]
  scatter_S2048_S100000x1_S100000_n_0_0_1_wf : ScatterDims.WF S2048 S100000x1 S100000 [] [0] [0] 1
  dot_S2048x256_S256x2048_S2048x2048_1_0_0_1_n_n_wf : DotDims.WF S2048x256 S256x2048 S2048x2048 [1] [0] [0] [1] [] []
  gather_S2048x2048_S65536x1_S65536x2048_1_0_n_n_0_1_12048_wf : GatherDims.WF S2048x2048 S65536x1 S65536x2048 [1] [0] [] [0] [] 1 ![1, 2048]
  scatter_S2048x2048_S65536x1_S65536x2048_1_0_0_1_wf : ScatterDims.WF S2048x2048 S65536x1 S65536x2048 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S2048x256_S100000x1_S100000x256_1_0_n_n_0_1_1256 : GatherDims S2048x256 S100000x1 S100000x256 where
  offsetDims := [1]
  collapsedSliceDims := [0]
  operandBatchingDims := []
  startIndicesBatchingDims := []
  startIndexMap := [0]
  indexVectorDim := 1
  sliceSizes := ![1, 256]
  wf := gather_S2048x256_S100000x1_S100000x256_1_0_n_n_0_1_1256_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def gather_S2048x2048_S65536x1_S65536x2048_1_0_n_n_0_1_12048 : GatherDims S2048x2048 S65536x1 S65536x2048 where
  offsetDims := [1]
  collapsedSliceDims := [0]
  operandBatchingDims := []
  startIndicesBatchingDims := []
  startIndexMap := [0]
  indexVectorDim := 1
  sliceSizes := ![1, 2048]
  wf := gather_S2048x2048_S65536x1_S65536x2048_1_0_n_n_0_1_12048_wf
def scatter_S2048x2048_S65536x1_S65536x2048_1_0_0_1 : ScatterDims S2048x2048 S65536x1 S65536x2048 where
  updateWindowDims := [1]
  insertedWindowDims := [0]
  scatterDimsToOperandDims := [0]
  indexVectorDim := 1
  wf := scatter_S2048x2048_S65536x1_S65536x2048_1_0_0_1_wf

class Facts : Prop extends Facts₀ where

variable [Facts]
-- ==== Proof.K.R0.lean ====
import proofs.«412354_j76115410419855_2_alg».proof.Proof.Gen.Kernel.Launch
import proofs.«412354_j76115410419855_2_alg».proof.Proof.Gen.Kernel.Skeleton
import proofs.«412354_j76115410419855_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev VO0_11 : View sig .tc .vmem S2048x256 .f32 := (Memref.whole cc0_stg11_0 : Memref sig .tc .vmem S2048x256 .f32).view
abbrev VO0_12 : View sig .tc .vmem S2048x256 .f32 := (Memref.whole cc0_stg12_0 : Memref sig .tc .vmem S2048x256 .f32).view

theorem hz2 : (![0, 0] : Fin 2 → Nat) = fun _ => 0 := funext fun a => by fin_cases a <;> rfl
theorem hz1 : (![0] : Fin 1 → Nat) = fun _ => 0 := funext fun a => by fin_cases a; rfl

def outs0 {P : List (View.Piece (Elt F) S2048x256 .f32) → List (View.Piece (Elt F) S2048x256 .f32) → Prop} (r : Σ' L11, { L12 // P L11 L12 }) : Vec F S2048x256 .f32 × Vec F S2048x256 .f32 :=
  (VO0_11.read (Elt F) (VO0_11.writes (Elt F) VO0_11.junk r.1), VO0_12.read (Elt F) (VO0_12.writes (Elt F) VO0_12.junk r.2.1))

theorem owns_unread (c : Dev nD) {S : Shape} {e : EltTy} {m : Memref sig .tc .vmem S e} (h : m.IsWhole) (x : Vec F S e) :
    (m.view.loc (c : Thread nD τ) ↦[m.view.set]{fullShare} h.unread x : sProp 𝕄) ⊢ iprop(∃ f, ⌜m.view.read (Elt F) f = x⌝ ∗ (m.view.loc (c : Thread nD τ) ↦[m.view.set]{fullShare} f)) := by
  iintro H; iexists _; isplitr; · ipureintro; exact h.read_unread _
  iexact H

section Run
variable (c : Dev nD) (i : grid0.Coords) (arg1 : Memref sig .tc .vmem S2000x512 .f32) (harg1 : arg1.IsWhole) (arg2 : Memref sig .tc .vmem S512x256 .bf16) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S512x256 .bf16) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S2048x256 .f32) (harg12 : arg12.IsWhole) (arg13 : Memref sig .tc .vmem S2048x256 .f32) (harg13 : arg13.IsWhole) (x0 : Vec F S2000x512 .f32) (x1 : Vec F S512x256 .bf16) (x2 : Vec F S256 .f32) (x3 : Vec F S256x256 .f32) (x4 : Vec F S256 .f32) (x5 : Vec F S512x256 .bf16) (x6 : Vec F S256 .f32) (x7 : Vec F S256x256 .f32) (x8 : Vec F S256 .f32) (x9 : Vec F S2000x1 .i32) (x10 : Vec F S2000x1 .f32)

-- The eleven inputs, each owned at its contents.
def ins0 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10)

section
variable (hc0 : cond0_0 i)

set_option maxHeartbeats 4000000 in
noncomputable def kernelRun0_A :
    Σ' (L11 : List (View.Piece (Elt F) S2048x256 .f32)), { L12 : List (View.Piece (Elt F) S2048x256 .f32) //
      ∀ (E : Set ℕ) (K : PUnit → sProp 𝕄),
        iprop(ins0 c arg1 arg2 arg3 arg4 arg5 arg6 arg7 arg8 arg9 arg10 arg11 x0 x1 x2 x3 x4 x5 x6 x7 x8 x9 x10 ∗ (∃ d, owns (c : Thread nD τ) arg12 fullShare d) ∗ (∃ d, owns (c : Thread nD τ) arg13 fullShare d)
            ∗ (iprop(ins0 c arg1 arg2 arg3 arg4 arg5 arg6 arg7 arg8 arg9 arg10 arg11 x0 x1 x2 x3 x4 x5 x6 x7 x8 x9 x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0__encode_reduce_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__encode_reduce_kernel_eq_skeleton]; unfold cc0__encode_reduce_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0)
    sl_step
    iapply Hk
    isplitl [H0 H1 H2 H3 H4 H5 H6 H7 H8 H9 H10]
    · isplitl [H0]; · iapply owns_unread c harg1; iexact H0
      isplitl [H1]; · iapply owns_unread c harg2; iexact H1
      isplitl [H2]; · iapply owns_unread c harg3; iexact H2
      isplitl [H3]; · iapply owns_unread c harg4; iexact H3
      isplitl [H4]; · iapply owns_unread c harg5; iexact H4
      isplitl [H5]; · iapply owns_unread c harg6; iexact H5
      isplitl [H6]; · iapply owns_unread c harg7; iexact H6
      isplitl [H7]; · iapply owns_unread c harg8; iexact H7
      isplitl [H8]; · iapply owns_unread c harg9; iexact H8
      isplitl [H9]; · iapply owns_unread c harg10; iexact H9
      iapply owns_unread c harg11; iexact H10
    isplitl [H11]
    · iexists _; iexact H11
    iexists _; iexact H12

def out0_A : Vec F S2048x256 .f32 × Vec F S2048x256 .f32 :=
  outs0 (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0)

theorem out0_A_eq : out0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 =
    (k0_pay3 (k0_pay8 x0 x1 x2 x3 x4) x9 x10 (k0_pay5 (F := F)), k0_pay4 (k0_pay9 x0 x5 x6 x7 x8) (k0_pay10 x0 x5 x6 x7 x8) (k0_pay11 (F := F)) x9 x10 (k0_pay6 (F := F))) := by
  unfold out0_A outs0
  rw [View.read_writes_junk_eq_canon, View.read_writes_junk_eq_canon]
  unfold kernelRun0_A
  dsimp only
  sl_unfold_run_names
  refine congrArg₂ Prod.mk ?_ ?_ <;>
    (rw [View.canon_cons_unit_zero hz2, View.readCov_unit_zero (S := S2048x256) _ hz2]
     simp only [View.readAt_eq_ld, Memref.IsWhole.read_unread, View.ld_unit_zero (S := S2000x512) hz2, View.ld_unit_zero (S := S512x256) hz2, View.ld_unit_zero (S := S256) hz1, View.ld_unit_zero (S := S256x256) hz2, View.ld_unit_zero (S := S2000x1) hz2, View.ld_unit_zero (S := S2048x256) hz2])

end

section
variable (hc0 : ¬cond0_0 i) (xo11 : Vec F S2048x256 .f32) (xo12 : Vec F S2048x256 .f32)

set_option maxHeartbeats 4000000 in
noncomputable def kernelRun0_B :
    Σ' (L11 : List (View.Piece (Elt F) S2048x256 .f32)), { L12 : List (View.Piece (Elt F) S2048x256 .f32) //
      ∀ (E : Set ℕ) (K : PUnit → sProp 𝕄),
        iprop(ins0 c arg1 arg2 arg3 arg4 arg5 arg6 arg7 arg8 arg9 arg10 arg11 x0 x1 x2 x3 x4 x5 x6 x7 x8 x9 x10 ∗ owns (c : Thread nD τ) arg12 fullShare xo11 ∗ owns (c : Thread nD τ) arg13 fullShare xo12
            ∗ (iprop(ins0 c arg1 arg2 arg3 arg4 arg5 arg6 arg7 arg8 arg9 arg10 arg11 x0 x1 x2 x3 x4 x5 x6 x7 x8 x9 x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0__encode_reduce_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__encode_reduce_kernel_eq_skeleton]; unfold cc0__encode_reduce_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0 H1 H2 H3 H4 H5 H6 H7 H8 H9 H10]
    · isplitl [H0]; · iapply owns_unread c harg1; iexact H0
      isplitl [H1]; · iapply owns_unread c harg2; iexact H1
      isplitl [H2]; · iapply owns_unread c harg3; iexact H2
      isplitl [H3]; · iapply owns_unread c harg4; iexact H3
      isplitl [H4]; · iapply owns_unread c harg5; iexact H4
      isplitl [H5]; · iapply owns_unread c harg6; iexact H5
      isplitl [H6]; · iapply owns_unread c harg7; iexact H6
      isplitl [H7]; · iapply owns_unread c harg8; iexact H7
      isplitl [H8]; · iapply owns_unread c harg9; iexact H8
      isplitl [H9]; · iapply owns_unread c harg10; iexact H9
      iapply owns_unread c harg11; iexact H10
    isplitl [H11]
    · iexists _; iexact H11
    iexists _; iexact H12

def out0_B : Vec F S2048x256 .f32 × Vec F S2048x256 .f32 :=
  outs0 (kernelRun0_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 xo11 xo12)

theorem out0_B_eq : out0_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 xo11 xo12 =
    (k0_pay3 (k0_pay8 x0 x1 x2 x3 x4) x9 x10 xo11, k0_pay4 (k0_pay9 x0 x5 x6 x7 x8) (k0_pay10 x0 x5 x6 x7 x8) (k0_pay11 (F := F)) x9 x10 xo12) := by
  unfold out0_B outs0
  rw [View.read_writes_junk_eq_canon, View.read_writes_junk_eq_canon]
  unfold kernelRun0_B
  dsimp only
  sl_unfold_run_names
  refine congrArg₂ Prod.mk ?_ ?_ <;>
    (rw [View.canon_cons_unit_zero hz2]
     simp only [View.readAt_eq_ld, Memref.IsWhole.read_unread, View.ld_unit_zero (S := S2000x512) hz2, View.ld_unit_zero (S := S512x256) hz2, View.ld_unit_zero (S := S256) hz1, View.ld_unit_zero (S := S256x256) hz2, View.ld_unit_zero (S := S2000x1) hz2, View.ld_unit_zero (S := S2048x256) hz2])

end

end Run

def outA (c : Dev nD) (t : Fin cfg0.N) (h0 : t.val % 50 = 0) : Vec F S2048x256 .f32 × Vec F S2048x256 .f32 :=
  out0_A c (grid0.coords t) _ (stage_whole0 0 (cfg0.slots t 0)) _ (stage_whole0 1 (cfg0.slots t 1)) _ (stage_whole0 2 (cfg0.slots t 2)) _ (stage_whole0 3 (cfg0.slots t 3)) _ (stage_whole0 4 (cfg0.slots t 4)) _ (stage_whole0 5 (cfg0.slots t 5)) _ (stage_whole0 6 (cfg0.slots t 6)) _ (stage_whole0 7 (cfg0.slots t 7)) _ (stage_whole0 8 (cfg0.slots t 8)) _ (stage_whole0 9 (cfg0.slots t 9)) _ (stage_whole0 10 (cfg0.slots t 10)) _ (stage_whole0 11 (cfg0.slots t 11)) _ (stage_whole0 12 (cfg0.slots t 12)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((hcond0_0 t).mpr h0)

def outB (c : Dev nD) (t : Fin cfg0.N) (h0 : ¬t.val % 50 = 0) (p : Vec F S2048x256 .f32 × Vec F S2048x256 .f32) : Vec F S2048x256 .f32 × Vec F S2048x256 .f32 :=
  out0_B c (grid0.coords t) _ (stage_whole0 0 (cfg0.slots t 0)) _ (stage_whole0 1 (cfg0.slots t 1)) _ (stage_whole0 2 (cfg0.slots t 2)) _ (stage_whole0 3 (cfg0.slots t 3)) _ (stage_whole0 4 (cfg0.slots t 4)) _ (stage_whole0 5 (cfg0.slots t 5)) _ (stage_whole0 6 (cfg0.slots t 6)) _ (stage_whole0 7 (cfg0.slots t 7)) _ (stage_whole0 8 (cfg0.slots t 8)) _ (stage_whole0 9 (cfg0.slots t 9)) _ (stage_whole0 10 (cfg0.slots t 10)) _ (stage_whole0 11 (cfg0.slots t 11)) _ (stage_whole0 12 (cfg0.slots t 12)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (fun h => h0 ((hcond0_0 t).mp h)) p.1 p.2

-- The accumulators after point `n`: the reset case at the first point, afterwards the adding case over point `n - 1`.
def outsAt0 (c : Dev nD) : (n : ℕ) → n < cfg0.N → Vec F S2048x256 .f32 × Vec F S2048x256 .f32
  | 0, hn => outA V c ⟨0, hn⟩ (Nat.zero_mod _)
  | n + 1, hn => if h0 : (n + 1) % 50 = 0 then outA V c ⟨n + 1, hn⟩ h0 else outB V c ⟨n + 1, hn⟩ h0 (outsAt0 c n (Nat.lt_of_succ_lt hn))

theorem outsAt0_A (c : Dev nD) (t : Fin cfg0.N) (h0 : t.val % 50 = 0) : outsAt0 V c t.val t.isLt = outA V c t h0 := by
  obtain ⟨n, hn⟩ := t
  cases n with
  | zero => exact rfl
  | succ n => exact (dif_pos h0).trans rfl

theorem outsAt0_B (c : Dev nD) (t : Fin cfg0.N) (h0 : ¬t.val % 50 = 0) :
    outsAt0 V c t.val t.isLt = outB V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]
theorem owed_eq0 (c : Dev nD) (t) : (dat0 V c).owed t = 0 := by
  dsimp only [dat0]
theorem q_eq0 (c : Dev nD) (w : Fin cfg0.W) : (dat0 V c).q w = fullShare := by
  dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) ∧ (∀ d, (dat0 V c).before 9 t d = iblk0 V c 9 t) ∧ (∀ d, (dat0 V c).before 10 t d = iblk0 V c 10 t) := by
  refine ⟨?_, ?_, ?_, ?_, ?_, ?_, ?_, ?_, ?_, ?_, ?_⟩ <;>
    exact fun d => ((dat0 V c).before_in_eq_fetched _ (by rfl) (fun _ => by rfl) (fun _ _ _ => by rfl) (fun _ => by rfl) t d).trans (by rfl)
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2 := by dsimp only [dat0]

theorem before0_11_B (c : Dev nD) (t : Fin cfg0.N) (h0 : ¬t.val % 50 = 0) (d) :
    (dat0 V c).before 11 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 11 rfl t (by omega) (Bool.eq_false_iff.mpr fun h => by have := (flush0_11 _).mp h; dsimp only at this; omega)
    (fun _ => rfl) (fun _ _ => rfl)]
  dsimp only [dat0]
theorem before0_12_B (c : Dev nD) (t : Fin cfg0.N) (h0 : ¬t.val % 50 = 0) (d) :
    (dat0 V c).before 12 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 12 rfl t (by omega) (Bool.eq_false_iff.mpr fun h => by have := (flush0_12 _).mp h; dsimp only at this; omega)
    (fun _ => rfl) (fun _ _ => rfl)]
  dsimp only [dat0]

theorem body_obligation0 (c : Dev nD) : BodyObligation (dat0 (F := F) V c) (defs₀ (F := F)) Variants.none () Set.univ := fun t => by
  rw [bigSep_W0, bigSep_W0]
  dsimp only
  simp only [before0 V c t]
  rw [show (dat0 V c).Φ t.succ = (dat0 V c).Φ t.castSucc from rfl,
    show (dat0 V c).owesAt () t.succ = (dat0 V c).owesAt () t.castSucc from rfl]
  by_cases h0 : t.val % 50 = 0
  on_goal 1 => dsimp only [dat0]; rw [outsAt0_A V c t h0]; unfold outA out0_A
  on_goal 2 => simp only [before0_11_B V c t h0, before0_12_B V c t h0]; dsimp only [dat0]; rw [outsAt0_B V c t h0]; unfold outB out0_B
  all_goals
    unfold outs0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  on_goal 1 =>
    iapply ((kernelRun0_A c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((hcond0_0 t).mpr h0)).2.2 Set.univ _)
    unfold ins0
    iframe H0 H1 H2 H3 H4 H5 H6 H7 H8 H9 H10
    isplitl [H11]; · iexists _; iexact H11
    isplitl [H12]; · iexists _; iexact H12
  on_goal 2 =>
    iapply ((kernelRun0_B c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (fun h => h0 ((hcond0_0 t).mp h)) _ _).2.2 Set.univ _)
    unfold ins0
    iframe H0 H1 H2 H3 H4 H5 H6 H7 H8 H9 H10 H11 H12
  all_goals
    iintro ⟨⟨H0, H1, H2, H3, H4, H5, H6, H7, H8, H9, H10⟩, ⟨%e11, H11⟩, ⟨%e12, H12⟩⟩
    iframe HΦ Ho H0 H1 H2 H3 H4 H5 H6 H7 H8 H9 H10
    isplitl [H11]
    · ihave H' := (Ring.owns_of_writes_tiledL VO0_11 S2048x256.size) $$ H11; iapply H'; ipureintro; sl_kernel_rfl
    · ihave H' := (Ring.owns_of_writes_tiledL VO0_12 S2048x256.size) $$ H12; iapply H'; ipureintro; sl_kernel_rfl

theorem hin0 (c : Dev nD) : (Pipeline.ΦA spec0 c : sProp 𝕄) ⊢ (dat0 V c).Φ 0 := by
  rw [show (dat0 V c).Φ 0 = Pipeline.ΦA spec0 c from rfl]
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

def step0_11 (c : Dev nD) (t : Fin cfg0.N) (prev : Vec F S2048x256 .f32) : Vec F S2048x256 .f32 :=
  k0_pay3 (k0_pay8 (iblk0 V c 0 t) (iblk0 V c 1 t) (iblk0 V c 2 t) (iblk0 V c 3 t) (iblk0 V c 4 t)) (iblk0 V c 9 t) (iblk0 V c 10 t) prev

def step0_12 (c : Dev nD) (t : Fin cfg0.N) (prev : Vec F S2048x256 .f32) : Vec F S2048x256 .f32 :=
  k0_pay4 (k0_pay9 (iblk0 V c 0 t) (iblk0 V c 5 t) (iblk0 V c 6 t) (iblk0 V c 7 t) (iblk0 V c 8 t)) (k0_pay10 (iblk0 V c 0 t) (iblk0 V c 5 t) (iblk0 V c 6 t) (iblk0 V c 7 t) (iblk0 V c 8 t)) (k0_pay11 (F := F)) (iblk0 V c 9 t) (iblk0 V c 10 t) prev

def acc0 (c : Dev nD) : (n : ℕ) → n < cfg0.N → Vec F S2048x256 .f32 × Vec F S2048x256 .f32
  | 0, hn => (step0_11 V c ⟨0, hn⟩ (k0_pay5 (F := F)), step0_12 V c ⟨0, hn⟩ (k0_pay6 (F := F)))
  | n + 1, hn => (step0_11 V c ⟨n + 1, hn⟩ (acc0 c n (Nat.lt_of_succ_lt hn)).1, step0_12 V c ⟨n + 1, hn⟩ (acc0 c n (Nat.lt_of_succ_lt hn)).2)

theorem acc0_zero (c : Dev nD) (hn : 0 < cfg0.N) :
    acc0 V c 0 hn = (step0_11 V c ⟨0, hn⟩ (k0_pay5 (F := F)), step0_12 V c ⟨0, hn⟩ (k0_pay6 (F := F))) := rfl
theorem acc0_succ (c : Dev nD) (n : ℕ) (hn : n + 1 < cfg0.N) :
    acc0 V c (n + 1) hn = (step0_11 V c ⟨n + 1, hn⟩ (acc0 V c n (Nat.lt_of_succ_lt hn)).1, step0_12 V c ⟨n + 1, hn⟩ (acc0 V c n (Nat.lt_of_succ_lt hn)).2) := rfl

-- Induction on the point: zeros plus the first step, then one more step at each later point.
theorem outsAt0_eq (c : Dev nD) : ∀ (n : ℕ) (hn : n < cfg0.N), outsAt0 V c n hn = acc0 V c n hn := by
  intro n
  induction n with
  | zero =>
    intro hn
    refine (outsAt0_A V c ⟨0, hn⟩ (Nat.zero_mod _)).trans ?_
    unfold outA
    rw [out0_A_eq]
    rfl
  | succ n ih =>
    intro hn
    have h0 : ¬(n + 1) % 50 = 0 := by
      have := lt_of_lt_of_eq hn (show cfg0.N = 50 from N_0); omega
    refine (outsAt0_B V c ⟨n + 1, hn⟩ h0).trans ?_
    unfold outB
    rw [out0_B_eq, acc0_succ, ← ih (Nat.lt_of_succ_lt hn)]
    rfl

theorem h49 : 49 < cfg0.N := by rw [show cfg0.N = 50 from N_0]; decide

theorem hoff0_11 (t : Fin cfg0.N) : (fun a => win0_11.index t a * main_v4_0.ty.shape.size a) = fun _ => 0 :=
  funext fun a => by fin_cases a <;> rfl
theorem hoff0_12 (t : Fin cfg0.N) : (fun a => win0_12.index t a * main_v4_1.ty.shape.size a) = fun _ => 0 :=
  funext fun a => by fin_cases a <;> rfl

theorem flushed0_11 (c : Dev nD) (t : Fin cfg0.N) (hf : (cfg0.win 11).flush t = true) :
    (dat0 V c).flushed 11 t = ((cfg0.win 11).blk t).view.read (Elt F) (acc0 V c 49 h49).1 := by
  have hN : cfg0.N = 50 := N_0
  have h1 : t.val = 49 := by have := (flush0_11 t).mp hf; have := t.isLt; omega
  obtain rfl : t = ⟨49, h49⟩ := Fin.ext h1
  show (cfg0.win 11).cut (grid0.coords ⟨49, h49⟩) ((dat0 V c).after 11 ⟨49, h49⟩) = _
  rw [after0_11, outsAt0_eq]
  exact (Memref.read_access_unit_zero (Elt F) main_v4_0 (hoff0_11 _) (fun a => by rw [congrFun (hoff0_11 _) a]; simp) (acc0 V c 49 h49).1).symm

theorem flushed0_12 (c : Dev nD) (t : Fin cfg0.N) (hf : (cfg0.win 12).flush t = true) :
    (dat0 V c).flushed 12 t = ((cfg0.win 12).blk t).view.read (Elt F) (acc0 V c 49 h49).2 := by
  have hN : cfg0.N = 50 := N_0
  have h1 : t.val = 49 := by have := (flush0_12 t).mp hf; have := t.isLt; omega
  obtain rfl : t = ⟨49, h49⟩ := Fin.ext h1
  show (cfg0.win 12).cut (grid0.coords ⟨49, h49⟩) ((dat0 V c).after 12 ⟨49, h49⟩) = _
  rw [after0_12, outsAt0_eq]
  exact (Memref.read_access_unit_zero (Elt F) main_v4_1 (hoff0_12 _) (fun a => by rw [congrFun (hoff0_12 _) a]; simp) (acc0 V c 49 h49).2).symm

theorem final0_11 (c : Dev nD) : (dat0 V c).arrAt 11 cfg0.N = (acc0 V c 49 h49).1 :=
  (dat0 V c).arrAt_eq_of_cover 11 (acc0 V c 49 h49).1 (flushed0_11 V c) fun i =>
    ⟨⟨49, h49⟩, (flush0_11 _).mpr rfl, by
      show i ∈ ((View.whole main_v4_0).slice (win0_11.rect ⟨49, h49⟩)).set
      rw [View.set_slice_whole]
      exact View.mem_set_unit_zero (hoff0_11 _) _ i⟩

theorem final0_12 (c : Dev nD) : (dat0 V c).arrAt 12 cfg0.N = (acc0 V c 49 h49).2 :=
  (dat0 V c).arrAt_eq_of_cover 12 (acc0 V c 49 h49).2 (flushed0_12 V c) fun i =>
    ⟨⟨49, h49⟩, (flush0_12 _).mpr rfl, by
      show i ∈ ((View.whole main_v4_1).slice (win0_12.rect ⟨49, h49⟩)).set
      rw [View.set_slice_whole]
      exact View.mem_set_unit_zero (hoff0_12 _) _ i⟩

end Cert.Kernel.Hand

end
-- ==== Proof.K.R1.lean ====
import proofs.«412354_j76115410419855_2_alg».proof.Proof.Gen.Kernel.Launch
import proofs.«412354_j76115410419855_2_alg».proof.Proof.Gen.Kernel.Skeleton
import proofs.«412354_j76115410419855_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz2 : (![0, 0] : Fin 2 → Nat) = fun _ => 0 := funext fun a => by fin_cases a <;> rfl
theorem hz1 : (![0] : Fin 1 → Nat) = fun _ => 0 := funext fun a => by fin_cases a; rfl

abbrev r1_0 : Rect S2048x256 := Rect.unit (s := S2048x256) ![0, 0] S2048x256.size inb_S2048x256_S2048x256_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S2048x1 := Rect.unit (s := S2048x1) ![0, 0] S2048x1.size inb_S2048x1_S2048x1_0_0

def out1_6 (x0 x1 : Vec F S2048x256 .f32) (x2 : Vec F S256x256 .f32) (x3 : Vec F S256 .f32) (x4 : Vec F S256x256 .f32) (x5 : Vec F S256 .f32) : Vec F S2048x256 .f32 :=
  View.canon [⟨r1_0, k1_pay2 (View.ld x0 r1_0)⟩]

def out1_7 (x0 x1 : Vec F S2048x256 .f32) (x2 : Vec F S256x256 .f32) (x3 : Vec F S256 .f32) (x4 : Vec F S256x256 .f32) (x5 : Vec F S256 .f32) : Vec F S2048x1 .f32 :=
  View.canon [⟨r1_3, k1_pay3 (View.ld x0 r1_0) (View.ld x2 r1_1) (View.ld x3 r1_2) (View.ld x4 r1_1) (View.ld x5 r1_2) (View.ld x1 r1_0)⟩]

set_option maxHeartbeats 4000000 in
theorem sound_kernel1 (c : Dev nD) (E : Set ℕ) (i : grid1.Coords)
    {arg1 arg2 arg7 : Memref sig .tc .vmem S2048x256 .f32} {arg3 arg5 : Memref sig .tc .vmem S256x256 .f32} {arg4 arg6 : Memref sig .tc .vmem S256 .f32}
    {arg8 : Memref sig .tc .vmem S2048x1 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    (x0 x1 : Vec F S2048x256 .f32) (x2 : Vec F S256x256 .f32) (x3 : Vec F S256 .f32) (x4 : Vec F S256x256 .f32) (x5 : Vec F S256 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ (∃ d, owns c.tc arg7 fullShare d) ∗ (∃ d, owns c.tc arg8 fullShare d)
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (out1_6 x0 x1 x2 x3 x4 x5) ∗ owns c.tc arg8 fullShare (out1_7 x0 x1 x2 x3 x4 x5)) -∗ K ⟨⟩))
      ⊢ wp frame (wpE (defs₀ (F := F)) Variants.none c none) E (cc1__proj_pos_kernel i arg1 harg1 arg2 harg2 arg3 harg3 arg4 harg4 arg5 harg5 arg6 harg6 arg7 harg7 arg8 harg8) K := by
  simp only [cc1__proj_pos_kernel_eq_skeleton]; unfold cc1__proj_pos_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ fun y => ⟨_, List.mem_singleton_self _, View.mem_set_unit_zero hz2 inb_S2048x256_S2048x256_0_0 y⟩
  iexists _; isplitr
  swap; · iexact H7
  ipureintro
  try dsimp only
  exact View.read_writes_eq_canon _ _ _ fun y => ⟨_, List.mem_singleton_self _, View.mem_set_unit_zero hz2 inb_S2048x1_S2048x1_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl
theorem owed_eq1 (c : Dev nD) (t) : (dat1 V c).owed t = 0 := rfl
theorem q_eq1 (c : Dev nD) (w : Fin cfg1.W) : (dat1 V c).q w = fullShare := rfl

theorem body_obligation1 (c : Dev nD) : BodyObligation (dat1 (F := F) V c) (defs₀ (F := F)) Variants.none () Set.univ := fun t => by
  rw [bigSep_W1, bigSep_W1]
  simp only [show ∀ w i, cfg1.idle w i = false from fun _ _ => rfl,
    show ∀ d, (dat1 V c).before 0 t d = iblk1 V c 0 t from (dat1 V c).before_fetched 0 t (fetch1_0 t), show ∀ d, (dat1 V c).before 1 t d = iblk1 V c 1 t from (dat1 V c).before_fetched 1 t (fetch1_1 t),
    show ∀ d, (dat1 V c).before 2 t d = iblk1 V c 2 t from (dat1 V c).before_fetched 2 t (fetch1_2 t), show ∀ d, (dat1 V c).before 3 t d = iblk1 V c 3 t from (dat1 V c).before_fetched 3 t (fetch1_3 t),
    show ∀ d, (dat1 V c).before 4 t d = iblk1 V c 4 t from (dat1 V c).before_fetched 4 t (fetch1_4 t), show ∀ d, (dat1 V c).before 5 t d = iblk1 V c 5 t from (dat1 V c).before_fetched 5 t (fetch1_5 t)]
  rw [show (dat1 V c).owesAt () t.succ = (dat1 V c).owesAt () t.castSucc from rfl]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  isplitl [H7]; · iexists _; iexact H7
  iintro ⟨H0, H1, H2, H3, H4, H5, H6, H7⟩
  iframe HΦ Ho H0 H1 H2 H3 H4 H5 H6
  iexact H7

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

theorem iblk1_whole (c : Dev nD) (t : Fin cfg1.N) :
    iblk1 V c 0 t = V c (Pipeline.arrRef spec1 0) ∧ iblk1 V c 1 t = V c (Pipeline.arrRef spec1 1) ∧ iblk1 V c 2 t = V c (Pipeline.arrRef spec1 2)
      ∧ iblk1 V c 3 t = V c (Pipeline.arrRef spec1 3) ∧ iblk1 V c 4 t = V c (Pipeline.arrRef spec1 4) ∧ iblk1 V c 5 t = V c (Pipeline.arrRef spec1 5) := by
  obtain rfl := fin_N1 t
  refine ⟨?_, ?_, ?_, ?_, ?_, ?_⟩ <;> exact Memref.read_access_unit_zero (Elt F) _ (funext fun a => by fin_cases a <;> decide) _ _

theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

theorem final1 (c : Dev nD) (w : Fin cfg1.W) (hf : (cfg1.win w).flush t1_0 = true) (G)
    (hG : (dat1 V c).flushed w t1_0 = ((cfg1.win w).blk t1_0).view.read (Elt F) G)
    (hs : ((cfg1.win w).blk t1_0).view.set = Finset.univ) : (dat1 V c).arrAt w cfg1.N = G :=
  (dat1 V c).arrAt_eq_of_cover w G (fun t _ => fin_N1 t ▸ hG) fun i => ⟨t1_0, hf, hs ▸ Finset.mem_univ i⟩

theorem final1_6 (c : Dev nD) : (dat1 V c).arrAt 6 cfg1.N = k1_pay2 (V c (Pipeline.arrRef spec1 0)) := by
  obtain ⟨e0, -⟩ := iblk1_whole V c t1_0
  have h0 : (fun a => win1_6.index t1_0 a * main_v5_0.ty.shape.size a) = fun _ => 0 := funext fun a => by fin_cases a <;> decide
  refine final1 V c 6 (flush1_6 _) _ ?_ (set_access_unit_zero main_v5_0 h0 _)
  dsimp only [Dat.flushed, dat1, out1_6]
  rw [View.canon_unit_zero hz2, View.ld_unit_zero hz2, e0]
  exact (Memref.read_access_unit_zero (Elt F) main_v5_0 h0 _ _).symm

theorem final1_7 (c : Dev nD) : (dat1 V c).arrAt 7 cfg1.N
    = k1_pay3 (V c (Pipeline.arrRef spec1 0)) (V c (Pipeline.arrRef spec1 2)) (V c (Pipeline.arrRef spec1 3))
        (V c (Pipeline.arrRef spec1 4)) (V c (Pipeline.arrRef spec1 5)) (V c (Pipeline.arrRef spec1 1)) := by
  obtain ⟨e0, e1, e2, e3, e4, e5⟩ := iblk1_whole V c t1_0
  have h0 : (fun a => win1_7.index t1_0 a * main_v5_1.ty.shape.size a) = fun _ => 0 := funext fun a => by fin_cases a <;> decide
  refine final1 V c 7 (flush1_7 _) _ ?_ (set_access_unit_zero main_v5_1 h0 _)
  dsimp only [Dat.flushed, dat1, out1_7]
  rw [View.canon_unit_zero hz2]
  simp only [View.ld_unit_zero (S := S2048x256) hz2, View.ld_unit_zero (S := S256x256) hz2, View.ld_unit_zero (S := S256) hz1]
  rw [e0, e1, e2, e3, e4, e5]
  exact (Memref.read_access_unit_zero (Elt F) main_v5_1 h0 _ _).symm

end Cert.Kernel.Hand

end
-- ==== Proof.K.R2.lean ====
import proofs.«412354_j76115410419855_2_alg».proof.Proof.Gen.Kernel.Launch
import proofs.«412354_j76115410419855_2_alg».proof.Proof.Gen.Kernel.Skeleton
import proofs.«412354_j76115410419855_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

abbrev r2_0 : Rect S256x256 := Rect.unit (s := S256x256) ![0, 0] S256x256.size inb_S256x256_S256x256_0_0
abbrev r2_1 : Rect S2048x256 := Rect.unit (s := S2048x256) ![0, 0] S2048x256.size inb_S2048x256_S2048x256_0_0
abbrev r2_2 : Rect S256x2048 := Rect.unit (s := S256x2048) ![0, 0] S256x2048.size inb_S256x2048_S256x2048_0_0
abbrev r2_3 : Rect S256x1 := Rect.unit (s := S256x1) ![0, 0] S256x1.size inb_S256x1_S256x1_0_0

def out2_2 (x0 : Vec F S256x256 .f32) (x1 : Vec F S2048x256 .f32) : Vec F S256x2048 .f32 :=
  View.canon [⟨r2_2, k2_pay1 (View.ld x0 r2_0) (View.ld x1 r2_1)⟩]

def out2_3 (x0 : Vec F S256x256 .f32) (x1 : Vec F S2048x256 .f32) : Vec F S256x1 .f32 :=
  View.canon [⟨r2_3, k2_pay2 (View.ld x0 r2_0) (View.ld x1 r2_1)⟩]

set_option maxHeartbeats 1000000 in

theorem sound_kernel2 (c : Dev nD) (E : Set ℕ) (i : grid2.Coords)
    (arg1 : Memref sig .tc .vmem S256x256 .f32) (harg1 : arg1.IsWhole) (arg2 : Memref sig .tc .vmem S2048x256 .f32) (harg2 : arg2.IsWhole)
    (arg3 : Memref sig .tc .vmem S256x2048 .f32) (harg3 : arg3.IsWhole) (arg4 : Memref sig .tc .vmem S256x1 .f32) (harg4 : arg4.IsWhole)
    (x0 : Vec F S256x256 .f32) (x1 : Vec F S2048x256 .f32) (K : PUnit → sProp 𝕄) :
    iprop(owns c.tc arg1 fullShare x0 ∗ owns c.tc arg2 fullShare x1
        ∗ (∃ d, owns c.tc arg3 fullShare d) ∗ (∃ d, owns c.tc arg4 fullShare d)
        ∗ (iprop(owns c.tc arg1 fullShare x0 ∗ owns c.tc arg2 fullShare x1
            ∗ owns c.tc arg3 fullShare (out2_2 x0 x1) ∗ owns c.tc arg4 fullShare (out2_3 x0 x1)) -∗ K ⟨⟩))
      ⊢ wp frame (wpE (defs₀ (F := F)) Variants.none c none) E (cc2__neg_score_kernel i arg1 harg1 arg2 harg2 arg3 harg3 arg4 harg4) K := by
  simp only [cc2__neg_score_kernel_eq_skeleton]; unfold cc2__neg_score_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ fun y => ⟨_, List.mem_singleton_self _, View.mem_set_unit_zero hz2 inb_S256x2048_S256x2048_0_0 y⟩
  iexists _; isplitr
  swap; · iexact H3
  ipureintro
  exact View.read_writes_eq_canon _ _ _ fun y => ⟨_, List.mem_singleton_self _, View.mem_set_unit_zero hz2 inb_S256x1_S256x1_0_0 y⟩

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q w := match w with
    | ⟨0, _⟩ => fullShare.left
    | ⟨1, _⟩ => fullShare.right
    | ⟨2, _⟩ => fullShare
    | ⟨3, _⟩ => fullShare
  owed _ := 0

theorem A_eq2 (c : Dev nD) (w : Fin cfg2.W) : (dat2 V c).A w = V c (Pipeline.arrRef spec2 w) := rfl
theorem owed_eq2 (c : Dev nD) (t) : (dat2 V c).owed t = 0 := rfl

theorem body_obligation2 (c : Dev nD) : BodyObligation (dat2 (F := F) V c) (defs₀ (F := F)) Variants.none () Set.univ := fun t => by
  rw [bigSep_W2, bigSep_W2]
  simp only [show ∀ w i, cfg2.idle w i = false from fun _ _ => rfl,
    show ∀ d, (dat2 V c).before 0 t d = iblk2 V c 0 t from (dat2 V c).before_fetched 0 t (fetch2_0 t),
    show ∀ d, (dat2 V c).before 1 t d = iblk2 V c 1 t from (dat2 V c).before_in_eq_fetched 1 rfl (fun _ => rfl) (fun _ _ _ => rfl) (fun _ => rfl) t]
  rw [show (dat2 V c).owesAt () t.succ = (dat2 V c).owesAt () t.castSucc from rfl]
  dsimp only [dat2]
  show _ ⊢ wp _ _ _ (bodyAt2 t) _
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  iframe H0 H1
  isplitl [H2]; · iexists _; iexact H2
  isplitl [H3]; · iexists _; iexact H3
  iintro ⟨H0, H1, H2, H3⟩
  iframe HΦ Ho H0 H1 H2
  iexact H3

theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

theorem share2 (c : Dev nD) : (dat2 V c).share 0 = fullShare.left ∧ (dat2 V c).share 1 = fullShare.right
    ∧ (dat2 V c).share 2 = fullShare ∧ (dat2 V c).share 3 = fullShare := ⟨rfl, rfl, rfl, rfl⟩

theorem arrRefs2 : Finset.image (Pipeline.arrRef cfg2.spec) Finset.univ = {main_v5_0, main_v6_0, main_v6_1} := by decide

theorem arrays2 (c : Dev nD) (V' : (b : Ref sig .tc) → Buf (Elt F) ((c : Thread nD τ).loc b))
    (X : (w : Fin cfg2.W) → Buf (Elt F) ((cfg2.win w).arr.view.loc (c.tc : Thread nD τ))) (hX : ∀ w, X w = V' (Pipeline.arrRef spec2 w)) :
    (dat2 V c).arrays X ⊣⊢ (Pipeline.arrBufs spec2 c V' : sProp 𝕄) := by
  obtain ⟨s0, s1, s2, s3⟩ := share2 V c
  unfold Pipeline.arrBufs Dat.arrays
  rw [bigSep_W2, arrRefs2,
    bigSep_insert (by decide), bigSep_insert (by decide), bigSep_singleton, s0, s1, s2, s3, hX 0, hX 1, hX 2, hX 3,
    (arr_whole2 0).set_eq_univ, (arr_whole2 2).set_eq_univ, (arr_whole2 3).set_eq_univ]
  exact ⟨sep_assoc'.trans (sep_mono (pointsTo_share (PosShare.mem_left_op_right fullShare)).2 .rfl),
    (sep_mono (pointsTo_share (PosShare.mem_left_op_right fullShare)).1 .rfl).trans sep_assoc⟩

theorem entry2 (c : Dev nD) :
    (unscopedBufs c (V c) : sProp 𝕄) ⊢ iprop((dat2 V c).arrays (dat2 V c).A ∗ Pipeline.unscopedRest spec2 c (V c)) := by
  rw [Pipeline.unscopedBufs_split₀ (fun _ : Unit => cfg2) () winFacts₀2.arr_unscoped c (V c)]
  exact sep_mono (arrays2 V c (V c) _ fun _ => rfl).2 .rfl

theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c)) ⊢ (unscopedBufs c V' : sProp 𝕄) := by
  rw [Pipeline.unscopedBufs_split₀ (fun _ : Unit => cfg2) () winFacts₀2.arr_unscoped c V']
  refine sep_mono (arrays2 V c V' _ hF).1 (Entails.of_eq ?_)
  unfold Pipeline.unscopedRest
  exact bigSep_congr fun b hb => by rw [hrest b (Finset.mem_sdiff.mp hb).2]

theorem lt8_2 (t : Fin cfg2.N) : t.val < 8 := t.isLt.trans_eq N_2

def ix2 {n m : Nat} (r : Fin n) (k : Fin m) : (⟨2, ![n, m]⟩ : Shape).Idx := fun a =>
  match a with
  | ⟨0, _⟩ => r
  | ⟨1, _⟩ => k

def rows2 (a : S2048x256.Idx → Elt F .f32) (q : Nat) (hq : q < 8) : Vec F S256x256 .f32 :=
  fun j => a (ix2 ⟨q * 256 + (j 0).val, by have := (show (j 0).val < 256 from (j 0).isLt); omega⟩ ⟨(j 1).val, (j 1).isLt⟩)

def G2_2 (a : S2048x256.Idx → Elt F .f32) : S2048x2048.Idx → Elt F .f32 := fun i =>
  k2_pay1 (rows2 a ((i 0).val / 256) (by have := (show (i 0).val < 2048 from (i 0).isLt); omega)) a
    (ix2 ⟨(i 0).val % 256, Nat.mod_lt _ (by decide)⟩ ⟨(i 1).val, (i 1).isLt⟩)

def G2_3 (a : S2048x256.Idx → Elt F .f32) : S2048x1.Idx → Elt F .f32 := fun i =>
  k2_pay2 (rows2 a ((i 0).val / 256) (by have := (show (i 0).val < 2048 from (i 0).isLt); omega)) a
    (ix2 ⟨(i 0).val % 256, Nat.mod_lt _ (by decide)⟩ ⟨(i 1).val, (i 1).isLt⟩)

theorem pay_congr {S : Shape} (P : Vec F S256x256 .f32 → S.Idx → Elt F .f32) (a : S2048x256.Idx → Elt F .f32) {q q' : Nat} (hq : q < 8) (hq' : q' < 8)
    (e : q = q') {x x' : S.Idx} (ex : x = x') : P (rows2 a q hq) x = P (rows2 a q' hq') x' := by
  subst e ex; rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem iblk2_0_eq (c : Dev nD) (t : Fin cfg2.N) :
    (iblk2 V c 0 t : Vec F S256x256 .f32) = rows2 (V c (Pipeline.arrRef spec2 0)) t.val (lt8_2 t) := by
  obtain ⟨e0, e1, -⟩ := idx_facts2 t
  funext j
  unfold iblk2 rows2
  rw [View.read_apply]
  exact congrArg (V c main_v5_0) (Shape.idx_ext₂ ((win2_0.rect_emb_val t j 0).trans (by rw [e0]; rfl)) (win2_0.rect_emb_val_of_index_zero t 1 e1 j))

theorem iblk2_1_eq (c : Dev nD) (t : Fin cfg2.N) :
    (iblk2 V c 1 t : Vec F S2048x256 .f32) = V c (Pipeline.arrRef spec2 0) := by
  obtain ⟨-, -, e0, e1, -⟩ := idx_facts2 t
  exact Memref.read_access_unit_zero (Elt F) main_v5_0
    (funext fun a => by fin_cases a <;> first | exact mul_eq_zero_of_left e0 _ | exact mul_eq_zero_of_left e1 _) _ _

theorem final2_2 (c : Dev nD) : (dat2 V c).arrAt 2 cfg2.N = G2_2 (V c (Pipeline.arrRef spec2 0)) := by
  have hemb (t : Fin cfg2.N) (j) : (((cfg2.win 2).blk t).view.emb j 0).val = t.val * 256 + (j 0).val
      ∧ (((cfg2.win 2).blk t).view.emb j 1).val = (j 1).val := by
    obtain ⟨-, -, -, -, e0, e1, -⟩ := idx_facts2 t
    exact ⟨(win2_2.rect_emb_val t j 0).trans (by rw [e0]; rfl), win2_2.rect_emb_val_of_index_zero t 1 e1 j⟩
  refine (dat2 V c).arrAt_eq_of_cover 2 _ (fun t _ => ?_) fun i => ?_
  · dsimp only [Dat.flushed, dat2, out2_2]
    rw [View.canon_unit_zero hz2, View.ld_unit_zero hz2, View.ld_unit_zero hz2, iblk2_0_eq, iblk2_1_eq]
    funext j
    rw [View.read_apply]
    obtain ⟨h0, h1⟩ := hemb t j
    have hj0 : (j 0).val < 256 := (j 0).isLt
    unfold G2_2
    exact pay_congr (fun r => k2_pay1 r _) _ _ _ (by rw [h0]; omega)
      (Shape.idx_ext₂ (by show (j 0).val = _ % 256; rw [h0]; omega) h1.symm)
  · have ht : (i 0).val / 256 < cfg2.N := Nat.div_lt_of_lt_mul (i 0).isLt
    obtain ⟨h0, h1⟩ := hemb ⟨_, ht⟩ (ix2 (n := 256) (m := 2048) ⟨(i 0).val % 256, Nat.mod_lt _ (by decide)⟩ (i 1))
    exact ⟨⟨_, ht⟩, flush2_2 _, Finset.mem_map.mpr ⟨_, Finset.mem_univ _,
      Shape.idx_ext₂ (h0.trans (by show (i 0).val / 256 * 256 + (i 0).val % 256 = _; omega)) h1⟩⟩

theorem final2_3 (c : Dev nD) : (dat2 V c).arrAt 3 cfg2.N = G2_3 (V c (Pipeline.arrRef spec2 0)) := by
  have hemb (t : Fin cfg2.N) (j) : (((cfg2.win 3).blk t).view.emb j 0).val = t.val * 256 + (j 0).val
      ∧ (((cfg2.win 3).blk t).view.emb j 1).val = (j 1).val := by
    obtain ⟨-, -, -, -, -, -, e0, e1⟩ := idx_facts2 t
    exact ⟨(win2_3.rect_emb_val t j 0).trans (by rw [e0]; rfl), win2_3.rect_emb_val_of_index_zero t 1 e1 j⟩
  refine (dat2 V c).arrAt_eq_of_cover 3 _ (fun t _ => ?_) fun i => ?_
  · dsimp only [Dat.flushed, dat2, out2_3]
    rw [View.canon_unit_zero hz2, View.ld_unit_zero hz2, View.ld_unit_zero hz2, iblk2_0_eq, iblk2_1_eq]
    funext j
    rw [View.read_apply]
    obtain ⟨h0, h1⟩ := hemb t j
    have hj0 : (j 0).val < 256 := (j 0).isLt
    unfold G2_3
    exact pay_congr (fun r => k2_pay2 r _) _ _ _ (by rw [h0]; omega)
      (Shape.idx_ext₂ (by show (j 0).val = _ % 256; rw [h0]; omega) h1.symm)
  · have ht : (i 0).val / 256 < cfg2.N := Nat.div_lt_of_lt_mul (i 0).isLt
    obtain ⟨h0, h1⟩ := hemb ⟨_, ht⟩ (ix2 (n := 256) (m := 1) ⟨(i 0).val % 256, Nat.mod_lt _ (by decide)⟩ (i 1))
    exact ⟨⟨_, ht⟩, flush2_3 _, Finset.mem_map.mpr ⟨_, Finset.mem_univ _,
      Shape.idx_ext₂ (h0.trans (by show (i 0).val / 256 * 256 + (i 0).val % 256 = _; omega)) h1⟩⟩

end Cert.Kernel.Hand

end
-- ==== Proof.K.R3.lean ====
import proofs.«412354_j76115410419855_2_alg».proof.Proof.Gen.Kernel.Launch
import proofs.«412354_j76115410419855_2_alg».proof.Proof.Gen.Kernel.Skeleton
import proofs.«412354_j76115410419855_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 7 :=
  (by decide +kernel : ∀ t : Fin grid3.N, cond3_1 (grid3.coords t) ↔ t.val = 7)

theorem idle3_4 : ∀ t : Fin cfg3.N, ¬t.val = 7 → cfg3.idle 4 (grid3.coords t) = true ∧ (cfg3.win 4).flush t = false := by decide +kernel
theorem live3_4 : ∀ t : Fin cfg3.N, t.val = 7 → cfg3.idle 4 (grid3.coords t) = false := by decide +kernel

abbrev VO3_4 : View sig .tc .vmem S1x1 .f32 := (Memref.whole cc3_stg4_0 : Memref sig .tc .vmem S1x1 .f32).view
abbrev ms3_0 (t : Fin cfg3.N) : Memref sig .tc .vmem S256x2048 .f32 := win3_0.stage (cfg3.slots t 0)
abbrev ms3_1 (t : Fin cfg3.N) : Memref sig .tc .vmem S2048x2048 .f32 := win3_1.stage (cfg3.slots t 1)
abbrev ms3_2 (t : Fin cfg3.N) : Memref sig .tc .vmem S1x2048 .f32 := win3_2.stage (cfg3.slots t 2)
abbrev ms3_3 (t : Fin cfg3.N) : Memref sig .tc .vmem S256x1 .f32 := win3_3.stage (cfg3.slots t 3)
abbrev ms3_4 (t : Fin cfg3.N) : Memref sig .tc .vmem S1x1 .f32 := win3_4.stage (cfg3.slots t 4)
abbrev scM3 : Memref sig .tc .vmem S1x1 .f32 := Memref.whole cc3_scratch0
abbrev VS3 : View sig .tc .vmem S1x1 .f32 := scM3.view

def Phi3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = Phi3 c iprop(∃ d, owns (c : Thread nD τ) scM3 fullShare d) := by
  unfold Pipeline.ΦA Phi3; rw [scopedRest3_split]; simp only [scM3, owns_whole]; try rfl

theorem owns_unread3 {s : Shape} (c : Dev nD) (M : Memref sig .tc .vmem s .f32) (h : M.IsWhole) (x : Vec F s .f32) :
    (owns (c : Thread nD τ) M fullShare x : sProp 𝕄) = (M.view.loc (c : Thread nD τ) ↦[M.view.set]{fullShare} h.unread x) := by
  refine BI.equiv_iff.mp ⟨?_, (owns_intro (c : Thread nD τ) M fullShare (h.unread x)).trans ?_⟩
  · show (_ : sProp 𝕄) ⊢ _; unfold owns; iintro ⟨%f, %hf, H⟩; obtain rfl := h.eq_unread hf; iexact H
  · rw [h.read_unread]

theorem hz3 : (![0, 0] : Fin 2 → Nat) = fun _ => 0 := funext fun a => by fin_cases a <;> rfl

theorem ld_unread {s : Shape} {M : Memref sig .tc .vmem s .f32} (h : M.IsWhole) (x : Vec F s .f32) {off : Fin s.rank → Nat} (hz : off = fun _ => 0) (inb) :
    M.view.readAt (Elt F) (Rect.unit off s.size inb) (h.unread x) = x := by
  rw [View.readAt_eq_ld, h.read_unread, View.ld_unit_zero hz]

section Run

variable (c : Dev nD) (i : grid3.Coords)
  (arg1 : Memref sig .tc .vmem S256x2048 .f32) (harg1 : arg1.IsWhole) (arg2 : Memref sig .tc .vmem S2048x2048 .f32) (harg2 : arg2.IsWhole)
  (arg3 : Memref sig .tc .vmem S1x2048 .f32) (harg3 : arg3.IsWhole) (arg4 : Memref sig .tc .vmem S256x1 .f32) (harg4 : arg4.IsWhole)
  (arg5 : Memref sig .tc .vmem S1x1 .f32) (harg5 : arg5.IsWhole) (arg6 : Memref sig .tc .vmem S1x1 .f32) (harg6 : arg6.IsWhole)
  (x0 : Vec F S256x2048 .f32) (x1 : Vec F S2048x2048 .f32) (x2 : Vec F S1x2048 .f32) (x3 : Vec F S256x1 .f32) (xs : Vec F S1x1 .f32)

-- The body's specification, shared by the three kinds of point: they differ in what is known of the output's buffer and of the scratch before (`P5`, `P6`) and of the output's buffer after (`Q5`).
def Run3 (P5 P6 Q5 : sProp 𝕄) (LS : List (View.Piece (Elt F) S1x1 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ P5 ∗ P6
        ∗ (iprop(owns (c : Thread nD τ) arg1 fullShare x0 ∗ owns (c : Thread nD τ) arg2 fullShare x1 ∗ owns (c : Thread nD τ) arg3 fullShare x2 ∗ owns (c : Thread nD τ) arg4 fullShare x3 ∗ Q5 ∗ (∃ f, arg6.view.loc (c : Thread nD τ) ↦[arg6.view.set]{fullShare} arg6.view.writes (Elt F) f LS)) -∗ K ⟨⟩))
      ⊢ wp frame (wpE (defs₀ (F := F)) Variants.none c none) E (cc3__combine_kernel i arg1 harg1 arg2 harg2 arg3 harg3 arg4 harg4 arg5 harg5 arg6 harg6) K

noncomputable def kernelRun3_A (hc0 : cond3_0 i) (hc1 : ¬cond3_1 i) :
    Σ' (_ : List (View.Piece (Elt F) S1x1 .f32)), { LS // (∀ xi4, Run3 c i arg1 harg1 arg2 harg2 arg3 harg3 arg4 harg4 arg5 harg5 arg6 harg6 x0 x1 x2 x3 (owns (c : Thread nD τ) arg5 fullShare xi4) iprop(∃ d, owns (c : Thread nD τ) arg6 fullShare d) (owns (c : Thread nD τ) arg5 fullShare xi4) LS)
      ∧ View.canon LS = k3_pay3 x0 x1 x2 x3 (k3_pay2 (F := F)) } := by
  refine ⟨[], ?_, fun xi4 E K => ?run, ?val⟩
  case run =>
    simp only [cc3__combine_kernel_eq_skeleton]; unfold cc3__combine_kernel_skel
    simp only [k3_part1_eq_skeleton]; unfold k3_part1_skel
    simp only [owns_unread3 c _ harg1, owns_unread3 c _ harg2, owns_unread3 c _ harg3, owns_unread3 c _ harg4, owns_unread3 c _ harg5, owns_unread3 c _ harg6]
    iintro ⟨H0, H1, H2, H3, H4, ⟨%ds, HS⟩, Hk⟩
    sl_exec (disch := first | exact hc0 | exact hc1)
    sl_step
    iapply Hk
    iframe H0 H1 H2 H3 H4
    iexists _; iexact HS
  case val =>
    try sl_unfold_words
    rw [View.canon_cons_unit_zero hz3, View.readCov_unit_zero _ hz3]
    simp only [ld_unread harg1 _ hz3, ld_unread harg2 _ hz3, ld_unread harg3 _ hz3, ld_unread harg4 _ hz3, ld_unread harg6 _ hz3]

noncomputable def kernelRun3_B (hc0 : ¬cond3_0 i) (hc1 : ¬cond3_1 i) :
    Σ' (_ : List (View.Piece (Elt F) S1x1 .f32)), { LS // (∀ xi4, Run3 c i arg1 harg1 arg2 harg2 arg3 harg3 arg4 harg4 arg5 harg5 arg6 harg6 x0 x1 x2 x3 (owns (c : Thread nD τ) arg5 fullShare xi4) (owns (c : Thread nD τ) arg6 fullShare xs) (owns (c : Thread nD τ) arg5 fullShare xi4) LS)
      ∧ View.canon LS = k3_pay3 x0 x1 x2 x3 xs } := by
  refine ⟨[], ?_, fun xi4 E K => ?run, ?val⟩
  case run =>
    simp only [cc3__combine_kernel_eq_skeleton]; unfold cc3__combine_kernel_skel
    simp only [k3_part1_eq_skeleton]; unfold k3_part1_skel
    simp only [owns_unread3 c _ harg1, owns_unread3 c _ harg2, owns_unread3 c _ harg3, owns_unread3 c _ harg4, owns_unread3 c _ harg5, owns_unread3 c _ harg6]
    iintro ⟨H0, H1, H2, H3, H4, HS, Hk⟩
    sl_exec (disch := first | exact hc0 | exact hc1)
    sl_step
    iapply Hk
    iframe H0 H1 H2 H3 H4
    iexists _; iexact HS
  case val =>
    try sl_unfold_words
    rw [View.canon_unit_zero hz3]
    simp only [ld_unread harg1 _ hz3, ld_unread harg2 _ hz3, ld_unread harg3 _ hz3, ld_unread harg4 _ hz3, ld_unread harg6 _ hz3]

noncomputable def kernelRun3_C (hc0 : ¬cond3_0 i) (hc1 : cond3_1 i) :
    Σ' (L4 : List (View.Piece (Elt F) S1x1 .f32)), { LS // Run3 c i arg1 harg1 arg2 harg2 arg3 harg3 arg4 harg4 arg5 harg5 arg6 harg6 x0 x1 x2 x3 iprop(∃ d, owns (c : Thread nD τ) arg5 fullShare d) (owns (c : Thread nD τ) arg6 fullShare xs) iprop(∃ f, arg5.view.loc (c : Thread nD τ) ↦[arg5.view.set]{fullShare} arg5.view.writes (Elt F) f L4) LS
      ∧ View.canon LS = k3_pay3 x0 x1 x2 x3 xs ∧ View.canon L4 = k3_pay1 (k3_pay3 x0 x1 x2 x3 xs) } := by
  refine ⟨?_, ?_, fun E K => ?run, ?val, ?out⟩
  case run =>
    simp only [cc3__combine_kernel_eq_skeleton]; unfold cc3__combine_kernel_skel
    simp only [k3_part1_eq_skeleton]; unfold k3_part1_skel
    simp only [owns_unread3 c _ harg1, owns_unread3 c _ harg2, owns_unread3 c _ harg3, owns_unread3 c _ harg4, owns_unread3 c _ harg5, owns_unread3 c _ harg6]
    iintro ⟨H0, H1, H2, H3, ⟨%d4, H4⟩, HS, Hk⟩
    sl_exec (disch := first | exact hc0 | exact hc1)
    sl_step
    iapply Hk
    iframe H0 H1 H2 H3
    isplitl [H4]; · iexists _; iexact H4
    iexists _; iexact HS
  case val =>
    try sl_unfold_words
    rw [View.canon_unit_zero hz3]
    simp only [ld_unread harg1 _ hz3, ld_unread harg2 _ hz3, ld_unread harg3 _ hz3, ld_unread harg4 _ hz3, ld_unread harg6 _ hz3]
  case out =>
    try sl_unfold_words
    rw [View.canon_unit_zero hz3, View.readCov_unit_zero _ hz3]
    simp only [ld_unread harg1 _ hz3, ld_unread harg2 _ hz3, ld_unread harg3 _ hz3, ld_unread harg4 _ hz3, ld_unread harg6 _ hz3]

end Run

def runA (c : Dev nD) (t : Fin cfg3.N) (h0 : t.val = 0) (h1 : ¬t.val = 7) :=
  kernelRun3_A c (grid3.coords t) (ms3_0 t) (stage_whole3 0 _) (ms3_1 t) (stage_whole3 1 _) (ms3_2 t) (stage_whole3 2 _) (ms3_3 t) (stage_whole3 3 _) (ms3_4 t) (stage_whole3 4 _) scM3 (Memref.isWhole_whole _) (iblk3 V c 0 t) (iblk3 V c 1 t) (iblk3 V c 2 t) (iblk3 V c 3 t) ((hcond3_0 t).mpr h0) (fun h => h1 ((hcond3_1 t).mp h))
def runB (c : Dev nD) (t : Fin cfg3.N) (h0 : ¬t.val = 0) (h1 : ¬t.val = 7) (xs : Vec F S1x1 .f32) :=
  kernelRun3_B c (grid3.coords t) (ms3_0 t) (stage_whole3 0 _) (ms3_1 t) (stage_whole3 1 _) (ms3_2 t) (stage_whole3 2 _) (ms3_3 t) (stage_whole3 3 _) (ms3_4 t) (stage_whole3 4 _) scM3 (Memref.isWhole_whole _) (iblk3 V c 0 t) (iblk3 V c 1 t) (iblk3 V c 2 t) (iblk3 V c 3 t) xs (fun h => h0 ((hcond3_0 t).mp h)) (fun h => h1 ((hcond3_1 t).mp h))
def runC (c : Dev nD) (t : Fin cfg3.N) (h0 : ¬t.val = 0) (h1 : t.val = 7) (xs : Vec F S1x1 .f32) :=
  kernelRun3_C c (grid3.coords t) (ms3_0 t) (stage_whole3 0 _) (ms3_1 t) (stage_whole3 1 _) (ms3_2 t) (stage_whole3 2 _) (ms3_3 t) (stage_whole3 3 _) (ms3_4 t) (stage_whole3 4 _) scM3 (Memref.isWhole_whole _) (iblk3 V c 0 t) (iblk3 V c 1 t) (iblk3 V c 2 t) (iblk3 V c 3 t) xs (fun h => h0 ((hcond3_0 t).mp h)) ((hcond3_1 t).mpr h1)

theorem N3_lt {n : ℕ} (hn : n < cfg3.N) : n < 8 := lt_of_lt_of_eq hn (show cfg3.N = 8 from N_3)
theorem seven_lt_N3 : 7 < cfg3.N := by rw [show cfg3.N = 8 from N_3]; decide

def sAt3 (c : Dev nD) : (n : ℕ) → n < cfg3.N → Vec F S1x1 .f32
  | 0, hn => VS3.read (Elt F) (VS3.writes (Elt F) VS3.junk (runA V c ⟨0, hn⟩ rfl (show ¬(0 : ℕ) = 7 by decide)).2.1)
  | n + 1, hn =>
    if h1 : n + 1 = 7 then VS3.read (Elt F) (VS3.writes (Elt F) VS3.junk (runC V c ⟨n + 1, hn⟩ (Nat.succ_ne_zero n) h1 (sAt3 c n (Nat.lt_of_succ_lt hn))).2.1)
    else VS3.read (Elt F) (VS3.writes (Elt F) VS3.junk (runB V c ⟨n + 1, hn⟩ (Nat.succ_ne_zero n) h1 (sAt3 c n (Nat.lt_of_succ_lt hn))).2.1)

def out3_4 (c : Dev nD) (t : Fin cfg3.N) : Vec F S1x1 .f32 :=
  if h1 : t.val = 7 then VO3_4.read (Elt F) (VO3_4.writes (Elt F) VO3_4.junk (runC V c t (by omega) h1 (sAt3 V c (t.val - 1) (Nat.lt_of_le_of_lt (Nat.sub_le _ _) t.isLt))).1)
  else VO3_4.read (Elt F) VO3_4.junk

def PhiS3 (c : Dev nD) : (n : ℕ) → n ≤ cfg3.N → sProp 𝕄
  | 0, _ => Pipeline.ΦA spec3 c
  | n + 1, hn => Phi3 c (owns (c : Thread nD τ) scM3 fullShare (sAt3 V c n hn))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed_eq3 (c : Dev nD) (t) : (dat3 V c).owed t = 0 := by
  dsimp only [dat3]
theorem q_eq3 (c : Dev nD) (w : Fin cfg3.W) : (dat3 V c).q w = fullShare := by
  dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) (P : sProp 𝕄) : sProp 𝕄 :=
  iprop(P ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) (Q : sProp 𝕄) : sProp 𝕄 :=
  iprop(Q ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ (dat3 V c).leavesExact 4 t)

-- By the kind of point: the invariant hands the body the scratch at what the point before left and takes it back at what this point leaves.
theorem sound_body3 (c : Dev nD) (n : ℕ) (hn : n < cfg3.N) :
    bodyPre3 V c ⟨n, hn⟩ (PhiS3 V c n (Nat.le_of_lt hn))
      ⊢ wp frame (wpE (defs₀ (F := F)) Variants.none c none) Set.univ (bodyAt3 ⟨n, hn⟩) (fun _ => bodyPost3 V c ⟨n, hn⟩ (PhiS3 V c (n + 1) hn)) := by
  unfold bodyPre3 bodyPost3 bodyAt3
  simp only [before3_0, before3_1, before3_2, before3_3]
  cases n with
  | zero =>
    have h7 : ¬(0 : ℕ) = 7 := by decide
    rw [PhiS3, PhiS3, sAt3, PhiA3_eq, Dat.leavesExact_idle (dat3 V c) 4 _ (idle3_4 _ h7).1 (idle3_4 _ h7).2]
    unfold Phi3
    iintro ⟨⟨⟨HS, Hrest⟩, Hg⟩, Ho, ⟨%d0, H0⟩, ⟨%d1, H1⟩, ⟨%d2, H2⟩, ⟨%d3, H3⟩, ⟨%d4, H4⟩⟩
    iapply (runA V c ⟨0, hn⟩ rfl _).2.2.1 _ Set.univ _
    iframe H0 H1 H2 H3 HS
    isplitl [H4]; · iexact H4
    iintro ⟨H0, H1, H2, H3, H4, ⟨%es, HS⟩⟩
    iframe Hrest Hg Ho H0 H1 H2 H3
    isplitl [HS]
    · ihave H' := (Ring.owns_of_writes_tiledL VS3 S1x1.size) $$ HS; iapply H'; ipureintro; sl_kernel_rfl
    iexists _; iexact H4
  | succ n =>
    rw [PhiS3, PhiS3, sAt3]
    unfold Phi3
    iintro ⟨⟨⟨HS, Hrest⟩, Hg⟩, Ho, ⟨%d0, H0⟩, ⟨%d1, H1⟩, ⟨%d2, H2⟩, ⟨%d3, H3⟩, ⟨%d4, H4⟩⟩
    by_cases h1 : n + 1 = 7
    · rw [dif_pos h1, show (dat3 V c).leavesExact 4 ⟨n + 1, hn⟩ = owns (c : Thread nD τ) (ms3_4 ⟨n + 1, hn⟩) fullShare (out3_4 V c ⟨n + 1, hn⟩) from by
        unfold Dat.leavesExact; rw [live3_4 _ h1]; rfl, out3_4, dif_pos h1]
      iapply (runC V c ⟨n + 1, hn⟩ (Nat.succ_ne_zero n) h1 _).2.2.1 Set.univ _
      iframe H0 H1 H2 H3
      isplitl [H4]; · iexists _; iexact H4
      isplitl [HS]; · iexact HS
      iintro ⟨H0, H1, H2, H3, ⟨%e4, H4⟩, ⟨%es, HS⟩⟩
      iframe Hrest Hg Ho H0 H1 H2 H3
      isplitl [HS]
      · ihave H' := (Ring.owns_of_writes_tiledL VS3 S1x1.size) $$ HS; iapply H'; ipureintro; sl_kernel_rfl
      ihave H' := (Ring.owns_of_writes_tiledL VO3_4 S1x1.size) $$ H4; iapply H'; ipureintro; sl_kernel_rfl
    · rw [dif_neg h1, Dat.leavesExact_idle (dat3 V c) 4 _ (idle3_4 _ h1).1 (idle3_4 _ h1).2]
      iapply (runB V c ⟨n + 1, hn⟩ (Nat.succ_ne_zero n) h1 _).2.2.1 _ Set.univ _
      iframe H0 H1 H2 H3
      isplitl [H4]; · iexact H4
      isplitl [HS]; · iexact HS
      iintro ⟨H0, H1, H2, H3, H4, ⟨%es, HS⟩⟩
      iframe Hrest Hg Ho H0 H1 H2 H3
      isplitl [HS]
      · ihave H' := (Ring.owns_of_writes_tiledL VS3 S1x1.size) $$ HS; iapply H'; ipureintro; sl_kernel_rfl
      iexists _; iexact H4

theorem body_obligation3 (c : Dev nD) : BodyObligation (dat3 (F := F) V c) (defs₀ (F := F)) Variants.none () Set.univ := fun t => by
  rw [bigSep_W3, bigSep_W3]
  exact sound_body3 V c t.val t.isLt

theorem hin3 (c : Dev nD) : (Pipeline.ΦA spec3 c : sProp 𝕄) ⊢ (dat3 V c).Φ 0 :=
  Idealize.SL.BI.Entails.refl _

-- After the last point the scratch's named contents are forgotten.
theorem hout3 (c : Dev nD) : (dat3 V c).Φ (Fin.last cfg3.N) ⊢ (Pipeline.ΦA spec3 c : sProp 𝕄) := by
  show PhiS3 V c (7 + 1) seven_lt_N3 ⊢ _
  rw [PhiS3, PhiA3_eq]
  unfold Phi3
  iintro ⟨⟨HS, Hrest⟩, Hg⟩
  iframe Hrest Hg
  iexists _; iexact HS

def acc3 (c : Dev nD) : (n : ℕ) → n < cfg3.N → Vec F S1x1 .f32
  | 0, hn => k3_pay3 (iblk3 V c 0 ⟨0, hn⟩) (iblk3 V c 1 ⟨0, hn⟩) (iblk3 V c 2 ⟨0, hn⟩) (iblk3 V c 3 ⟨0, hn⟩) (k3_pay2 (F := F))
  | n + 1, hn => k3_pay3 (iblk3 V c 0 ⟨n + 1, hn⟩) (iblk3 V c 1 ⟨n + 1, hn⟩) (iblk3 V c 2 ⟨n + 1, hn⟩) (iblk3 V c 3 ⟨n + 1, hn⟩) (acc3 c n (Nat.lt_of_succ_lt hn))

theorem acc3_zero (c : Dev nD) (hn : 0 < cfg3.N) :
    acc3 V c 0 hn = k3_pay3 (iblk3 V c 0 ⟨0, hn⟩) (iblk3 V c 1 ⟨0, hn⟩) (iblk3 V c 2 ⟨0, hn⟩) (iblk3 V c 3 ⟨0, hn⟩) (k3_pay2 (F := F)) := rfl
theorem acc3_succ (c : Dev nD) (n : ℕ) (hn : n + 1 < cfg3.N) :
    acc3 V c (n + 1) hn = k3_pay3 (iblk3 V c 0 ⟨n + 1, hn⟩) (iblk3 V c 1 ⟨n + 1, hn⟩) (iblk3 V c 2 ⟨n + 1, hn⟩) (iblk3 V c 3 ⟨n + 1, hn⟩) (acc3 V c n (Nat.lt_of_succ_lt hn)) := rfl

theorem sAt3_eq_acc3 (c : Dev nD) : ∀ (n : ℕ) (hn : n < cfg3.N), sAt3 V c n hn = acc3 V c n hn
  | 0, hn => (View.read_writes_junk_eq_canon _ _).trans (runA V c ⟨0, hn⟩ rfl _).2.2.2
  | n + 1, hn => by
    rw [acc3_succ, ← sAt3_eq_acc3 c n (Nat.lt_of_succ_lt hn)]
    by_cases h1 : n + 1 = 7
    · exact (dif_pos h1).trans ((View.read_writes_junk_eq_canon _ _).trans (runC V c ⟨n + 1, hn⟩ _ h1 _).2.2.2.1)
    · exact (dif_neg h1).trans ((View.read_writes_junk_eq_canon _ _).trans (runB V c ⟨n + 1, hn⟩ _ h1 _).2.2.2)

abbrev result3 (c : Dev nD) : Buf (Elt F) ((c : Thread nD τ).loc main_v15) :=
  k3_pay1 (acc3 V c 7 seven_lt_N3)

theorem hz4 : (fun a => win3_4.index t3_7 a * main_v15.ty.shape.size a) = fun _ => 0 := funext fun a => by fin_cases a <;> decide

theorem flushed3_4_eq (c : Dev nD) (t : Fin cfg3.N) (hf : (cfg3.win 4).flush t = true) :
    (dat3 V c).flushed 4 t = ((cfg3.win 4).blk t).view.read (Elt F) (result3 V c) := by
  have h1 : t.val = 7 := by have := (flush3_4 t).mp hf; have := N3_lt t.isLt; omega
  obtain rfl : t = t3_7 := Fin.ext h1
  show (cfg3.win 4).cut (grid3.coords t3_7) (out3_4 V c t3_7) = _
  rw [out3_4, dif_pos h1, View.read_writes_junk_eq_canon, (runC V c t3_7 _ _ _).2.2.2.2, sAt3_eq_acc3]
  exact (Memref.read_access_unit_zero (Elt F) main_v15 hz4 (fun a => by rw [congrFun hz4 a]; simp) (result3 V c)).symm

theorem final3_4 (c : Dev nD) : (dat3 V c).arrAt 4 cfg3.N = result3 V c :=
  (dat3 V c).arrAt_eq_of_cover 4 (result3 V c) (flushed3_4_eq V c) fun i =>
    ⟨t3_7, (flush3_4 t3_7).mpr rfl, by
      show i ∈ ((View.whole main_v15).slice (win3_4.rect t3_7)).set
      rw [View.set_slice_whole]
      exact View.mem_set_unit_zero hz4 _ i⟩

end Cert.Kernel.Hand

end
-- ==== Proof.K.Run.lean ====
import proofs.«412354_j76115410419855_2_alg».proof.Proof.K.R0
import proofs.«412354_j76115410419855_2_alg».proof.Proof.K.R1
import proofs.«412354_j76115410419855_2_alg».proof.Proof.K.R2
import proofs.«412354_j76115410419855_2_alg».proof.Proof.K.R3
import proofs.«412354_j76115410419855_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

section
variable {cfg : Cfg sig Λ₀} {c : Dev nD} (d : Dat τ (Elt F) Unit ℕ (UR sig nD τ) ℕ cfg c) (W : Valuation τ sig (Elt F))

theorem next_rest (b : Ref sig .tc) (hb : b ∉ Finset.univ.image (Pipeline.arrRef cfg.spec)) :
    Pipeline.withArrays cfg.spec c W (d.arrAt · cfg.N) (Proc.devRef .tc b) = W (Proc.devRef .tc b) :=
  Pipeline.withArrays_of_ne _ c _ _ b fun w e => hb (Finset.mem_image.mpr ⟨w, Finset.mem_univ _, e⟩)

-- An input window's array is left at its entry contents, which are read off `W`.
theorem next_keep (hi : Function.Injective (Pipeline.arrRef cfg.spec)) (hA : ∀ w, d.A w = W (Proc.devRef .tc (Pipeline.arrRef cfg.spec w)))
    (b : Ref sig .tc) (hb : ∀ w, Pipeline.arrRef cfg.spec w = b → (cfg.win w).isOut = false) :
    Pipeline.withArrays cfg.spec c W (d.arrAt · cfg.N) (Proc.devRef .tc b) = W (Proc.devRef .tc b) := by
  by_cases h : ∃ w, Pipeline.arrRef cfg.spec w = b
  · obtain ⟨w, rfl⟩ := h
    exact (Pipeline.withArrays_arr _ hi c _ _ w).trans ((d.arrAt_in w (hb w rfl) _).trans (hA w))
  · exact Pipeline.withArrays_of_ne _ c _ _ b fun w e => h ⟨w, e⟩
end

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
abbrev V2 : (c : Dev nD) → (b : Ref sig .tc) → Buf (Elt F) ((c : Thread nD τ).loc b) := fun c b => W2 m c b
theorem W2_keep (c : Dev nD) (b : Ref sig .tc) (hb : ∀ w, Pipeline.arrRef spec0 w = b → (cfg0.win w).isOut = false) :
    W2 m c (Proc.devRef .tc b) = W1 m c (Proc.devRef .tc b) :=
  next_keep (dat0 (V1 m) c) _ launch0.win.arr_inj (A_eq0 (V1 m) c) b hb

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
abbrev V3 : (c : Dev nD) → (b : Ref sig .tc) → Buf (Elt F) ((c : Thread nD τ).loc b) := fun c b => W3 m c b
theorem W3_keep (c : Dev nD) (b : Ref sig .tc) (hb : ∀ w, Pipeline.arrRef spec1 w = b → (cfg1.win w).isOut = false) :
    W3 m c (Proc.devRef .tc b) = W2 m c (Proc.devRef .tc b) :=
  next_keep (dat1 (V2 m) c) _ launch1.win.arr_inj (A_eq1 (V2 m) c) b hb

def W4 (c : Dev nD) : Valuation τ sig (Elt F) :=
  Function.update (Function.update (W3 m c) main_v6_0 ((dat2 (V3 m) c).arrAt 2 cfg2.N)) main_v6_1 ((dat2 (V3 m) c).arrAt 3 cfg2.N)
abbrev V4 : (c : Dev nD) → (b : Ref sig .tc) → Buf (Elt F) ((c : Thread nD τ).loc b) := fun c b => W4 m c b
theorem W4_of (c : Dev nD) (r : Ref sig .tc) (h : r ∉ ([main_v6_0, main_v6_1] : List (Ref sig .tc))) : W4 m c r = W3 m c r :=
  (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W4_v6_0 (c : Dev nD) : W4 m c main_v6_0 = (dat2 (V3 m) c).arrAt 2 cfg2.N :=
  (Function.update_of_ne (StableHlo.devRef_ne_of_ne (by decide)) _ _).trans (Function.update_self ..)
theorem W4_v6_1 (c : Dev nD) : W4 m c main_v6_1 = (dat2 (V3 m) c).arrAt 3 cfg2.N :=
  Function.update_self ..
theorem hF2 (c : Dev nD) (w : Fin cfg2.W) : (dat2 (V3 m) c).arrAt w cfg2.N = V4 m c (Pipeline.arrRef spec2 w) :=
  match w with
  | ⟨0, _⟩ | ⟨1, _⟩ => (((dat2 (V3 m) c).arrAt_in _ rfl _).trans (A_eq2 (V3 m) c _)).trans (W4_of m c main_v5_0 (by decide)).symm
  | ⟨2, _⟩ => (W4_v6_0 m c).symm
  | ⟨3, _⟩ => (W4_v6_1 m c).symm
theorem hrest2 (c : Dev nD) (b : Ref sig .tc) (hb : b ∉ Finset.univ.image (Pipeline.arrRef spec2)) : V4 m c b = V3 m c b :=
  W4_of m c b fun h => hb <| Finset.mem_image.mpr <| by
    rcases List.mem_pair.mp h with rfl | rfl
    exacts [⟨2, Finset.mem_univ _, rfl⟩, ⟨3, Finset.mem_univ _, rfl⟩]

abbrev W5 : Dev nD → Valuation τ sig (Elt F) := fun c => StableHlo.after hostOps3 (W4 m c)
abbrev V5 : (c : Dev nD) → (b : Ref sig .tc) → Buf (Elt F) ((c : Thread nD τ).loc b) := fun c b => W5 m c b

def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N :=
  Pipeline.withArrays_arr spec3 launch3.win.arr_inj c _ _ w
abbrev V6 : (c : Dev nD) → (b : Ref sig .tc) → Buf (Elt F) ((c : Thread nD τ).loc b) := fun c b => W6 m c b
theorem W6_keep (c : Dev nD) (b : Ref sig .tc) (hb : ∀ w, Pipeline.arrRef spec3 w = b → (cfg3.win w).isOut = false) :
    W6 m c (Proc.devRef .tc b) = W5 m c (Proc.devRef .tc b) :=
  next_keep (dat3 (V5 m) c) _ launch3.win.arr_inj (A_eq3 (V5 m) c) b hb

abbrev W7 : Dev nD → Valuation τ sig (Elt F) := fun c => StableHlo.after hostOps4 (W6 m c)

theorem W1_of (c : Dev nD) (r : Ref sig .tc) (h : r ∉ hostOps0_W) : W1 m c r = W0 m c r :=
  StableHlo.after_of_writes_sub hostOps0 _ hostOps0_writes h
theorem W5_of (c : Dev nD) (r : Ref sig .tc) (h : r ∉ hostOps3_W) : W5 m c r = W4 m c r :=
  StableHlo.after_of_writes_sub hostOps3 _ hostOps3_writes h

def pdats : (p : Fin 4) → (c : Dev nD) → Dat τ (Elt F) Unit ℕ (UR sig nD τ) ℕ (Pipeline.pin (pcfgs (F := F)) adm p) c
  | ⟨0, _⟩ => dat0 (V1 m)
  | ⟨1, _⟩ => dat1 (V2 m)
  | ⟨2, _⟩ => dat2 (V3 m)
  | ⟨3, _⟩ => dat3 (V5 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev st (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- What a region's record asks of the proof data at `p`.
structure Facts (p : Fin 4) : Prop where
  hb : ∀ c, BodyObligation (pdats m p c) defs₀ 𝒱₀ () Set.univ
  ho : ∀ c t, (pdats m p c).owed t = 0
  hr : ∀ c x, x ∈ (pdats m p c).recorded 0
  hi : ∀ c, (Pipeline.ΦA (cfgs p).spec c : sProp 𝕄) ⊢ (pdats m p c).Φ 0
  hO : ∀ c, (pdats m p c).Φ (Fin.last (cfgs p).N) ⊢ (Pipeline.ΦA (cfgs p).spec c : sProp 𝕄)

set_option backward.isDefEq.respectTransparency.types false in
-- One region between two valuations of the unscoped buffers, given the split `hs` and the join `hj` of its windows' arrays.
def reg (p : Fin 4) (l : Pipeline.WinFacts₀ (pcfgs (F := F) p).spec) (bp : ∀ w : Fin (cfgs p).W, 0 < ((cfgs p).spec w).block.numel)
    (sw : ∀ (w : Fin (cfgs p).W) (s : Fin ((cfgs p).spec w).nbuf), (((cfgs p).spec w).stage s).IsWhole)
    (Wa Wb : Dev nD → Valuation τ sig (Elt F)) (f : Facts m p)
    (hs : ∀ c, (unscopedBufs c (fun b => Wa c b) : sProp 𝕄)
      ⊢ iprop((pdats m p c).arrays ((pdats m p c).arrAt · 0) ∗ Pipeline.unscopedRest (cfgs p).spec c fun b => Wa c b))
    (hj : ∀ c, iprop((pdats m p c).arrays ((pdats m p c).arrAt · (cfgs p).N) ∗ Pipeline.unscopedRest (cfgs p).spec c fun b => Wa c b)
      ⊢ (unscopedBufs c (fun b => Wb c b) : sProp 𝕄)) :
    Pipeline.RegionSeg (pcfgs (F := F)) adm (pdats m) () defs₀ 𝒱₀ L lv p where
  win := l
  block_pos := bp
  stage_whole := sw
  K := PEmpty
  osem k := k.elim
  ho := Pipeline.OwnSemFacts.none _
  hbody c := (f.hb c).loose
  hwaits := Pipeline.hwaits_of_owed_zero _ _ _ _ L lv p f.ho
  pre := st Wa
  post := st Wb
  X c := iprop(∃ r, prngReg c r)
  Y c := iprop(∃ r, prngReg c r)
  Z c := Pipeline.unscopedRest (cfgs p).spec c fun b => Wa c b
  hentry c := by
    rw [Pipeline.ownSems0_none]
    have hsplit := hs c
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [f.ho c]
    icases HO with ⟨%W, HO⟩; iexists W; isplitr; · ipureintro; exact fun x _ => Or.inl (f.hr c x)
    iexact HO
  hin c := by
    refine BIBase.Entails.trans ?_ (f.hi c)
    unfold Pipeline.ΦA
    iintro ⟨Hp, -, Hr⟩
    iframe
  hout c := by
    rw [Pipeline.ownSems0_none]
    refine BIBase.Entails.trans (f.hO c) ?_
    unfold Pipeline.ΦA
    iintro ⟨Hr, Hp⟩
    iframe
    iempintro
  hexit c := by
    have hjoin := hj c
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [f.ho c]
    icases HO with ⟨%W, -, HO⟩; iexists W; iexact HO

set_option backward.isDefEq.respectTransparency.types false in
-- The same when the windows' arrays are distinct whole buffers: split and join are the library's.
def regL (p : Fin 4) (l : Pipeline.LaunchFacts (nD := nD) (τ := τ) cfgs p) (Wa : Dev nD → Valuation τ sig (Elt F)) (f : Facts m p)
    (hq : ∀ c w, (pdats m p c).q w = fullShare) (hA : ∀ c w, (pdats m p c).A w = Wa c (Proc.devRef .tc (Pipeline.arrRef (cfgs p).spec w))) :
    Pipeline.RegionSeg (pcfgs (F := F)) adm (pdats m) () defs₀ 𝒱₀ L lv p :=
  reg m p l.win.to₀ l.block_pos l.stage_whole Wa (fun c => Pipeline.withArrays (cfgs p).spec c (Wa c) ((pdats m p c).arrAt · (cfgs p).N)) f
    (fun c => Pipeline.arrays_of_unscopedBufs _ _ (pdats m) l.win l.arr_whole c ((pdats m p c).share_full (hq c)) _ (hA c))
    (fun c => Pipeline.unscopedBufs_of_arrays _ _ l.win l.arr_whole c (pdats m)
      ((pdats m p c).share_full (hq c)) _ _ _ (fun w => (Pipeline.withArrays_arr _ l.win.arr_inj c (Wa c) ((pdats m p c).arrAt · (cfgs p).N) w).symm)
      (next_rest (pdats m p c) _))

set_option backward.isDefEq.respectTransparency.types false in
abbrev segs : List (Pipeline.Seg (pcfgs (F := F)) adm (pdats m) () defs₀ 𝒱₀ L lv) :=
  [ .host (hseg hostOps0 hostOps0_sub hostOps0_fresh (W0 m)),
    .region (regL m 0 launch0 (W1 m) ⟨body_obligation0 (V1 m), owed_eq0 (V1 m), fun _ _ => trivial, hin0 (V1 m), hout0 (V1 m)⟩ (q_eq0 (V1 m)) (A_eq0 (V1 m))),
    .region (regL m 1 launch1 (W2 m) ⟨body_obligation1 (V2 m), owed_eq1 (V2 m), fun _ _ => trivial, hin1 (V2 m), hout1 (V2 m)⟩ (q_eq1 (V2 m)) (A_eq1 (V2 m))),
    .region (reg m 2 winFacts₀2 block_pos2 stage_whole2 (W3 m) (W4 m) ⟨body_obligation2 (V3 m), owed_eq2 (V3 m), fun _ _ => trivial, hin2 (V3 m), hout2 (V3 m)⟩ (entry2 (V3 m))
      fun c => exit2 (V3 m) c _ (hF2 m c) (hrest2 m c)),
    .host (hseg hostOps3 hostOps3_sub hostOps3_fresh (W4 m)),
    .region (regL m 3 launch3 (W5 m) ⟨body_obligation3 (V5 m), owed_eq3 (V5 m), fun _ _ => trivial, hin3 (V5 m), hout3 (V5 m)⟩ (q_eq3 (V5 m)) (A_eq3 (V5 m))),
    .host (hseg hostOps4 hostOps4_sub hostOps4_fresh (W6 m)) ]
theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := st (W0 m)) (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

-- Seven steps back from the end to the launch, each leaving `r` alone.
theorem kept (c : Dev nD) (M : (ℓ : Loc nD τ sig) → Buf (Elt F) ℓ) (h : ∀ b ∈ Pipeline.ucRefs τ sig, M ((c : Thread nD τ).1, b) = W7 m c b) (r : Ref sig .tc)
    (k : ¬ (Proc.devRef .tc r : DevRef τ sig).isScoped ∧ r ∉ hostOps0_W ∧ r ∉ hostOps3_W ∧ r ∉ hostOps4_W
      ∧ (∀ w, Pipeline.arrRef spec0 w = r → (cfg0.win w).isOut = false) ∧ (∀ w, Pipeline.arrRef spec1 w = r → (cfg1.win w).isOut = false)
      ∧ r ∉ ([main_v6_0, main_v6_1] : List (Ref sig .tc)) ∧ ∀ w, Pipeline.arrRef spec3 w = r → (cfg3.win w).isOut = false) :
    M ((c : Thread nD τ).loc r) = m ((c : Thread nD τ).loc r) := by
  obtain ⟨hs, h0, h3, h4, k0, k1, k2, k3⟩ := k
  exact (h _ (mem_uc r hs)).trans <| (StableHlo.after_of_writes_sub hostOps4 _ hostOps4_writes h4).trans <| (W6_keep m c r k3).trans <|
    (W5_of m c r h3).trans <| (W4_of m c r k2).trans <| (W3_keep m c r k1).trans <| (W2_keep m c r k0).trans (W1_of m c r h0)

theorem run_result (ρ : Dev nD → PrngReg) : θ_run defs (onTc (τ := τ) (main (F := F))) ⟨m, fun _ => 0, ρ⟩ (fun r => ∀ c : Dev nD,
      r.2.mem ((c.tc : Thread nD τ).loc main_v16) = W7 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    refine ⟨h c _ (mem_uc main_v16 (by decide)), ?_⟩
    repeat' apply And.intro
    all_goals exact kept m c r.2.mem (h c) _ (by decide)) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run_result m ρ)

end Cert.Kernel.Hand

end
-- ==== Proof.KI.R0.lean ====
import proofs.«412354_j76115410419855_2_alg».proof.Proof.Gen.KernelIdeal.Launch
import proofs.«412354_j76115410419855_2_alg».proof.Proof.Gen.KernelIdeal.Skeleton
import proofs.«412354_j76115410419855_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev VO0_11 : View sig .tc .vmem S2048x256 .f32 := (Memref.whole cc0_stg11_0 : Memref sig .tc .vmem S2048x256 .f32).view
abbrev VO0_12 : View sig .tc .vmem S2048x256 .f32 := (Memref.whole cc0_stg12_0 : Memref sig .tc .vmem S2048x256 .f32).view

theorem hz2 : (![0, 0] : Fin 2 → Nat) = fun _ => 0 := funext fun a => by fin_cases a <;> rfl
theorem hz1 : (![0] : Fin 1 → Nat) = fun _ => 0 := funext fun a => by fin_cases a; rfl

def outs0 {P : List (View.Piece (Elt F) S2048x256 .f32) → List (View.Piece (Elt F) S2048x256 .f32) → Prop} (r : Σ' L11, { L12 // P L11 L12 }) : Vec F S2048x256 .f32 × Vec F S2048x256 .f32 :=
  (VO0_11.read (Elt F) (VO0_11.writes (Elt F) VO0_11.junk r.1), VO0_12.read (Elt F) (VO0_12.writes (Elt F) VO0_12.junk r.2.1))

theorem owns_unread (c : Dev nD) {S : Shape} {e : EltTy} {m : Memref sig .tc .vmem S e} (h : m.IsWhole) (x : Vec F S e) :
    (m.view.loc (c : Thread nD τ) ↦[m.view.set]{fullShare} h.unread x : sProp 𝕄) ⊢ iprop(∃ f, ⌜m.view.read (Elt F) f = x⌝ ∗ (m.view.loc (c : Thread nD τ) ↦[m.view.set]{fullShare} f)) := by
  iintro H; iexists _; isplitr; · ipureintro; exact h.read_unread _
  iexact H

section Run
variable (c : Dev nD) (i : grid0.Coords) (arg1 : Memref sig .tc .vmem S2000x512 .f32) (harg1 : arg1.IsWhole) (arg2 : Memref sig .tc .vmem S512x256 .bf16) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S512x256 .bf16) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S2048x256 .f32) (harg12 : arg12.IsWhole) (arg13 : Memref sig .tc .vmem S2048x256 .f32) (harg13 : arg13.IsWhole) (x0 : Vec F S2000x512 .f32) (x1 : Vec F S512x256 .bf16) (x2 : Vec F S256 .f32) (x3 : Vec F S256x256 .f32) (x4 : Vec F S256 .f32) (x5 : Vec F S512x256 .bf16) (x6 : Vec F S256 .f32) (x7 : Vec F S256x256 .f32) (x8 : Vec F S256 .f32) (x9 : Vec F S2000x1 .i32) (x10 : Vec F S2000x1 .f32)

-- The eleven inputs, each owned at its contents.
def ins0 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10)

section
variable (hc0 : cond0_0 i)

set_option maxHeartbeats 4000000 in
noncomputable def kernelRun0_A :
    Σ' (L11 : List (View.Piece (Elt F) S2048x256 .f32)), { L12 : List (View.Piece (Elt F) S2048x256 .f32) //
      ∀ (E : Set ℕ) (K : PUnit → sProp 𝕄),
        iprop(ins0 c arg1 arg2 arg3 arg4 arg5 arg6 arg7 arg8 arg9 arg10 arg11 x0 x1 x2 x3 x4 x5 x6 x7 x8 x9 x10 ∗ (∃ d, owns (c : Thread nD τ) arg12 fullShare d) ∗ (∃ d, owns (c : Thread nD τ) arg13 fullShare d)
            ∗ (iprop(ins0 c arg1 arg2 arg3 arg4 arg5 arg6 arg7 arg8 arg9 arg10 arg11 x0 x1 x2 x3 x4 x5 x6 x7 x8 x9 x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0__encode_reduce_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__encode_reduce_kernel_eq_skeleton]; unfold cc0__encode_reduce_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0)
    sl_step
    iapply Hk
    isplitl [H0 H1 H2 H3 H4 H5 H6 H7 H8 H9 H10]
    · isplitl [H0]; · iapply owns_unread c harg1; iexact H0
      isplitl [H1]; · iapply owns_unread c harg2; iexact H1
      isplitl [H2]; · iapply owns_unread c harg3; iexact H2
      isplitl [H3]; · iapply owns_unread c harg4; iexact H3
      isplitl [H4]; · iapply owns_unread c harg5; iexact H4
      isplitl [H5]; · iapply owns_unread c harg6; iexact H5
      isplitl [H6]; · iapply owns_unread c harg7; iexact H6
      isplitl [H7]; · iapply owns_unread c harg8; iexact H7
      isplitl [H8]; · iapply owns_unread c harg9; iexact H8
      isplitl [H9]; · iapply owns_unread c harg10; iexact H9
      iapply owns_unread c harg11; iexact H10
    isplitl [H11]
    · iexists _; iexact H11
    iexists _; iexact H12

def out0_A : Vec F S2048x256 .f32 × Vec F S2048x256 .f32 :=
  outs0 (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0)

theorem out0_A_eq : out0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 =
    (k0_pay3 (k0_pay8 x0 x1 x2 x3 x4) x9 x10 (k0_pay5 (F := F)), k0_pay4 (k0_pay9 x0 x5 x6 x7 x8) (k0_pay10 x0 x5 x6 x7 x8) (k0_pay11 (F := F)) x9 x10 (k0_pay6 (F := F))) := by
  unfold out0_A outs0
  rw [View.read_writes_junk_eq_canon, View.read_writes_junk_eq_canon]
  unfold kernelRun0_A
  dsimp only
  sl_unfold_run_names
  refine congrArg₂ Prod.mk ?_ ?_ <;>
    (rw [View.canon_cons_unit_zero hz2, View.readCov_unit_zero (S := S2048x256) _ hz2]
     simp only [View.readAt_eq_ld, Memref.IsWhole.read_unread, View.ld_unit_zero (S := S2000x512) hz2, View.ld_unit_zero (S := S512x256) hz2, View.ld_unit_zero (S := S256) hz1, View.ld_unit_zero (S := S256x256) hz2, View.ld_unit_zero (S := S2000x1) hz2, View.ld_unit_zero (S := S2048x256) hz2])

end

section
variable (hc0 : ¬cond0_0 i) (xo11 : Vec F S2048x256 .f32) (xo12 : Vec F S2048x256 .f32)

set_option maxHeartbeats 4000000 in
noncomputable def kernelRun0_B :
    Σ' (L11 : List (View.Piece (Elt F) S2048x256 .f32)), { L12 : List (View.Piece (Elt F) S2048x256 .f32) //
      ∀ (E : Set ℕ) (K : PUnit → sProp 𝕄),
        iprop(ins0 c arg1 arg2 arg3 arg4 arg5 arg6 arg7 arg8 arg9 arg10 arg11 x0 x1 x2 x3 x4 x5 x6 x7 x8 x9 x10 ∗ owns (c : Thread nD τ) arg12 fullShare xo11 ∗ owns (c : Thread nD τ) arg13 fullShare xo12
            ∗ (iprop(ins0 c arg1 arg2 arg3 arg4 arg5 arg6 arg7 arg8 arg9 arg10 arg11 x0 x1 x2 x3 x4 x5 x6 x7 x8 x9 x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0__encode_reduce_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__encode_reduce_kernel_eq_skeleton]; unfold cc0__encode_reduce_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0 H1 H2 H3 H4 H5 H6 H7 H8 H9 H10]
    · isplitl [H0]; · iapply owns_unread c harg1; iexact H0
      isplitl [H1]; · iapply owns_unread c harg2; iexact H1
      isplitl [H2]; · iapply owns_unread c harg3; iexact H2
      isplitl [H3]; · iapply owns_unread c harg4; iexact H3
      isplitl [H4]; · iapply owns_unread c harg5; iexact H4
      isplitl [H5]; · iapply owns_unread c harg6; iexact H5
      isplitl [H6]; · iapply owns_unread c harg7; iexact H6
      isplitl [H7]; · iapply owns_unread c harg8; iexact H7
      isplitl [H8]; · iapply owns_unread c harg9; iexact H8
      isplitl [H9]; · iapply owns_unread c harg10; iexact H9
      iapply owns_unread c harg11; iexact H10
    isplitl [H11]
    · iexists _; iexact H11
    iexists _; iexact H12

def out0_B : Vec F S2048x256 .f32 × Vec F S2048x256 .f32 :=
  outs0 (kernelRun0_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 xo11 xo12)

theorem out0_B_eq : out0_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 xo11 xo12 =
    (k0_pay3 (k0_pay8 x0 x1 x2 x3 x4) x9 x10 xo11, k0_pay4 (k0_pay9 x0 x5 x6 x7 x8) (k0_pay10 x0 x5 x6 x7 x8) (k0_pay11 (F := F)) x9 x10 xo12) := by
  unfold out0_B outs0
  rw [View.read_writes_junk_eq_canon, View.read_writes_junk_eq_canon]
  unfold kernelRun0_B
  dsimp only
  sl_unfold_run_names
  refine congrArg₂ Prod.mk ?_ ?_ <;>
    (rw [View.canon_cons_unit_zero hz2]
     simp only [View.readAt_eq_ld, Memref.IsWhole.read_unread, View.ld_unit_zero (S := S2000x512) hz2, View.ld_unit_zero (S := S512x256) hz2, View.ld_unit_zero (S := S256) hz1, View.ld_unit_zero (S := S256x256) hz2, View.ld_unit_zero (S := S2000x1) hz2, View.ld_unit_zero (S := S2048x256) hz2])

end

end Run

def outA (c : Dev nD) (t : Fin cfg0.N) (h0 : t.val % 50 = 0) : Vec F S2048x256 .f32 × Vec F S2048x256 .f32 :=
  out0_A c (grid0.coords t) _ (stage_whole0 0 (cfg0.slots t 0)) _ (stage_whole0 1 (cfg0.slots t 1)) _ (stage_whole0 2 (cfg0.slots t 2)) _ (stage_whole0 3 (cfg0.slots t 3)) _ (stage_whole0 4 (cfg0.slots t 4)) _ (stage_whole0 5 (cfg0.slots t 5)) _ (stage_whole0 6 (cfg0.slots t 6)) _ (stage_whole0 7 (cfg0.slots t 7)) _ (stage_whole0 8 (cfg0.slots t 8)) _ (stage_whole0 9 (cfg0.slots t 9)) _ (stage_whole0 10 (cfg0.slots t 10)) _ (stage_whole0 11 (cfg0.slots t 11)) _ (stage_whole0 12 (cfg0.slots t 12)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((hcond0_0 t).mpr h0)

def outB (c : Dev nD) (t : Fin cfg0.N) (h0 : ¬t.val % 50 = 0) (p : Vec F S2048x256 .f32 × Vec F S2048x256 .f32) : Vec F S2048x256 .f32 × Vec F S2048x256 .f32 :=
  out0_B c (grid0.coords t) _ (stage_whole0 0 (cfg0.slots t 0)) _ (stage_whole0 1 (cfg0.slots t 1)) _ (stage_whole0 2 (cfg0.slots t 2)) _ (stage_whole0 3 (cfg0.slots t 3)) _ (stage_whole0 4 (cfg0.slots t 4)) _ (stage_whole0 5 (cfg0.slots t 5)) _ (stage_whole0 6 (cfg0.slots t 6)) _ (stage_whole0 7 (cfg0.slots t 7)) _ (stage_whole0 8 (cfg0.slots t 8)) _ (stage_whole0 9 (cfg0.slots t 9)) _ (stage_whole0 10 (cfg0.slots t 10)) _ (stage_whole0 11 (cfg0.slots t 11)) _ (stage_whole0 12 (cfg0.slots t 12)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (fun h => h0 ((hcond0_0 t).mp h)) p.1 p.2

-- The accumulators after point `n`: the reset case at the first point, afterwards the adding case over point `n - 1`.
def outsAt0 (c : Dev nD) : (n : ℕ) → n < cfg0.N → Vec F S2048x256 .f32 × Vec F S2048x256 .f32
  | 0, hn => outA V c ⟨0, hn⟩ (Nat.zero_mod _)
  | n + 1, hn => if h0 : (n + 1) % 50 = 0 then outA V c ⟨n + 1, hn⟩ h0 else outB V c ⟨n + 1, hn⟩ h0 (outsAt0 c n (Nat.lt_of_succ_lt hn))

theorem outsAt0_A (c : Dev nD) (t : Fin cfg0.N) (h0 : t.val % 50 = 0) : outsAt0 V c t.val t.isLt = outA V c t h0 := by
  obtain ⟨n, hn⟩ := t
  cases n with
  | zero => exact rfl
  | succ n => exact (dif_pos h0).trans rfl

theorem outsAt0_B (c : Dev nD) (t : Fin cfg0.N) (h0 : ¬t.val % 50 = 0) :
    outsAt0 V c t.val t.isLt = outB V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]
theorem owed_eq0 (c : Dev nD) (t) : (dat0 V c).owed t = 0 := by
  dsimp only [dat0]
theorem q_eq0 (c : Dev nD) (w : Fin cfg0.W) : (dat0 V c).q w = fullShare := by
  dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) ∧ (∀ d, (dat0 V c).before 9 t d = iblk0 V c 9 t) ∧ (∀ d, (dat0 V c).before 10 t d = iblk0 V c 10 t) := by
  refine ⟨?_, ?_, ?_, ?_, ?_, ?_, ?_, ?_, ?_, ?_, ?_⟩ <;>
    exact fun d => ((dat0 V c).before_in_eq_fetched _ (by rfl) (fun _ => by rfl) (fun _ _ _ => by rfl) (fun _ => by rfl) t d).trans (by rfl)
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2 := by dsimp only [dat0]

theorem before0_11_B (c : Dev nD) (t : Fin cfg0.N) (h0 : ¬t.val % 50 = 0) (d) :
    (dat0 V c).before 11 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 11 rfl t (by omega) (Bool.eq_false_iff.mpr fun h => by have := (flush0_11 _).mp h; dsimp only at this; omega)
    (fun _ => rfl) (fun _ _ => rfl)]
  dsimp only [dat0]
theorem before0_12_B (c : Dev nD) (t : Fin cfg0.N) (h0 : ¬t.val % 50 = 0) (d) :
    (dat0 V c).before 12 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 12 rfl t (by omega) (Bool.eq_false_iff.mpr fun h => by have := (flush0_12 _).mp h; dsimp only at this; omega)
    (fun _ => rfl) (fun _ _ => rfl)]
  dsimp only [dat0]

theorem body_obligation0 (c : Dev nD) : BodyObligation (dat0 (F := F) V c) (defs₀ (F := F)) Variants.none () Set.univ := fun t => by
  rw [bigSep_W0, bigSep_W0]
  dsimp only
  simp only [before0 V c t]
  rw [show (dat0 V c).Φ t.succ = (dat0 V c).Φ t.castSucc from rfl,
    show (dat0 V c).owesAt () t.succ = (dat0 V c).owesAt () t.castSucc from rfl]
  by_cases h0 : t.val % 50 = 0
  on_goal 1 => dsimp only [dat0]; rw [outsAt0_A V c t h0]; unfold outA out0_A
  on_goal 2 => simp only [before0_11_B V c t h0, before0_12_B V c t h0]; dsimp only [dat0]; rw [outsAt0_B V c t h0]; unfold outB out0_B
  all_goals
    unfold outs0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  on_goal 1 =>
    iapply ((kernelRun0_A c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((hcond0_0 t).mpr h0)).2.2 Set.univ _)
    unfold ins0
    iframe H0 H1 H2 H3 H4 H5 H6 H7 H8 H9 H10
    isplitl [H11]; · iexists _; iexact H11
    isplitl [H12]; · iexists _; iexact H12
  on_goal 2 =>
    iapply ((kernelRun0_B c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (fun h => h0 ((hcond0_0 t).mp h)) _ _).2.2 Set.univ _)
    unfold ins0
    iframe H0 H1 H2 H3 H4 H5 H6 H7 H8 H9 H10 H11 H12
  all_goals
    iintro ⟨⟨H0, H1, H2, H3, H4, H5, H6, H7, H8, H9, H10⟩, ⟨%e11, H11⟩, ⟨%e12, H12⟩⟩
    iframe HΦ Ho H0 H1 H2 H3 H4 H5 H6 H7 H8 H9 H10
    isplitl [H11]
    · ihave H' := (Ring.owns_of_writes_tiledL VO0_11 S2048x256.size) $$ H11; iapply H'; ipureintro; sl_kernel_rfl
    · ihave H' := (Ring.owns_of_writes_tiledL VO0_12 S2048x256.size) $$ H12; iapply H'; ipureintro; sl_kernel_rfl

theorem hin0 (c : Dev nD) : (Pipeline.ΦA spec0 c : sProp 𝕄) ⊢ (dat0 V c).Φ 0 := by
  rw [show (dat0 V c).Φ 0 = Pipeline.ΦA spec0 c from rfl]
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

def step0_11 (c : Dev nD) (t : Fin cfg0.N) (prev : Vec F S2048x256 .f32) : Vec F S2048x256 .f32 :=
  k0_pay3 (k0_pay8 (iblk0 V c 0 t) (iblk0 V c 1 t) (iblk0 V c 2 t) (iblk0 V c 3 t) (iblk0 V c 4 t)) (iblk0 V c 9 t) (iblk0 V c 10 t) prev

def step0_12 (c : Dev nD) (t : Fin cfg0.N) (prev : Vec F S2048x256 .f32) : Vec F S2048x256 .f32 :=
  k0_pay4 (k0_pay9 (iblk0 V c 0 t) (iblk0 V c 5 t) (iblk0 V c 6 t) (iblk0 V c 7 t) (iblk0 V c 8 t)) (k0_pay10 (iblk0 V c 0 t) (iblk0 V c 5 t) (iblk0 V c 6 t) (iblk0 V c 7 t) (iblk0 V c 8 t)) (k0_pay11 (F := F)) (iblk0 V c 9 t) (iblk0 V c 10 t) prev

def acc0 (c : Dev nD) : (n : ℕ) → n < cfg0.N → Vec F S2048x256 .f32 × Vec F S2048x256 .f32
  | 0, hn => (step0_11 V c ⟨0, hn⟩ (k0_pay5 (F := F)), step0_12 V c ⟨0, hn⟩ (k0_pay6 (F := F)))
  | n + 1, hn => (step0_11 V c ⟨n + 1, hn⟩ (acc0 c n (Nat.lt_of_succ_lt hn)).1, step0_12 V c ⟨n + 1, hn⟩ (acc0 c n (Nat.lt_of_succ_lt hn)).2)

theorem acc0_zero (c : Dev nD) (hn : 0 < cfg0.N) :
    acc0 V c 0 hn = (step0_11 V c ⟨0, hn⟩ (k0_pay5 (F := F)), step0_12 V c ⟨0, hn⟩ (k0_pay6 (F := F))) := rfl
theorem acc0_succ (c : Dev nD) (n : ℕ) (hn : n + 1 < cfg0.N) :
    acc0 V c (n + 1) hn = (step0_11 V c ⟨n + 1, hn⟩ (acc0 V c n (Nat.lt_of_succ_lt hn)).1, step0_12 V c ⟨n + 1, hn⟩ (acc0 V c n (Nat.lt_of_succ_lt hn)).2) := rfl

-- Induction on the point: zeros plus the first step, then one more step at each later point.
theorem outsAt0_eq (c : Dev nD) : ∀ (n : ℕ) (hn : n < cfg0.N), outsAt0 V c n hn = acc0 V c n hn := by
  intro n
  induction n with
  | zero =>
    intro hn
    refine (outsAt0_A V c ⟨0, hn⟩ (Nat.zero_mod _)).trans ?_
    unfold outA
    rw [out0_A_eq]
    rfl
  | succ n ih =>
    intro hn
    have h0 : ¬(n + 1) % 50 = 0 := by
      have := lt_of_lt_of_eq hn (show cfg0.N = 50 from N_0); omega
    refine (outsAt0_B V c ⟨n + 1, hn⟩ h0).trans ?_
    unfold outB
    rw [out0_B_eq, acc0_succ, ← ih (Nat.lt_of_succ_lt hn)]
    rfl

theorem h49 : 49 < cfg0.N := by rw [show cfg0.N = 50 from N_0]; decide

theorem hoff0_11 (t : Fin cfg0.N) : (fun a => win0_11.index t a * main_v4_0.ty.shape.size a) = fun _ => 0 :=
  funext fun a => by fin_cases a <;> rfl
theorem hoff0_12 (t : Fin cfg0.N) : (fun a => win0_12.index t a * main_v4_1.ty.shape.size a) = fun _ => 0 :=
  funext fun a => by fin_cases a <;> rfl

theorem flushed0_11 (c : Dev nD) (t : Fin cfg0.N) (hf : (cfg0.win 11).flush t = true) :
    (dat0 V c).flushed 11 t = ((cfg0.win 11).blk t).view.read (Elt F) (acc0 V c 49 h49).1 := by
  have hN : cfg0.N = 50 := N_0
  have h1 : t.val = 49 := by have := (flush0_11 t).mp hf; have := t.isLt; omega
  obtain rfl : t = ⟨49, h49⟩ := Fin.ext h1
  show (cfg0.win 11).cut (grid0.coords ⟨49, h49⟩) ((dat0 V c).after 11 ⟨49, h49⟩) = _
  rw [after0_11, outsAt0_eq]
  exact (Memref.read_access_unit_zero (Elt F) main_v4_0 (hoff0_11 _) (fun a => by rw [congrFun (hoff0_11 _) a]; simp) (acc0 V c 49 h49).1).symm

theorem flushed0_12 (c : Dev nD) (t : Fin cfg0.N) (hf : (cfg0.win 12).flush t = true) :
    (dat0 V c).flushed 12 t = ((cfg0.win 12).blk t).view.read (Elt F) (acc0 V c 49 h49).2 := by
  have hN : cfg0.N = 50 := N_0
  have h1 : t.val = 49 := by have := (flush0_12 t).mp hf; have := t.isLt; omega
  obtain rfl : t = ⟨49, h49⟩ := Fin.ext h1
  show (cfg0.win 12).cut (grid0.coords ⟨49, h49⟩) ((dat0 V c).after 12 ⟨49, h49⟩) = _
  rw [after0_12, outsAt0_eq]
  exact (Memref.read_access_unit_zero (Elt F) main_v4_1 (hoff0_12 _) (fun a => by rw [congrFun (hoff0_12 _) a]; simp) (acc0 V c 49 h49).2).symm

theorem final0_11 (c : Dev nD) : (dat0 V c).arrAt 11 cfg0.N = (acc0 V c 49 h49).1 :=
  (dat0 V c).arrAt_eq_of_cover 11 (acc0 V c 49 h49).1 (flushed0_11 V c) fun i =>
    ⟨⟨49, h49⟩, (flush0_11 _).mpr rfl, by
      show i ∈ ((View.whole main_v4_0).slice (win0_11.rect ⟨49, h49⟩)).set
      rw [View.set_slice_whole]
      exact View.mem_set_unit_zero (hoff0_11 _) _ i⟩

theorem final0_12 (c : Dev nD) : (dat0 V c).arrAt 12 cfg0.N = (acc0 V c 49 h49).2 :=
  (dat0 V c).arrAt_eq_of_cover 12 (acc0 V c 49 h49).2 (flushed0_12 V c) fun i =>
    ⟨⟨49, h49⟩, (flush0_12 _).mpr rfl, by
      show i ∈ ((View.whole main_v4_1).slice (win0_12.rect ⟨49, h49⟩)).set
      rw [View.set_slice_whole]
      exact View.mem_set_unit_zero (hoff0_12 _) _ i⟩

end Cert.KernelIdeal.Hand

end
-- ==== Proof.KI.R1.lean ====
import proofs.«412354_j76115410419855_2_alg».proof.Proof.Gen.KernelIdeal.Launch
import proofs.«412354_j76115410419855_2_alg».proof.Proof.Gen.KernelIdeal.Skeleton
import proofs.«412354_j76115410419855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz2 : (![0, 0] : Fin 2 → Nat) = fun _ => 0 := funext fun a => by fin_cases a <;> rfl
theorem hz1 : (![0] : Fin 1 → Nat) = fun _ => 0 := funext fun a => by fin_cases a; rfl

abbrev r1_0 : Rect S2048x256 := Rect.unit (s := S2048x256) ![0, 0] S2048x256.size inb_S2048x256_S2048x256_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S2048x1 := Rect.unit (s := S2048x1) ![0, 0] S2048x1.size inb_S2048x1_S2048x1_0_0

def out1_6 (x0 x1 : Vec F S2048x256 .f32) (x2 : Vec F S256x256 .f32) (x3 : Vec F S256 .f32) (x4 : Vec F S256x256 .f32) (x5 : Vec F S256 .f32) : Vec F S2048x256 .f32 :=
  View.canon [⟨r1_0, k1_pay2 (View.ld x0 r1_0)⟩]

def out1_7 (x0 x1 : Vec F S2048x256 .f32) (x2 : Vec F S256x256 .f32) (x3 : Vec F S256 .f32) (x4 : Vec F S256x256 .f32) (x5 : Vec F S256 .f32) : Vec F S2048x1 .f32 :=
  View.canon [⟨r1_3, k1_pay3 (View.ld x0 r1_0) (View.ld x2 r1_1) (View.ld x3 r1_2) (View.ld x4 r1_1) (View.ld x5 r1_2) (View.ld x1 r1_0)⟩]

set_option maxHeartbeats 4000000 in
theorem sound_kernel1 (c : Dev nD) (E : Set ℕ) (i : grid1.Coords)
    {arg1 arg2 arg7 : Memref sig .tc .vmem S2048x256 .f32} {arg3 arg5 : Memref sig .tc .vmem S256x256 .f32} {arg4 arg6 : Memref sig .tc .vmem S256 .f32}
    {arg8 : Memref sig .tc .vmem S2048x1 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    (x0 x1 : Vec F S2048x256 .f32) (x2 : Vec F S256x256 .f32) (x3 : Vec F S256 .f32) (x4 : Vec F S256x256 .f32) (x5 : Vec F S256 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ (∃ d, owns c.tc arg7 fullShare d) ∗ (∃ d, owns c.tc arg8 fullShare d)
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (out1_6 x0 x1 x2 x3 x4 x5) ∗ owns c.tc arg8 fullShare (out1_7 x0 x1 x2 x3 x4 x5)) -∗ K ⟨⟩))
      ⊢ wp frame (wpE (defs₀ (F := F)) Variants.none c none) E (cc1__proj_pos_kernel i arg1 harg1 arg2 harg2 arg3 harg3 arg4 harg4 arg5 harg5 arg6 harg6 arg7 harg7 arg8 harg8) K := by
  simp only [cc1__proj_pos_kernel_eq_skeleton]; unfold cc1__proj_pos_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ fun y => ⟨_, List.mem_singleton_self _, View.mem_set_unit_zero hz2 inb_S2048x256_S2048x256_0_0 y⟩
  iexists _; isplitr
  swap; · iexact H7
  ipureintro
  try dsimp only
  exact View.read_writes_eq_canon _ _ _ fun y => ⟨_, List.mem_singleton_self _, View.mem_set_unit_zero hz2 inb_S2048x1_S2048x1_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl
theorem owed_eq1 (c : Dev nD) (t) : (dat1 V c).owed t = 0 := rfl
theorem q_eq1 (c : Dev nD) (w : Fin cfg1.W) : (dat1 V c).q w = fullShare := rfl

theorem body_obligation1 (c : Dev nD) : BodyObligation (dat1 (F := F) V c) (defs₀ (F := F)) Variants.none () Set.univ := fun t => by
  rw [bigSep_W1, bigSep_W1]
  simp only [show ∀ w i, cfg1.idle w i = false from fun _ _ => rfl,
    show ∀ d, (dat1 V c).before 0 t d = iblk1 V c 0 t from (dat1 V c).before_fetched 0 t (fetch1_0 t), show ∀ d, (dat1 V c).before 1 t d = iblk1 V c 1 t from (dat1 V c).before_fetched 1 t (fetch1_1 t),
    show ∀ d, (dat1 V c).before 2 t d = iblk1 V c 2 t from (dat1 V c).before_fetched 2 t (fetch1_2 t), show ∀ d, (dat1 V c).before 3 t d = iblk1 V c 3 t from (dat1 V c).before_fetched 3 t (fetch1_3 t),
    show ∀ d, (dat1 V c).before 4 t d = iblk1 V c 4 t from (dat1 V c).before_fetched 4 t (fetch1_4 t), show ∀ d, (dat1 V c).before 5 t d = iblk1 V c 5 t from (dat1 V c).before_fetched 5 t (fetch1_5 t)]
  rw [show (dat1 V c).owesAt () t.succ = (dat1 V c).owesAt () t.castSucc from rfl]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  isplitl [H7]; · iexists _; iexact H7
  iintro ⟨H0, H1, H2, H3, H4, H5, H6, H7⟩
  iframe HΦ Ho H0 H1 H2 H3 H4 H5 H6
  iexact H7

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

theorem iblk1_whole (c : Dev nD) (t : Fin cfg1.N) :
    iblk1 V c 0 t = V c (Pipeline.arrRef spec1 0) ∧ iblk1 V c 1 t = V c (Pipeline.arrRef spec1 1) ∧ iblk1 V c 2 t = V c (Pipeline.arrRef spec1 2)
      ∧ iblk1 V c 3 t = V c (Pipeline.arrRef spec1 3) ∧ iblk1 V c 4 t = V c (Pipeline.arrRef spec1 4) ∧ iblk1 V c 5 t = V c (Pipeline.arrRef spec1 5) := by
  obtain rfl := fin_N1 t
  refine ⟨?_, ?_, ?_, ?_, ?_, ?_⟩ <;> exact Memref.read_access_unit_zero (Elt F) _ (funext fun a => by fin_cases a <;> decide) _ _

theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

theorem final1 (c : Dev nD) (w : Fin cfg1.W) (hf : (cfg1.win w).flush t1_0 = true) (G)
    (hG : (dat1 V c).flushed w t1_0 = ((cfg1.win w).blk t1_0).view.read (Elt F) G)
    (hs : ((cfg1.win w).blk t1_0).view.set = Finset.univ) : (dat1 V c).arrAt w cfg1.N = G :=
  (dat1 V c).arrAt_eq_of_cover w G (fun t _ => fin_N1 t ▸ hG) fun i => ⟨t1_0, hf, hs ▸ Finset.mem_univ i⟩

theorem final1_6 (c : Dev nD) : (dat1 V c).arrAt 6 cfg1.N = k1_pay2 (V c (Pipeline.arrRef spec1 0)) := by
  obtain ⟨e0, -⟩ := iblk1_whole V c t1_0
  have h0 : (fun a => win1_6.index t1_0 a * main_v5_0.ty.shape.size a) = fun _ => 0 := funext fun a => by fin_cases a <;> decide
  refine final1 V c 6 (flush1_6 _) _ ?_ (set_access_unit_zero main_v5_0 h0 _)
  dsimp only [Dat.flushed, dat1, out1_6]
  rw [View.canon_unit_zero hz2, View.ld_unit_zero hz2, e0]
  exact (Memref.read_access_unit_zero (Elt F) main_v5_0 h0 _ _).symm

theorem final1_7 (c : Dev nD) : (dat1 V c).arrAt 7 cfg1.N
    = k1_pay3 (V c (Pipeline.arrRef spec1 0)) (V c (Pipeline.arrRef spec1 2)) (V c (Pipeline.arrRef spec1 3))
        (V c (Pipeline.arrRef spec1 4)) (V c (Pipeline.arrRef spec1 5)) (V c (Pipeline.arrRef spec1 1)) := by
  obtain ⟨e0, e1, e2, e3, e4, e5⟩ := iblk1_whole V c t1_0
  have h0 : (fun a => win1_7.index t1_0 a * main_v5_1.ty.shape.size a) = fun _ => 0 := funext fun a => by fin_cases a <;> decide
  refine final1 V c 7 (flush1_7 _) _ ?_ (set_access_unit_zero main_v5_1 h0 _)
  dsimp only [Dat.flushed, dat1, out1_7]
  rw [View.canon_unit_zero hz2]
  simp only [View.ld_unit_zero (S := S2048x256) hz2, View.ld_unit_zero (S := S256x256) hz2, View.ld_unit_zero (S := S256) hz1]
  rw [e0, e1, e2, e3, e4, e5]
  exact (Memref.read_access_unit_zero (Elt F) main_v5_1 h0 _ _).symm

end Cert.KernelIdeal.Hand

end
-- ==== Proof.KI.R2.lean ====
import proofs.«412354_j76115410419855_2_alg».proof.Proof.Gen.KernelIdeal.Launch
import proofs.«412354_j76115410419855_2_alg».proof.Proof.Gen.KernelIdeal.Skeleton
import proofs.«412354_j76115410419855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

abbrev r2_0 : Rect S256x256 := Rect.unit (s := S256x256) ![0, 0] S256x256.size inb_S256x256_S256x256_0_0
abbrev r2_1 : Rect S2048x256 := Rect.unit (s := S2048x256) ![0, 0] S2048x256.size inb_S2048x256_S2048x256_0_0
abbrev r2_2 : Rect S256x2048 := Rect.unit (s := S256x2048) ![0, 0] S256x2048.size inb_S256x2048_S256x2048_0_0
abbrev r2_3 : Rect S256x1 := Rect.unit (s := S256x1) ![0, 0] S256x1.size inb_S256x1_S256x1_0_0

def out2_2 (x0 : Vec F S256x256 .f32) (x1 : Vec F S2048x256 .f32) : Vec F S256x2048 .f32 :=
  View.canon [⟨r2_2, k2_pay1 (View.ld x0 r2_0) (View.ld x1 r2_1)⟩]

def out2_3 (x0 : Vec F S256x256 .f32) (x1 : Vec F S2048x256 .f32) : Vec F S256x1 .f32 :=
  View.canon [⟨r2_3, k2_pay2 (View.ld x0 r2_0) (View.ld x1 r2_1)⟩]

set_option maxHeartbeats 1000000 in

theorem sound_kernel2 (c : Dev nD) (E : Set ℕ) (i : grid2.Coords)
    (arg1 : Memref sig .tc .vmem S256x256 .f32) (harg1 : arg1.IsWhole) (arg2 : Memref sig .tc .vmem S2048x256 .f32) (harg2 : arg2.IsWhole)
    (arg3 : Memref sig .tc .vmem S256x2048 .f32) (harg3 : arg3.IsWhole) (arg4 : Memref sig .tc .vmem S256x1 .f32) (harg4 : arg4.IsWhole)
    (x0 : Vec F S256x256 .f32) (x1 : Vec F S2048x256 .f32) (K : PUnit → sProp 𝕄) :
    iprop(owns c.tc arg1 fullShare x0 ∗ owns c.tc arg2 fullShare x1
        ∗ (∃ d, owns c.tc arg3 fullShare d) ∗ (∃ d, owns c.tc arg4 fullShare d)
        ∗ (iprop(owns c.tc arg1 fullShare x0 ∗ owns c.tc arg2 fullShare x1
            ∗ owns c.tc arg3 fullShare (out2_2 x0 x1) ∗ owns c.tc arg4 fullShare (out2_3 x0 x1)) -∗ K ⟨⟩))
      ⊢ wp frame (wpE (defs₀ (F := F)) Variants.none c none) E (cc2__neg_score_kernel i arg1 harg1 arg2 harg2 arg3 harg3 arg4 harg4) K := by
  simp only [cc2__neg_score_kernel_eq_skeleton]; unfold cc2__neg_score_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ fun y => ⟨_, List.mem_singleton_self _, View.mem_set_unit_zero hz2 inb_S256x2048_S256x2048_0_0 y⟩
  iexists _; isplitr
  swap; · iexact H3
  ipureintro
  exact View.read_writes_eq_canon _ _ _ fun y => ⟨_, List.mem_singleton_self _, View.mem_set_unit_zero hz2 inb_S256x1_S256x1_0_0 y⟩

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q w := match w with
    | ⟨0, _⟩ => fullShare.left
    | ⟨1, _⟩ => fullShare.right
    | ⟨2, _⟩ => fullShare
    | ⟨3, _⟩ => fullShare
  owed _ := 0

theorem A_eq2 (c : Dev nD) (w : Fin cfg2.W) : (dat2 V c).A w = V c (Pipeline.arrRef spec2 w) := rfl
theorem owed_eq2 (c : Dev nD) (t) : (dat2 V c).owed t = 0 := rfl

theorem body_obligation2 (c : Dev nD) : BodyObligation (dat2 (F := F) V c) (defs₀ (F := F)) Variants.none () Set.univ := fun t => by
  rw [bigSep_W2, bigSep_W2]
  simp only [show ∀ w i, cfg2.idle w i = false from fun _ _ => rfl,
    show ∀ d, (dat2 V c).before 0 t d = iblk2 V c 0 t from (dat2 V c).before_fetched 0 t (fetch2_0 t),
    show ∀ d, (dat2 V c).before 1 t d = iblk2 V c 1 t from (dat2 V c).before_in_eq_fetched 1 rfl (fun _ => rfl) (fun _ _ _ => rfl) (fun _ => rfl) t]
  rw [show (dat2 V c).owesAt () t.succ = (dat2 V c).owesAt () t.castSucc from rfl]
  dsimp only [dat2]
  show _ ⊢ wp _ _ _ (bodyAt2 t) _
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  iframe H0 H1
  isplitl [H2]; · iexists _; iexact H2
  isplitl [H3]; · iexists _; iexact H3
  iintro ⟨H0, H1, H2, H3⟩
  iframe HΦ Ho H0 H1 H2
  iexact H3

theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

theorem share2 (c : Dev nD) : (dat2 V c).share 0 = fullShare.left ∧ (dat2 V c).share 1 = fullShare.right
    ∧ (dat2 V c).share 2 = fullShare ∧ (dat2 V c).share 3 = fullShare := ⟨rfl, rfl, rfl, rfl⟩

theorem arrRefs2 : Finset.image (Pipeline.arrRef cfg2.spec) Finset.univ = {main_v5_0, main_v6_0, main_v6_1} := by decide

theorem arrays2 (c : Dev nD) (V' : (b : Ref sig .tc) → Buf (Elt F) ((c : Thread nD τ).loc b))
    (X : (w : Fin cfg2.W) → Buf (Elt F) ((cfg2.win w).arr.view.loc (c.tc : Thread nD τ))) (hX : ∀ w, X w = V' (Pipeline.arrRef spec2 w)) :
    (dat2 V c).arrays X ⊣⊢ (Pipeline.arrBufs spec2 c V' : sProp 𝕄) := by
  obtain ⟨s0, s1, s2, s3⟩ := share2 V c
  unfold Pipeline.arrBufs Dat.arrays
  rw [bigSep_W2, arrRefs2,
    bigSep_insert (by decide), bigSep_insert (by decide), bigSep_singleton, s0, s1, s2, s3, hX 0, hX 1, hX 2, hX 3,
    (arr_whole2 0).set_eq_univ, (arr_whole2 2).set_eq_univ, (arr_whole2 3).set_eq_univ]
  exact ⟨sep_assoc'.trans (sep_mono (pointsTo_share (PosShare.mem_left_op_right fullShare)).2 .rfl),
    (sep_mono (pointsTo_share (PosShare.mem_left_op_right fullShare)).1 .rfl).trans sep_assoc⟩

theorem entry2 (c : Dev nD) :
    (unscopedBufs c (V c) : sProp 𝕄) ⊢ iprop((dat2 V c).arrays (dat2 V c).A ∗ Pipeline.unscopedRest spec2 c (V c)) := by
  rw [Pipeline.unscopedBufs_split₀ (fun _ : Unit => cfg2) () winFacts₀2.arr_unscoped c (V c)]
  exact sep_mono (arrays2 V c (V c) _ fun _ => rfl).2 .rfl

theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c)) ⊢ (unscopedBufs c V' : sProp 𝕄) := by
  rw [Pipeline.unscopedBufs_split₀ (fun _ : Unit => cfg2) () winFacts₀2.arr_unscoped c V']
  refine sep_mono (arrays2 V c V' _ hF).1 (Entails.of_eq ?_)
  unfold Pipeline.unscopedRest
  exact bigSep_congr fun b hb => by rw [hrest b (Finset.mem_sdiff.mp hb).2]

theorem lt8_2 (t : Fin cfg2.N) : t.val < 8 := t.isLt.trans_eq N_2

def ix2 {n m : Nat} (r : Fin n) (k : Fin m) : (⟨2, ![n, m]⟩ : Shape).Idx := fun a =>
  match a with
  | ⟨0, _⟩ => r
  | ⟨1, _⟩ => k

def rows2 (a : S2048x256.Idx → Elt F .f32) (q : Nat) (hq : q < 8) : Vec F S256x256 .f32 :=
  fun j => a (ix2 ⟨q * 256 + (j 0).val, by have := (show (j 0).val < 256 from (j 0).isLt); omega⟩ ⟨(j 1).val, (j 1).isLt⟩)

def G2_2 (a : S2048x256.Idx → Elt F .f32) : S2048x2048.Idx → Elt F .f32 := fun i =>
  k2_pay1 (rows2 a ((i 0).val / 256) (by have := (show (i 0).val < 2048 from (i 0).isLt); omega)) a
    (ix2 ⟨(i 0).val % 256, Nat.mod_lt _ (by decide)⟩ ⟨(i 1).val, (i 1).isLt⟩)

def G2_3 (a : S2048x256.Idx → Elt F .f32) : S2048x1.Idx → Elt F .f32 := fun i =>
  k2_pay2 (rows2 a ((i 0).val / 256) (by have := (show (i 0).val < 2048 from (i 0).isLt); omega)) a
    (ix2 ⟨(i 0).val % 256, Nat.mod_lt _ (by decide)⟩ ⟨(i 1).val, (i 1).isLt⟩)

theorem pay_congr {S : Shape} (P : Vec F S256x256 .f32 → S.Idx → Elt F .f32) (a : S2048x256.Idx → Elt F .f32) {q q' : Nat} (hq : q < 8) (hq' : q' < 8)
    (e : q = q') {x x' : S.Idx} (ex : x = x') : P (rows2 a q hq) x = P (rows2 a q' hq') x' := by
  subst e ex; rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem iblk2_0_eq (c : Dev nD) (t : Fin cfg2.N) :
    (iblk2 V c 0 t : Vec F S256x256 .f32) = rows2 (V c (Pipeline.arrRef spec2 0)) t.val (lt8_2 t) := by
  obtain ⟨e0, e1, -⟩ := idx_facts2 t
  funext j
  unfold iblk2 rows2
  rw [View.read_apply]
  exact congrArg (V c main_v5_0) (Shape.idx_ext₂ ((win2_0.rect_emb_val t j 0).trans (by rw [e0]; rfl)) (win2_0.rect_emb_val_of_index_zero t 1 e1 j))

theorem iblk2_1_eq (c : Dev nD) (t : Fin cfg2.N) :
    (iblk2 V c 1 t : Vec F S2048x256 .f32) = V c (Pipeline.arrRef spec2 0) := by
  obtain ⟨-, -, e0, e1, -⟩ := idx_facts2 t
  exact Memref.read_access_unit_zero (Elt F) main_v5_0
    (funext fun a => by fin_cases a <;> first | exact mul_eq_zero_of_left e0 _ | exact mul_eq_zero_of_left e1 _) _ _

theorem final2_2 (c : Dev nD) : (dat2 V c).arrAt 2 cfg2.N = G2_2 (V c (Pipeline.arrRef spec2 0)) := by
  have hemb (t : Fin cfg2.N) (j) : (((cfg2.win 2).blk t).view.emb j 0).val = t.val * 256 + (j 0).val
      ∧ (((cfg2.win 2).blk t).view.emb j 1).val = (j 1).val := by
    obtain ⟨-, -, -, -, e0, e1, -⟩ := idx_facts2 t
    exact ⟨(win2_2.rect_emb_val t j 0).trans (by rw [e0]; rfl), win2_2.rect_emb_val_of_index_zero t 1 e1 j⟩
  refine (dat2 V c).arrAt_eq_of_cover 2 _ (fun t _ => ?_) fun i => ?_
  · dsimp only [Dat.flushed, dat2, out2_2]
    rw [View.canon_unit_zero hz2, View.ld_unit_zero hz2, View.ld_unit_zero hz2, iblk2_0_eq, iblk2_1_eq]
    funext j
    rw [View.read_apply]
    obtain ⟨h0, h1⟩ := hemb t j
    have hj0 : (j 0).val < 256 := (j 0).isLt
    unfold G2_2
    exact pay_congr (fun r => k2_pay1 r _) _ _ _ (by rw [h0]; omega)
      (Shape.idx_ext₂ (by show (j 0).val = _ % 256; rw [h0]; omega) h1.symm)
  · have ht : (i 0).val / 256 < cfg2.N := Nat.div_lt_of_lt_mul (i 0).isLt
    obtain ⟨h0, h1⟩ := hemb ⟨_, ht⟩ (ix2 (n := 256) (m := 2048) ⟨(i 0).val % 256, Nat.mod_lt _ (by decide)⟩ (i 1))
    exact ⟨⟨_, ht⟩, flush2_2 _, Finset.mem_map.mpr ⟨_, Finset.mem_univ _,
      Shape.idx_ext₂ (h0.trans (by show (i 0).val / 256 * 256 + (i 0).val % 256 = _; omega)) h1⟩⟩

theorem final2_3 (c : Dev nD) : (dat2 V c).arrAt 3 cfg2.N = G2_3 (V c (Pipeline.arrRef spec2 0)) := by
  have hemb (t : Fin cfg2.N) (j) : (((cfg2.win 3).blk t).view.emb j 0).val = t.val * 256 + (j 0).val
      ∧ (((cfg2.win 3).blk t).view.emb j 1).val = (j 1).val := by
    obtain ⟨-, -, -, -, -, -, e0, e1⟩ := idx_facts2 t
    exact ⟨(win2_3.rect_emb_val t j 0).trans (by rw [e0]; rfl), win2_3.rect_emb_val_of_index_zero t 1 e1 j⟩
  refine (dat2 V c).arrAt_eq_of_cover 3 _ (fun t _ => ?_) fun i => ?_
  · dsimp only [Dat.flushed, dat2, out2_3]
    rw [View.canon_unit_zero hz2, View.ld_unit_zero hz2, View.ld_unit_zero hz2, iblk2_0_eq, iblk2_1_eq]
    funext j
    rw [View.read_apply]
    obtain ⟨h0, h1⟩ := hemb t j
    have hj0 : (j 0).val < 256 := (j 0).isLt
    unfold G2_3
    exact pay_congr (fun r => k2_pay2 r _) _ _ _ (by rw [h0]; omega)
      (Shape.idx_ext₂ (by show (j 0).val = _ % 256; rw [h0]; omega) h1.symm)
  · have ht : (i 0).val / 256 < cfg2.N := Nat.div_lt_of_lt_mul (i 0).isLt
    obtain ⟨h0, h1⟩ := hemb ⟨_, ht⟩ (ix2 (n := 256) (m := 1) ⟨(i 0).val % 256, Nat.mod_lt _ (by decide)⟩ (i 1))
    exact ⟨⟨_, ht⟩, flush2_3 _, Finset.mem_map.mpr ⟨_, Finset.mem_univ _,
      Shape.idx_ext₂ (h0.trans (by show (i 0).val / 256 * 256 + (i 0).val % 256 = _; omega)) h1⟩⟩

end Cert.KernelIdeal.Hand

end
-- ==== Proof.KI.R3.lean ====
import proofs.«412354_j76115410419855_2_alg».proof.Proof.Gen.KernelIdeal.Launch
import proofs.«412354_j76115410419855_2_alg».proof.Proof.Gen.KernelIdeal.Skeleton
import proofs.«412354_j76115410419855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 7 :=
  (by decide +kernel : ∀ t : Fin grid3.N, cond3_1 (grid3.coords t) ↔ t.val = 7)

theorem idle3_4 : ∀ t : Fin cfg3.N, ¬t.val = 7 → cfg3.idle 4 (grid3.coords t) = true ∧ (cfg3.win 4).flush t = false := by decide +kernel
theorem live3_4 : ∀ t : Fin cfg3.N, t.val = 7 → cfg3.idle 4 (grid3.coords t) = false := by decide +kernel

abbrev VO3_4 : View sig .tc .vmem S1x1 .f32 := (Memref.whole cc3_stg4_0 : Memref sig .tc .vmem S1x1 .f32).view
abbrev ms3_0 (t : Fin cfg3.N) : Memref sig .tc .vmem S256x2048 .f32 := win3_0.stage (cfg3.slots t 0)
abbrev ms3_1 (t : Fin cfg3.N) : Memref sig .tc .vmem S2048x2048 .f32 := win3_1.stage (cfg3.slots t 1)
abbrev ms3_2 (t : Fin cfg3.N) : Memref sig .tc .vmem S1x2048 .f32 := win3_2.stage (cfg3.slots t 2)
abbrev ms3_3 (t : Fin cfg3.N) : Memref sig .tc .vmem S256x1 .f32 := win3_3.stage (cfg3.slots t 3)
abbrev ms3_4 (t : Fin cfg3.N) : Memref sig .tc .vmem S1x1 .f32 := win3_4.stage (cfg3.slots t 4)
abbrev scM3 : Memref sig .tc .vmem S1x1 .f32 := Memref.whole cc3_scratch0
abbrev VS3 : View sig .tc .vmem S1x1 .f32 := scM3.view

def Phi3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = Phi3 c iprop(∃ d, owns (c : Thread nD τ) scM3 fullShare d) := by
  unfold Pipeline.ΦA Phi3; rw [scopedRest3_split]; simp only [scM3, owns_whole]; try rfl

theorem owns_unread3 {s : Shape} (c : Dev nD) (M : Memref sig .tc .vmem s .f32) (h : M.IsWhole) (x : Vec F s .f32) :
    (owns (c : Thread nD τ) M fullShare x : sProp 𝕄) = (M.view.loc (c : Thread nD τ) ↦[M.view.set]{fullShare} h.unread x) := by
  refine BI.equiv_iff.mp ⟨?_, (owns_intro (c : Thread nD τ) M fullShare (h.unread x)).trans ?_⟩
  · show (_ : sProp 𝕄) ⊢ _; unfold owns; iintro ⟨%f, %hf, H⟩; obtain rfl := h.eq_unread hf; iexact H
  · rw [h.read_unread]

theorem hz3 : (![0, 0] : Fin 2 → Nat) = fun _ => 0 := funext fun a => by fin_cases a <;> rfl

theorem ld_unread {s : Shape} {M : Memref sig .tc .vmem s .f32} (h : M.IsWhole) (x : Vec F s .f32) {off : Fin s.rank → Nat} (hz : off = fun _ => 0) (inb) :
    M.view.readAt (Elt F) (Rect.unit off s.size inb) (h.unread x) = x := by
  rw [View.readAt_eq_ld, h.read_unread, View.ld_unit_zero hz]

section Run

variable (c : Dev nD) (i : grid3.Coords)
  (arg1 : Memref sig .tc .vmem S256x2048 .f32) (harg1 : arg1.IsWhole) (arg2 : Memref sig .tc .vmem S2048x2048 .f32) (harg2 : arg2.IsWhole)
  (arg3 : Memref sig .tc .vmem S1x2048 .f32) (harg3 : arg3.IsWhole) (arg4 : Memref sig .tc .vmem S256x1 .f32) (harg4 : arg4.IsWhole)
  (arg5 : Memref sig .tc .vmem S1x1 .f32) (harg5 : arg5.IsWhole) (arg6 : Memref sig .tc .vmem S1x1 .f32) (harg6 : arg6.IsWhole)
  (x0 : Vec F S256x2048 .f32) (x1 : Vec F S2048x2048 .f32) (x2 : Vec F S1x2048 .f32) (x3 : Vec F S256x1 .f32) (xs : Vec F S1x1 .f32)

-- The body's specification, shared by the three kinds of point: they differ in what is known of the output's buffer and of the scratch before (`P5`, `P6`) and of the output's buffer after (`Q5`).
def Run3 (P5 P6 Q5 : sProp 𝕄) (LS : List (View.Piece (Elt F) S1x1 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ P5 ∗ P6
        ∗ (iprop(owns (c : Thread nD τ) arg1 fullShare x0 ∗ owns (c : Thread nD τ) arg2 fullShare x1 ∗ owns (c : Thread nD τ) arg3 fullShare x2 ∗ owns (c : Thread nD τ) arg4 fullShare x3 ∗ Q5 ∗ (∃ f, arg6.view.loc (c : Thread nD τ) ↦[arg6.view.set]{fullShare} arg6.view.writes (Elt F) f LS)) -∗ K ⟨⟩))
      ⊢ wp frame (wpE (defs₀ (F := F)) Variants.none c none) E (cc3__combine_kernel i arg1 harg1 arg2 harg2 arg3 harg3 arg4 harg4 arg5 harg5 arg6 harg6) K

noncomputable def kernelRun3_A (hc0 : cond3_0 i) (hc1 : ¬cond3_1 i) :
    Σ' (_ : List (View.Piece (Elt F) S1x1 .f32)), { LS // (∀ xi4, Run3 c i arg1 harg1 arg2 harg2 arg3 harg3 arg4 harg4 arg5 harg5 arg6 harg6 x0 x1 x2 x3 (owns (c : Thread nD τ) arg5 fullShare xi4) iprop(∃ d, owns (c : Thread nD τ) arg6 fullShare d) (owns (c : Thread nD τ) arg5 fullShare xi4) LS)
      ∧ View.canon LS = k3_pay3 x0 x1 x2 x3 (k3_pay2 (F := F)) } := by
  refine ⟨[], ?_, fun xi4 E K => ?run, ?val⟩
  case run =>
    simp only [cc3__combine_kernel_eq_skeleton]; unfold cc3__combine_kernel_skel
    simp only [k3_part1_eq_skeleton]; unfold k3_part1_skel
    simp only [owns_unread3 c _ harg1, owns_unread3 c _ harg2, owns_unread3 c _ harg3, owns_unread3 c _ harg4, owns_unread3 c _ harg5, owns_unread3 c _ harg6]
    iintro ⟨H0, H1, H2, H3, H4, ⟨%ds, HS⟩, Hk⟩
    sl_exec (disch := first | exact hc0 | exact hc1)
    sl_step
    iapply Hk
    iframe H0 H1 H2 H3 H4
    iexists _; iexact HS
  case val =>
    try sl_unfold_words
    rw [View.canon_cons_unit_zero hz3, View.readCov_unit_zero _ hz3]
    simp only [ld_unread harg1 _ hz3, ld_unread harg2 _ hz3, ld_unread harg3 _ hz3, ld_unread harg4 _ hz3, ld_unread harg6 _ hz3]

noncomputable def kernelRun3_B (hc0 : ¬cond3_0 i) (hc1 : ¬cond3_1 i) :
    Σ' (_ : List (View.Piece (Elt F) S1x1 .f32)), { LS // (∀ xi4, Run3 c i arg1 harg1 arg2 harg2 arg3 harg3 arg4 harg4 arg5 harg5 arg6 harg6 x0 x1 x2 x3 (owns (c : Thread nD τ) arg5 fullShare xi4) (owns (c : Thread nD τ) arg6 fullShare xs) (owns (c : Thread nD τ) arg5 fullShare xi4) LS)
      ∧ View.canon LS = k3_pay3 x0 x1 x2 x3 xs } := by
  refine ⟨[], ?_, fun xi4 E K => ?run, ?val⟩
  case run =>
    simp only [cc3__combine_kernel_eq_skeleton]; unfold cc3__combine_kernel_skel
    simp only [k3_part1_eq_skeleton]; unfold k3_part1_skel
    simp only [owns_unread3 c _ harg1, owns_unread3 c _ harg2, owns_unread3 c _ harg3, owns_unread3 c _ harg4, owns_unread3 c _ harg5, owns_unread3 c _ harg6]
    iintro ⟨H0, H1, H2, H3, H4, HS, Hk⟩
    sl_exec (disch := first | exact hc0 | exact hc1)
    sl_step
    iapply Hk
    iframe H0 H1 H2 H3 H4
    iexists _; iexact HS
  case val =>
    try sl_unfold_words
    rw [View.canon_unit_zero hz3]
    simp only [ld_unread harg1 _ hz3, ld_unread harg2 _ hz3, ld_unread harg3 _ hz3, ld_unread harg4 _ hz3, ld_unread harg6 _ hz3]

noncomputable def kernelRun3_C (hc0 : ¬cond3_0 i) (hc1 : cond3_1 i) :
    Σ' (L4 : List (View.Piece (Elt F) S1x1 .f32)), { LS // Run3 c i arg1 harg1 arg2 harg2 arg3 harg3 arg4 harg4 arg5 harg5 arg6 harg6 x0 x1 x2 x3 iprop(∃ d, owns (c : Thread nD τ) arg5 fullShare d) (owns (c : Thread nD τ) arg6 fullShare xs) iprop(∃ f, arg5.view.loc (c : Thread nD τ) ↦[arg5.view.set]{fullShare} arg5.view.writes (Elt F) f L4) LS
      ∧ View.canon LS = k3_pay3 x0 x1 x2 x3 xs ∧ View.canon L4 = k3_pay1 (k3_pay3 x0 x1 x2 x3 xs) } := by
  refine ⟨?_, ?_, fun E K => ?run, ?val, ?out⟩
  case run =>
    simp only [cc3__combine_kernel_eq_skeleton]; unfold cc3__combine_kernel_skel
    simp only [k3_part1_eq_skeleton]; unfold k3_part1_skel
    simp only [owns_unread3 c _ harg1, owns_unread3 c _ harg2, owns_unread3 c _ harg3, owns_unread3 c _ harg4, owns_unread3 c _ harg5, owns_unread3 c _ harg6]
    iintro ⟨H0, H1, H2, H3, ⟨%d4, H4⟩, HS, Hk⟩
    sl_exec (disch := first | exact hc0 | exact hc1)
    sl_step
    iapply Hk
    iframe H0 H1 H2 H3
    isplitl [H4]; · iexists _; iexact H4
    iexists _; iexact HS
  case val =>
    try sl_unfold_words
    rw [View.canon_unit_zero hz3]
    simp only [ld_unread harg1 _ hz3, ld_unread harg2 _ hz3, ld_unread harg3 _ hz3, ld_unread harg4 _ hz3, ld_unread harg6 _ hz3]
  case out =>
    try sl_unfold_words
    rw [View.canon_unit_zero hz3, View.readCov_unit_zero _ hz3]
    simp only [ld_unread harg1 _ hz3, ld_unread harg2 _ hz3, ld_unread harg3 _ hz3, ld_unread harg4 _ hz3, ld_unread harg6 _ hz3]

end Run

def runA (c : Dev nD) (t : Fin cfg3.N) (h0 : t.val = 0) (h1 : ¬t.val = 7) :=
  kernelRun3_A c (grid3.coords t) (ms3_0 t) (stage_whole3 0 _) (ms3_1 t) (stage_whole3 1 _) (ms3_2 t) (stage_whole3 2 _) (ms3_3 t) (stage_whole3 3 _) (ms3_4 t) (stage_whole3 4 _) scM3 (Memref.isWhole_whole _) (iblk3 V c 0 t) (iblk3 V c 1 t) (iblk3 V c 2 t) (iblk3 V c 3 t) ((hcond3_0 t).mpr h0) (fun h => h1 ((hcond3_1 t).mp h))
def runB (c : Dev nD) (t : Fin cfg3.N) (h0 : ¬t.val = 0) (h1 : ¬t.val = 7) (xs : Vec F S1x1 .f32) :=
  kernelRun3_B c (grid3.coords t) (ms3_0 t) (stage_whole3 0 _) (ms3_1 t) (stage_whole3 1 _) (ms3_2 t) (stage_whole3 2 _) (ms3_3 t) (stage_whole3 3 _) (ms3_4 t) (stage_whole3 4 _) scM3 (Memref.isWhole_whole _) (iblk3 V c 0 t) (iblk3 V c 1 t) (iblk3 V c 2 t) (iblk3 V c 3 t) xs (fun h => h0 ((hcond3_0 t).mp h)) (fun h => h1 ((hcond3_1 t).mp h))
def runC (c : Dev nD) (t : Fin cfg3.N) (h0 : ¬t.val = 0) (h1 : t.val = 7) (xs : Vec F S1x1 .f32) :=
  kernelRun3_C c (grid3.coords t) (ms3_0 t) (stage_whole3 0 _) (ms3_1 t) (stage_whole3 1 _) (ms3_2 t) (stage_whole3 2 _) (ms3_3 t) (stage_whole3 3 _) (ms3_4 t) (stage_whole3 4 _) scM3 (Memref.isWhole_whole _) (iblk3 V c 0 t) (iblk3 V c 1 t) (iblk3 V c 2 t) (iblk3 V c 3 t) xs (fun h => h0 ((hcond3_0 t).mp h)) ((hcond3_1 t).mpr h1)

theorem N3_lt {n : ℕ} (hn : n < cfg3.N) : n < 8 := lt_of_lt_of_eq hn (show cfg3.N = 8 from N_3)
theorem seven_lt_N3 : 7 < cfg3.N := by rw [show cfg3.N = 8 from N_3]; decide

def sAt3 (c : Dev nD) : (n : ℕ) → n < cfg3.N → Vec F S1x1 .f32
  | 0, hn => VS3.read (Elt F) (VS3.writes (Elt F) VS3.junk (runA V c ⟨0, hn⟩ rfl (show ¬(0 : ℕ) = 7 by decide)).2.1)
  | n + 1, hn =>
    if h1 : n + 1 = 7 then VS3.read (Elt F) (VS3.writes (Elt F) VS3.junk (runC V c ⟨n + 1, hn⟩ (Nat.succ_ne_zero n) h1 (sAt3 c n (Nat.lt_of_succ_lt hn))).2.1)
    else VS3.read (Elt F) (VS3.writes (Elt F) VS3.junk (runB V c ⟨n + 1, hn⟩ (Nat.succ_ne_zero n) h1 (sAt3 c n (Nat.lt_of_succ_lt hn))).2.1)

def out3_4 (c : Dev nD) (t : Fin cfg3.N) : Vec F S1x1 .f32 :=
  if h1 : t.val = 7 then VO3_4.read (Elt F) (VO3_4.writes (Elt F) VO3_4.junk (runC V c t (by omega) h1 (sAt3 V c (t.val - 1) (Nat.lt_of_le_of_lt (Nat.sub_le _ _) t.isLt))).1)
  else VO3_4.read (Elt F) VO3_4.junk

def PhiS3 (c : Dev nD) : (n : ℕ) → n ≤ cfg3.N → sProp 𝕄
  | 0, _ => Pipeline.ΦA spec3 c
  | n + 1, hn => Phi3 c (owns (c : Thread nD τ) scM3 fullShare (sAt3 V c n hn))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed_eq3 (c : Dev nD) (t) : (dat3 V c).owed t = 0 := by
  dsimp only [dat3]
theorem q_eq3 (c : Dev nD) (w : Fin cfg3.W) : (dat3 V c).q w = fullShare := by
  dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) (P : sProp 𝕄) : sProp 𝕄 :=
  iprop(P ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) (Q : sProp 𝕄) : sProp 𝕄 :=
  iprop(Q ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ (dat3 V c).leavesExact 4 t)

-- By the kind of point: the invariant hands the body the scratch at what the point before left and takes it back at what this point leaves.
theorem sound_body3 (c : Dev nD) (n : ℕ) (hn : n < cfg3.N) :
    bodyPre3 V c ⟨n, hn⟩ (PhiS3 V c n (Nat.le_of_lt hn))
      ⊢ wp frame (wpE (defs₀ (F := F)) Variants.none c none) Set.univ (bodyAt3 ⟨n, hn⟩) (fun _ => bodyPost3 V c ⟨n, hn⟩ (PhiS3 V c (n + 1) hn)) := by
  unfold bodyPre3 bodyPost3 bodyAt3
  simp only [before3_0, before3_1, before3_2, before3_3]
  cases n with
  | zero =>
    have h7 : ¬(0 : ℕ) = 7 := by decide
    rw [PhiS3, PhiS3, sAt3, PhiA3_eq, Dat.leavesExact_idle (dat3 V c) 4 _ (idle3_4 _ h7).1 (idle3_4 _ h7).2]
    unfold Phi3
    iintro ⟨⟨⟨HS, Hrest⟩, Hg⟩, Ho, ⟨%d0, H0⟩, ⟨%d1, H1⟩, ⟨%d2, H2⟩, ⟨%d3, H3⟩, ⟨%d4, H4⟩⟩
    iapply (runA V c ⟨0, hn⟩ rfl _).2.2.1 _ Set.univ _
    iframe H0 H1 H2 H3 HS
    isplitl [H4]; · iexact H4
    iintro ⟨H0, H1, H2, H3, H4, ⟨%es, HS⟩⟩
    iframe Hrest Hg Ho H0 H1 H2 H3
    isplitl [HS]
    · ihave H' := (Ring.owns_of_writes_tiledL VS3 S1x1.size) $$ HS; iapply H'; ipureintro; sl_kernel_rfl
    iexists _; iexact H4
  | succ n =>
    rw [PhiS3, PhiS3, sAt3]
    unfold Phi3
    iintro ⟨⟨⟨HS, Hrest⟩, Hg⟩, Ho, ⟨%d0, H0⟩, ⟨%d1, H1⟩, ⟨%d2, H2⟩, ⟨%d3, H3⟩, ⟨%d4, H4⟩⟩
    by_cases h1 : n + 1 = 7
    · rw [dif_pos h1, show (dat3 V c).leavesExact 4 ⟨n + 1, hn⟩ = owns (c : Thread nD τ) (ms3_4 ⟨n + 1, hn⟩) fullShare (out3_4 V c ⟨n + 1, hn⟩) from by
        unfold Dat.leavesExact; rw [live3_4 _ h1]; rfl, out3_4, dif_pos h1]
      iapply (runC V c ⟨n + 1, hn⟩ (Nat.succ_ne_zero n) h1 _).2.2.1 Set.univ _
      iframe H0 H1 H2 H3
      isplitl [H4]; · iexists _; iexact H4
      isplitl [HS]; · iexact HS
      iintro ⟨H0, H1, H2, H3, ⟨%e4, H4⟩, ⟨%es, HS⟩⟩
      iframe Hrest Hg Ho H0 H1 H2 H3
      isplitl [HS]
      · ihave H' := (Ring.owns_of_writes_tiledL VS3 S1x1.size) $$ HS; iapply H'; ipureintro; sl_kernel_rfl
      ihave H' := (Ring.owns_of_writes_tiledL VO3_4 S1x1.size) $$ H4; iapply H'; ipureintro; sl_kernel_rfl
    · rw [dif_neg h1, Dat.leavesExact_idle (dat3 V c) 4 _ (idle3_4 _ h1).1 (idle3_4 _ h1).2]
      iapply (runB V c ⟨n + 1, hn⟩ (Nat.succ_ne_zero n) h1 _).2.2.1 _ Set.univ _
      iframe H0 H1 H2 H3
      isplitl [H4]; · iexact H4
      isplitl [HS]; · iexact HS
      iintro ⟨H0, H1, H2, H3, H4, ⟨%es, HS⟩⟩
      iframe Hrest Hg Ho H0 H1 H2 H3
      isplitl [HS]
      · ihave H' := (Ring.owns_of_writes_tiledL VS3 S1x1.size) $$ HS; iapply H'; ipureintro; sl_kernel_rfl
      iexists _; iexact H4

theorem body_obligation3 (c : Dev nD) : BodyObligation (dat3 (F := F) V c) (defs₀ (F := F)) Variants.none () Set.univ := fun t => by
  rw [bigSep_W3, bigSep_W3]
  exact sound_body3 V c t.val t.isLt

theorem hin3 (c : Dev nD) : (Pipeline.ΦA spec3 c : sProp 𝕄) ⊢ (dat3 V c).Φ 0 :=
  Idealize.SL.BI.Entails.refl _

-- After the last point the scratch's named contents are forgotten.
theorem hout3 (c : Dev nD) : (dat3 V c).Φ (Fin.last cfg3.N) ⊢ (Pipeline.ΦA spec3 c : sProp 𝕄) := by
  show PhiS3 V c (7 + 1) seven_lt_N3 ⊢ _
  rw [PhiS3, PhiA3_eq]
  unfold Phi3
  iintro ⟨⟨HS, Hrest⟩, Hg⟩
  iframe Hrest Hg
  iexists _; iexact HS

def acc3 (c : Dev nD) : (n : ℕ) → n < cfg3.N → Vec F S1x1 .f32
  | 0, hn => k3_pay3 (iblk3 V c 0 ⟨0, hn⟩) (iblk3 V c 1 ⟨0, hn⟩) (iblk3 V c 2 ⟨0, hn⟩) (iblk3 V c 3 ⟨0, hn⟩) (k3_pay2 (F := F))
  | n + 1, hn => k3_pay3 (iblk3 V c 0 ⟨n + 1, hn⟩) (iblk3 V c 1 ⟨n + 1, hn⟩) (iblk3 V c 2 ⟨n + 1, hn⟩) (iblk3 V c 3 ⟨n + 1, hn⟩) (acc3 c n (Nat.lt_of_succ_lt hn))

theorem acc3_zero (c : Dev nD) (hn : 0 < cfg3.N) :
    acc3 V c 0 hn = k3_pay3 (iblk3 V c 0 ⟨0, hn⟩) (iblk3 V c 1 ⟨0, hn⟩) (iblk3 V c 2 ⟨0, hn⟩) (iblk3 V c 3 ⟨0, hn⟩) (k3_pay2 (F := F)) := rfl
theorem acc3_succ (c : Dev nD) (n : ℕ) (hn : n + 1 < cfg3.N) :
    acc3 V c (n + 1) hn = k3_pay3 (iblk3 V c 0 ⟨n + 1, hn⟩) (iblk3 V c 1 ⟨n + 1, hn⟩) (iblk3 V c 2 ⟨n + 1, hn⟩) (iblk3 V c 3 ⟨n + 1, hn⟩) (acc3 V c n (Nat.lt_of_succ_lt hn)) := rfl

theorem sAt3_eq_acc3 (c : Dev nD) : ∀ (n : ℕ) (hn : n < cfg3.N), sAt3 V c n hn = acc3 V c n hn
  | 0, hn => (View.read_writes_junk_eq_canon _ _).trans (runA V c ⟨0, hn⟩ rfl _).2.2.2
  | n + 1, hn => by
    rw [acc3_succ, ← sAt3_eq_acc3 c n (Nat.lt_of_succ_lt hn)]
    by_cases h1 : n + 1 = 7
    · exact (dif_pos h1).trans ((View.read_writes_junk_eq_canon _ _).trans (runC V c ⟨n + 1, hn⟩ _ h1 _).2.2.2.1)
    · exact (dif_neg h1).trans ((View.read_writes_junk_eq_canon _ _).trans (runB V c ⟨n + 1, hn⟩ _ h1 _).2.2.2)

abbrev result3 (c : Dev nD) : Buf (Elt F) ((c : Thread nD τ).loc main_v15) :=
  k3_pay1 (acc3 V c 7 seven_lt_N3)

theorem hz4 : (fun a => win3_4.index t3_7 a * main_v15.ty.shape.size a) = fun _ => 0 := funext fun a => by fin_cases a <;> decide

theorem flushed3_4_eq (c : Dev nD) (t : Fin cfg3.N) (hf : (cfg3.win 4).flush t = true) :
    (dat3 V c).flushed 4 t = ((cfg3.win 4).blk t).view.read (Elt F) (result3 V c) := by
  have h1 : t.val = 7 := by have := (flush3_4 t).mp hf; have := N3_lt t.isLt; omega
  obtain rfl : t = t3_7 := Fin.ext h1
  show (cfg3.win 4).cut (grid3.coords t3_7) (out3_4 V c t3_7) = _
  rw [out3_4, dif_pos h1, View.read_writes_junk_eq_canon, (runC V c t3_7 _ _ _).2.2.2.2, sAt3_eq_acc3]
  exact (Memref.read_access_unit_zero (Elt F) main_v15 hz4 (fun a => by rw [congrFun hz4 a]; simp) (result3 V c)).symm

theorem final3_4 (c : Dev nD) : (dat3 V c).arrAt 4 cfg3.N = result3 V c :=
  (dat3 V c).arrAt_eq_of_cover 4 (result3 V c) (flushed3_4_eq V c) fun i =>
    ⟨t3_7, (flush3_4 t3_7).mpr rfl, by
      show i ∈ ((View.whole main_v15).slice (win3_4.rect t3_7)).set
      rw [View.set_slice_whole]
      exact View.mem_set_unit_zero hz4 _ i⟩

end Cert.KernelIdeal.Hand

end
-- ==== Proof.KI.Run.lean ====
import proofs.«412354_j76115410419855_2_alg».proof.Proof.KI.R0
import proofs.«412354_j76115410419855_2_alg».proof.Proof.KI.R1
import proofs.«412354_j76115410419855_2_alg».proof.Proof.KI.R2
import proofs.«412354_j76115410419855_2_alg».proof.Proof.KI.R3
import proofs.«412354_j76115410419855_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

section
variable {cfg : Cfg sig Λ₀} {c : Dev nD} (d : Dat τ (Elt F) Unit ℕ (UR sig nD τ) ℕ cfg c) (W : Valuation τ sig (Elt F))

theorem next_rest (b : Ref sig .tc) (hb : b ∉ Finset.univ.image (Pipeline.arrRef cfg.spec)) :
    Pipeline.withArrays cfg.spec c W (d.arrAt · cfg.N) (Proc.devRef .tc b) = W (Proc.devRef .tc b) :=
  Pipeline.withArrays_of_ne _ c _ _ b fun w e => hb (Finset.mem_image.mpr ⟨w, Finset.mem_univ _, e⟩)

-- An input window's array is left at its entry contents, which are read off `W`.
theorem next_keep (hi : Function.Injective (Pipeline.arrRef cfg.spec)) (hA : ∀ w, d.A w = W (Proc.devRef .tc (Pipeline.arrRef cfg.spec w)))
    (b : Ref sig .tc) (hb : ∀ w, Pipeline.arrRef cfg.spec w = b → (cfg.win w).isOut = false) :
    Pipeline.withArrays cfg.spec c W (d.arrAt · cfg.N) (Proc.devRef .tc b) = W (Proc.devRef .tc b) := by
  by_cases h : ∃ w, Pipeline.arrRef cfg.spec w = b
  · obtain ⟨w, rfl⟩ := h
    exact (Pipeline.withArrays_arr _ hi c _ _ w).trans ((d.arrAt_in w (hb w rfl) _).trans (hA w))
  · exact Pipeline.withArrays_of_ne _ c _ _ b fun w e => h ⟨w, e⟩
end

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
abbrev V2 : (c : Dev nD) → (b : Ref sig .tc) → Buf (Elt F) ((c : Thread nD τ).loc b) := fun c b => W2 m c b
theorem W2_keep (c : Dev nD) (b : Ref sig .tc) (hb : ∀ w, Pipeline.arrRef spec0 w = b → (cfg0.win w).isOut = false) :
    W2 m c (Proc.devRef .tc b) = W1 m c (Proc.devRef .tc b) :=
  next_keep (dat0 (V1 m) c) _ launch0.win.arr_inj (A_eq0 (V1 m) c) b hb

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
abbrev V3 : (c : Dev nD) → (b : Ref sig .tc) → Buf (Elt F) ((c : Thread nD τ).loc b) := fun c b => W3 m c b
theorem W3_keep (c : Dev nD) (b : Ref sig .tc) (hb : ∀ w, Pipeline.arrRef spec1 w = b → (cfg1.win w).isOut = false) :
    W3 m c (Proc.devRef .tc b) = W2 m c (Proc.devRef .tc b) :=
  next_keep (dat1 (V2 m) c) _ launch1.win.arr_inj (A_eq1 (V2 m) c) b hb

def W4 (c : Dev nD) : Valuation τ sig (Elt F) :=
  Function.update (Function.update (W3 m c) main_v6_0 ((dat2 (V3 m) c).arrAt 2 cfg2.N)) main_v6_1 ((dat2 (V3 m) c).arrAt 3 cfg2.N)
abbrev V4 : (c : Dev nD) → (b : Ref sig .tc) → Buf (Elt F) ((c : Thread nD τ).loc b) := fun c b => W4 m c b
theorem W4_of (c : Dev nD) (r : Ref sig .tc) (h : r ∉ ([main_v6_0, main_v6_1] : List (Ref sig .tc))) : W4 m c r = W3 m c r :=
  (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W4_v6_0 (c : Dev nD) : W4 m c main_v6_0 = (dat2 (V3 m) c).arrAt 2 cfg2.N :=
  (Function.update_of_ne (StableHlo.devRef_ne_of_ne (by decide)) _ _).trans (Function.update_self ..)
theorem W4_v6_1 (c : Dev nD) : W4 m c main_v6_1 = (dat2 (V3 m) c).arrAt 3 cfg2.N :=
  Function.update_self ..
theorem hF2 (c : Dev nD) (w : Fin cfg2.W) : (dat2 (V3 m) c).arrAt w cfg2.N = V4 m c (Pipeline.arrRef spec2 w) :=
  match w with
  | ⟨0, _⟩ | ⟨1, _⟩ => (((dat2 (V3 m) c).arrAt_in _ rfl _).trans (A_eq2 (V3 m) c _)).trans (W4_of m c main_v5_0 (by decide)).symm
  | ⟨2, _⟩ => (W4_v6_0 m c).symm
  | ⟨3, _⟩ => (W4_v6_1 m c).symm
theorem hrest2 (c : Dev nD) (b : Ref sig .tc) (hb : b ∉ Finset.univ.image (Pipeline.arrRef spec2)) : V4 m c b = V3 m c b :=
  W4_of m c b fun h => hb <| Finset.mem_image.mpr <| by
    rcases List.mem_pair.mp h with rfl | rfl
    exacts [⟨2, Finset.mem_univ _, rfl⟩, ⟨3, Finset.mem_univ _, rfl⟩]

abbrev W5 : Dev nD → Valuation τ sig (Elt F) := fun c => StableHlo.after hostOps3 (W4 m c)
abbrev V5 : (c : Dev nD) → (b : Ref sig .tc) → Buf (Elt F) ((c : Thread nD τ).loc b) := fun c b => W5 m c b

def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N :=
  Pipeline.withArrays_arr spec3 launch3.win.arr_inj c _ _ w
abbrev V6 : (c : Dev nD) → (b : Ref sig .tc) → Buf (Elt F) ((c : Thread nD τ).loc b) := fun c b => W6 m c b
theorem W6_keep (c : Dev nD) (b : Ref sig .tc) (hb : ∀ w, Pipeline.arrRef spec3 w = b → (cfg3.win w).isOut = false) :
    W6 m c (Proc.devRef .tc b) = W5 m c (Proc.devRef .tc b) :=
  next_keep (dat3 (V5 m) c) _ launch3.win.arr_inj (A_eq3 (V5 m) c) b hb

abbrev W7 : Dev nD → Valuation τ sig (Elt F) := fun c => StableHlo.after hostOps4 (W6 m c)

theorem W1_of (c : Dev nD) (r : Ref sig .tc) (h : r ∉ hostOps0_W) : W1 m c r = W0 m c r :=
  StableHlo.after_of_writes_sub hostOps0 _ hostOps0_writes h
theorem W5_of (c : Dev nD) (r : Ref sig .tc) (h : r ∉ hostOps3_W) : W5 m c r = W4 m c r :=
  StableHlo.after_of_writes_sub hostOps3 _ hostOps3_writes h

def pdats : (p : Fin 4) → (c : Dev nD) → Dat τ (Elt F) Unit ℕ (UR sig nD τ) ℕ (Pipeline.pin (pcfgs (F := F)) adm p) c
  | ⟨0, _⟩ => dat0 (V1 m)
  | ⟨1, _⟩ => dat1 (V2 m)
  | ⟨2, _⟩ => dat2 (V3 m)
  | ⟨3, _⟩ => dat3 (V5 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev st (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- What a region's record asks of the proof data at `p`.
structure Facts (p : Fin 4) : Prop where
  hb : ∀ c, BodyObligation (pdats m p c) defs₀ 𝒱₀ () Set.univ
  ho : ∀ c t, (pdats m p c).owed t = 0
  hr : ∀ c x, x ∈ (pdats m p c).recorded 0
  hi : ∀ c, (Pipeline.ΦA (cfgs p).spec c : sProp 𝕄) ⊢ (pdats m p c).Φ 0
  hO : ∀ c, (pdats m p c).Φ (Fin.last (cfgs p).N) ⊢ (Pipeline.ΦA (cfgs p).spec c : sProp 𝕄)

set_option backward.isDefEq.respectTransparency.types false in
-- One region between two valuations of the unscoped buffers, given the split `hs` and the join `hj` of its windows' arrays.
def reg (p : Fin 4) (l : Pipeline.WinFacts₀ (pcfgs (F := F) p).spec) (bp : ∀ w : Fin (cfgs p).W, 0 < ((cfgs p).spec w).block.numel)
    (sw : ∀ (w : Fin (cfgs p).W) (s : Fin ((cfgs p).spec w).nbuf), (((cfgs p).spec w).stage s).IsWhole)
    (Wa Wb : Dev nD → Valuation τ sig (Elt F)) (f : Facts m p)
    (hs : ∀ c, (unscopedBufs c (fun b => Wa c b) : sProp 𝕄)
      ⊢ iprop((pdats m p c).arrays ((pdats m p c).arrAt · 0) ∗ Pipeline.unscopedRest (cfgs p).spec c fun b => Wa c b))
    (hj : ∀ c, iprop((pdats m p c).arrays ((pdats m p c).arrAt · (cfgs p).N) ∗ Pipeline.unscopedRest (cfgs p).spec c fun b => Wa c b)
      ⊢ (unscopedBufs c (fun b => Wb c b) : sProp 𝕄)) :
    Pipeline.RegionSeg (pcfgs (F := F)) adm (pdats m) () defs₀ 𝒱₀ L lv p where
  win := l
  block_pos := bp
  stage_whole := sw
  K := PEmpty
  osem k := k.elim
  ho := Pipeline.OwnSemFacts.none _
  hbody c := (f.hb c).loose
  hwaits := Pipeline.hwaits_of_owed_zero _ _ _ _ L lv p f.ho
  pre := st Wa
  post := st Wb
  X c := iprop(∃ r, prngReg c r)
  Y c := iprop(∃ r, prngReg c r)
  Z c := Pipeline.unscopedRest (cfgs p).spec c fun b => Wa c b
  hentry c := by
    rw [Pipeline.ownSems0_none]
    have hsplit := hs c
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [f.ho c]
    icases HO with ⟨%W, HO⟩; iexists W; isplitr; · ipureintro; exact fun x _ => Or.inl (f.hr c x)
    iexact HO
  hin c := by
    refine BIBase.Entails.trans ?_ (f.hi c)
    unfold Pipeline.ΦA
    iintro ⟨Hp, -, Hr⟩
    iframe
  hout c := by
    rw [Pipeline.ownSems0_none]
    refine BIBase.Entails.trans (f.hO c) ?_
    unfold Pipeline.ΦA
    iintro ⟨Hr, Hp⟩
    iframe
    iempintro
  hexit c := by
    have hjoin := hj c
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [f.ho c]
    icases HO with ⟨%W, -, HO⟩; iexists W; iexact HO

set_option backward.isDefEq.respectTransparency.types false in
-- The same when the windows' arrays are distinct whole buffers: split and join are the library's.
def regL (p : Fin 4) (l : Pipeline.LaunchFacts (nD := nD) (τ := τ) cfgs p) (Wa : Dev nD → Valuation τ sig (Elt F)) (f : Facts m p)
    (hq : ∀ c w, (pdats m p c).q w = fullShare) (hA : ∀ c w, (pdats m p c).A w = Wa c (Proc.devRef .tc (Pipeline.arrRef (cfgs p).spec w))) :
    Pipeline.RegionSeg (pcfgs (F := F)) adm (pdats m) () defs₀ 𝒱₀ L lv p :=
  reg m p l.win.to₀ l.block_pos l.stage_whole Wa (fun c => Pipeline.withArrays (cfgs p).spec c (Wa c) ((pdats m p c).arrAt · (cfgs p).N)) f
    (fun c => Pipeline.arrays_of_unscopedBufs _ _ (pdats m) l.win l.arr_whole c ((pdats m p c).share_full (hq c)) _ (hA c))
    (fun c => Pipeline.unscopedBufs_of_arrays _ _ l.win l.arr_whole c (pdats m)
      ((pdats m p c).share_full (hq c)) _ _ _ (fun w => (Pipeline.withArrays_arr _ l.win.arr_inj c (Wa c) ((pdats m p c).arrAt · (cfgs p).N) w).symm)
      (next_rest (pdats m p c) _))

set_option backward.isDefEq.respectTransparency.types false in
abbrev segs : List (Pipeline.Seg (pcfgs (F := F)) adm (pdats m) () defs₀ 𝒱₀ L lv) :=
  [ .host (hseg hostOps0 hostOps0_sub hostOps0_fresh (W0 m)),
    .region (regL m 0 launch0 (W1 m) ⟨body_obligation0 (V1 m), owed_eq0 (V1 m), fun _ _ => trivial, hin0 (V1 m), hout0 (V1 m)⟩ (q_eq0 (V1 m)) (A_eq0 (V1 m))),
    .region (regL m 1 launch1 (W2 m) ⟨body_obligation1 (V2 m), owed_eq1 (V2 m), fun _ _ => trivial, hin1 (V2 m), hout1 (V2 m)⟩ (q_eq1 (V2 m)) (A_eq1 (V2 m))),
    .region (reg m 2 winFacts₀2 block_pos2 stage_whole2 (W3 m) (W4 m) ⟨body_obligation2 (V3 m), owed_eq2 (V3 m), fun _ _ => trivial, hin2 (V3 m), hout2 (V3 m)⟩ (entry2 (V3 m))
      fun c => exit2 (V3 m) c _ (hF2 m c) (hrest2 m c)),
    .host (hseg hostOps3 hostOps3_sub hostOps3_fresh (W4 m)),
    .region (regL m 3 launch3 (W5 m) ⟨body_obligation3 (V5 m), owed_eq3 (V5 m), fun _ _ => trivial, hin3 (V5 m), hout3 (V5 m)⟩ (q_eq3 (V5 m)) (A_eq3 (V5 m))),
    .host (hseg hostOps4 hostOps4_sub hostOps4_fresh (W6 m)) ]
theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := st (W0 m)) (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

-- Seven steps back from the end to the launch, each leaving `r` alone.
theorem kept (c : Dev nD) (M : (ℓ : Loc nD τ sig) → Buf (Elt F) ℓ) (h : ∀ b ∈ Pipeline.ucRefs τ sig, M ((c : Thread nD τ).1, b) = W7 m c b) (r : Ref sig .tc)
    (k : ¬ (Proc.devRef .tc r : DevRef τ sig).isScoped ∧ r ∉ hostOps0_W ∧ r ∉ hostOps3_W ∧ r ∉ hostOps4_W
      ∧ (∀ w, Pipeline.arrRef spec0 w = r → (cfg0.win w).isOut = false) ∧ (∀ w, Pipeline.arrRef spec1 w = r → (cfg1.win w).isOut = false)
      ∧ r ∉ ([main_v6_0, main_v6_1] : List (Ref sig .tc)) ∧ ∀ w, Pipeline.arrRef spec3 w = r → (cfg3.win w).isOut = false) :
    M ((c : Thread nD τ).loc r) = m ((c : Thread nD τ).loc r) := by
  obtain ⟨hs, h0, h3, h4, k0, k1, k2, k3⟩ := k
  exact (h _ (mem_uc r hs)).trans <| (StableHlo.after_of_writes_sub hostOps4 _ hostOps4_writes h4).trans <| (W6_keep m c r k3).trans <|
    (W5_of m c r h3).trans <| (W4_of m c r k2).trans <| (W3_keep m c r k1).trans <| (W2_keep m c r k0).trans (W1_of m c r h0)

theorem run_result (ρ : Dev nD → PrngReg) : θ_run defs (onTc (τ := τ) (main (F := F))) ⟨m, fun _ => 0, ρ⟩ (fun r => ∀ c : Dev nD,
      r.2.mem ((c.tc : Thread nD τ).loc main_v16) = W7 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    refine ⟨h c _ (mem_uc main_v16 (by decide)), ?_⟩
    repeat' apply And.intro
    all_goals exact kept m c r.2.mem (h c) _ (by decide)) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run_result m ρ)

end Cert.KernelIdeal.Hand

end
-- ==== Proof.Spec.lean ====
import Idealize.ShloMosaic.PureOps.Ideal
import Mathlib.Algebra.BigOperators.Group.Finset.Basic

noncomputable section

namespace ClusterLoss

open Idealize.ShloMosaic

def eps : EReal := Ideal.ofBits .f32 0x2B8CBCCC#32
def half : EReal := Ideal.ofBits .f32 0x3F000000#32
def one : EReal := Ideal.ofBits .f32 0x3F800000#32
def cnt : EReal := Ideal.ofBits .f32 0x4A800000#32

def lin {n i o : Nat} (a : Fin n → Fin i → EReal) (W : Fin i → Fin o → EReal) (b : Fin o → EReal) :
    Fin n → Fin o → EReal := fun r c => (∑ k, a r k * W k c) + b c

def enc {n i o : Nat} (a : Fin n → Fin i → EReal) (W0 : Fin i → Fin o → EReal) (b0 : Fin o → EReal)
    (W1 : Fin o → Fin o → EReal) (b1 : Fin o → EReal) : Fin n → Fin o → EReal := lin (lin a W0 b0) W1 b1

def rownorm {n d : Nat} (a : Fin n → Fin d → EReal) (r : Fin n) : EReal :=
  max (Ideal.sqrt (∑ k, a r k * a r k)) eps

def l2n {n d : Nat} (a : Fin n → Fin d → EReal) : Fin n → Fin d → EReal :=
  fun r c => Ideal.div (a r c) (rownorm a r)

def segsum {n s d : Nat} (ids : Fin n → ℤ) (u : Fin n → Fin d → EReal) : Fin s → Fin d → EReal :=
  fun m c => ∑ r, if ids r = (m.val : ℤ) then u r c else 0

section Loss

variable (x : Fin 100000 → Fin 512 → EReal)
  (We0 : Fin 512 → Fin 256 → EReal) (be0 : Fin 256 → EReal) (We1 : Fin 256 → Fin 256 → EReal) (be1 : Fin 256 → EReal)
  (Wt0 : Fin 512 → Fin 256 → EReal) (bt0 : Fin 256 → EReal) (Wt1 : Fin 256 → Fin 256 → EReal) (bt1 : Fin 256 → EReal)
  (Wp0 : Fin 256 → Fin 256 → EReal) (bp0 : Fin 256 → EReal) (Wp1 : Fin 256 → Fin 256 → EReal) (bp1 : Fin 256 → EReal)
  (pv : Fin 100000 → EReal) (cv : Fin 65536 → EReal)
  (pa : Fin 100000 → ℤ) (cr cc : Fin 65536 → ℤ)

def h : Fin 100000 → Fin 256 → EReal := enc x We0 be0 We1 be1
def v : Fin 100000 → Fin 256 → EReal := enc x Wt0 bt0 Wt1 bt1
def vn : Fin 100000 → Fin 256 → EReal := l2n (v x Wt0 bt0 Wt1 bt1)

def hc : Fin 2048 → Fin 256 → EReal := segsum pa fun n d => pv n * h x We0 be0 We1 be1 n d
def vnc : Fin 2048 → Fin 256 → EReal := segsum pa fun n d => pv n * vn x Wt0 bt0 Wt1 bt1 n d

def q (hc : Fin 2048 → Fin 256 → EReal) : Fin 2048 → Fin 256 → EReal :=
  lin (fun r c => max (lin hc Wp0 bp0 r c) 0) Wp1 bp1
def qn (hc : Fin 2048 → Fin 256 → EReal) : Fin 2048 → Fin 256 → EReal := l2n (q Wp0 bp0 Wp1 bp1 hc)
def hn (hc : Fin 2048 → Fin 256 → EReal) : Fin 2048 → Fin 256 → EReal := l2n hc

def neg (hn : Fin 2048 → Fin 256 → EReal) : Fin 2048 → Fin 2048 → EReal :=
  fun i j => Ideal.exp (Ideal.div (∑ d, hn i d * hn j d) half)
def rs (neg : Fin 2048 → Fin 2048 → EReal) : Fin 2048 → EReal := fun j => ∑ k, neg j k

def posK (qn vnc : Fin 2048 → Fin 256 → EReal) : Fin 2048 → EReal :=
  fun m => Ideal.exp (Ideal.div (∑ d, qn m d * vnc m d) half)
def posR (qn : Fin 2048 → Fin 256 → EReal) (vn : Fin 100000 → Fin 256 → EReal) (g : Fin 100000 → Fin 2048) : Fin 2048 → EReal :=
  fun m => Ideal.exp (∑ n, if pa n = (m.val : ℤ) then pv n * Ideal.div (∑ d, vn n d * qn (g n) d) half else 0)

def coef (fl : Fin 65536 → ℤ) : Fin 2048 → Fin 2048 → EReal :=
  fun i c => ∑ e, if fl e = (i.val : ℤ) * 2048 + (c.val : ℤ) then cv e else 0
def partK (fl : Fin 65536 → ℤ) (neg : Fin 2048 → Fin 2048 → EReal) : Fin 2048 → Fin 2048 → EReal :=
  fun i j => ∑ c, coef cv fl i c * neg c j
def partR (neg : Fin 2048 → Fin 2048 → EReal) (gc : Fin 65536 → Fin 2048) : Fin 2048 → Fin 2048 → EReal :=
  fun i j => ∑ e, if cr e = (i.val : ℤ) then cv e * neg (gc e) j else 0

def term (pos : Fin 2048 → EReal) (part : Fin 2048 → Fin 2048 → EReal) (rs : Fin 2048 → EReal) (i j : Fin 2048) : EReal :=
  -(Ideal.log (pos i + one * part i j)) + Ideal.log (pos i + rs j)
def loss (pos : Fin 2048 → EReal) (part : Fin 2048 → Fin 2048 → EReal) (rs : Fin 2048 → EReal) : EReal :=
  Ideal.div (∑ i, ∑ j, term pos part rs i j) cnt

def lossK (fl : Fin 65536 → ℤ) : EReal :=
  let HC := hc x We0 be0 We1 be1 pv pa
  let NEG := neg (hn HC)
  loss (posK (qn Wp0 bp0 Wp1 bp1 HC) (vnc x Wt0 bt0 Wt1 bt1 pv pa)) (partK cv fl NEG) (rs NEG)

def lossR (g : Fin 100000 → Fin 2048) (gc : Fin 65536 → Fin 2048) : EReal :=
  let HC := hc x We0 be0 We1 be1 pv pa
  let NEG := neg (hn HC)
  loss (posR pv pa (qn Wp0 bp0 Wp1 bp1 HC) (vn x Wt0 bt0 Wt1 bt1) g) (partR cv cr NEG gc) (rs NEG)

end Loss

def Real2 {a b : Nat} (u : Fin a → Fin b → EReal) : Prop := ∀ i j, ∃ r : ℝ, u i j = (r : EReal)
def Real1 {a : Nat} (u : Fin a → EReal) : Prop := ∀ i, ∃ r : ℝ, u i = (r : EReal)

end ClusterLoss

end
-- ==== Proof.Conv.lean ====
import Idealize.ShloMosaic.Lib.ValueIdx
import proofs.«412354_j76115410419855_2_alg».proof.Proof.Spec

noncomputable section

namespace ClusterLoss

open Idealize.ShloMosaic Idealize.ShloMosaic.ValueIdx

def mat {a b : Nat} (u : (⟨2, ![a, b]⟩ : Shape).Idx → EReal) : Fin a → Fin b → EReal := fun i j => u (ix2 i j)
def vec {a : Nat} (u : (⟨1, ![a]⟩ : Shape).Idx → EReal) : Fin a → EReal := fun i => u (ix1 i)
def ints {a : Nat} (u : (⟨1, ![a]⟩ : Shape).Idx → BitVec 32) : Fin a → ℤ := fun i => (u (ix1 i)).toInt
def col {a : Nat} (u : (⟨2, ![a, 1]⟩ : Shape).Idx → EReal) : Fin a → EReal := fun i => u (ix2 i 0)
def row {a : Nat} (u : (⟨2, ![1, a]⟩ : Shape).Idx → EReal) : Fin a → EReal := fun j => u (ix2 0 j)
def icol {a : Nat} (u : (⟨2, ![a, 1]⟩ : Shape).Idx → BitVec 32) : Fin a → ℤ := fun i => (u (ix2 i 0)).toInt
def scal (u : (⟨0, ![]⟩ : Shape).Idx → EReal) : EReal := u ix0

end ClusterLoss

end
-- ==== Proof.Val.HostRead.lean ====
import proofs.«412354_j76115410419855_2_alg».proof.Proof.Gen.KernelIdeal.Launch
import Idealize.ShloMosaic.Lib.StableHlo.Run

noncomputable section

namespace Cert.KernelIdeal.Val

open Idealize.ShloMosaic Idealize.ShloMosaic.TcCoe
open Cert.KernelIdeal Cert.KernelIdeal.Gen

variable {F : FTy → Type} [FloatOps F]

theorem after0_v0 (W : Valuation τ sig (Elt F)) :
    StableHlo.after hostOps0 W main_v0 = (truncf .bf16 · bitsLt_bf16_f32) (W main_arg1) := by
  show StableHlo.after hostOps0 W (Proc.devRef .tc main_v0) = _
  after_results

theorem after0_v1 (W : Valuation τ sig (Elt F)) :
    StableHlo.after hostOps0 W main_v1 = (truncf .bf16 · bitsLt_bf16_f32) (W main_arg5) := by
  show StableHlo.after hostOps0 W (Proc.devRef .tc main_v1) = _
  after_results

theorem after0_v2 (W : Valuation τ sig (Elt F)) :
    StableHlo.after hostOps0 W main_v2 = shapeCast S100000x1 (W main_arg15) shapeCasts_S100000_S100000x1 := by
  show StableHlo.after hostOps0 W (Proc.devRef .tc main_v2) = _
  after_results
  rfl

theorem after0_v3 (W : Valuation τ sig (Elt F)) :
    StableHlo.after hostOps0 W main_v3 = shapeCast S100000x1 (W main_arg13) shapeCasts_S100000_S100000x1 := by
  show StableHlo.after hostOps0 W (Proc.devRef .tc main_v3) = _
  after_results
  rfl

theorem after3_v7 (W : Valuation τ sig (Elt F)) :
    StableHlo.after hostOps3 W main_v7 = shapeCast S1x2048 (W main_v6_1) shapeCasts_S2048x1_S1x2048 := by
  show StableHlo.after hostOps3 W (Proc.devRef .tc main_v7) = _
  after_results
  rfl

theorem after3_v14 (W : Valuation τ sig (Elt F)) :
    StableHlo.after hostOps3 W main_v14 =
      shapeCast S2048x2048
        (Host.scatterAdd scatter_S4194304_S65536x1_S65536_n_0_0_1
          (broadcastInDim S4194304 ![] bcast_S_S4194304 (constant S_ .f32 0x00000000#32))
          (broadcastInDim S65536x1 ![0] bcast_S65536_S65536x1_0
            (addi (muli (W main_arg16) (broadcastInDim S65536 ![] bcast_S_S65536 (constantI S_ 32 2048#32))) (W main_arg17)))
          (W main_arg14))
        shapeCasts_S4194304_S2048x2048 := by
  show StableHlo.after hostOps3 W (Proc.devRef .tc main_v14) = _
  after_results
  rfl

theorem after4_v16 (W : Valuation τ sig (Elt F)) :
    StableHlo.after hostOps4 W main_v16 = shapeCast S_ (W main_v15) shapeCasts_S1x1_S_ := by
  show StableHlo.after hostOps4 W (Proc.devRef .tc main_v16) = _
  after_results
  rfl

end Cert.KernelIdeal.Val

end
-- ==== Proof.LibRowOps.lean ====
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

end Cert.RowOps

end
-- ==== Proof.LibScatterAddRows.lean ====
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  rw [Finset.sum_filter, sum_idx2]
  refine Finset.sum_congr rfl fun p _ => ?_
  simp only [rows_resultIdx_iff]
  by_cases ht : (idx (ix2 p ⟨0, Nat.one_pos⟩)).toInt = (k.val : Int)
  ·
    simp only [ht, true_and, if_true]
    rw [Finset.sum_ite_eq' Finset.univ q (fun q' => upd (ix2 p q'))]
    simp
  ·
    simp only [ht, false_and, if_false]
    exact Finset.sum_const_zero

private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  rw [Finset.sum_filter, sum_idx1']
  refine Finset.sum_congr rfl fun p _ => ?_
  simp only [entries_resultIdx_iff]

end Idealize.ShloMosaic.ScatterAddRows
-- ==== Proof.Val.Host.lean ====
import proofs.«412354_j76115410419855_2_alg».proof.Proof.Gen.KernelIdeal.Skeleton
import proofs.«412354_j76115410419855_2_alg».proof.Proof.Conv
import proofs.«412354_j76115410419855_2_alg».proof.Proof.LibRowOps
import proofs.«412354_j76115410419855_2_alg».proof.Proof.LibScatterAddRows
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Val

open Cert.KernelIdeal Cert.KernelIdeal.Gen ClusterLoss Idealize.ShloMosaic Idealize.ShloMosaic.ValueIdx

theorem col_of_vec {α : Type} (u : S100000.Idx → α) (n : Fin 100000) :
    shapeCast S100000x1 u shapeCasts_S100000_S100000x1 (ix2 n 0) = u (ix1 n) :=
  Cert.RowOps.shapeCast_a_a1_apply u _ n 0

theorem row_of_col (u : FVec Ideal S2048x1 .f32) (j : Fin 2048) :
    shapeCast S1x2048 u shapeCasts_S2048x1_S1x2048 (ix2 0 j) = u (ix2 j 0) :=
  shapeCast_apply u _ _ _ (by
    rw [Shape.rowMajor_val_two, Shape.rowMajor_val_two]
    show j.val * 1 + 0 = 0 * 2048 + j.val
    omega)

theorem scal_of_11 (u : FVec Ideal S1x1 .f32) : shapeCast S_ u shapeCasts_S1x1_S_ ix0 = u (ix2 0 0) :=
  shapeCast_apply u _ _ _ (by
    rw [Shape.rowMajor_val_two]
    have h := (S_.rowMajor ix0).isLt
    have h1 : S_.numel = 1 := rfl
    show 0 * 1 + 0 = (S_.rowMajor ix0).val
    omega)

theorem flat_toInt (rowsW colsW : IVec S65536 32)
    (hr : ∀ e : Fin 65536, 0 ≤ (rowsW (ix1 e)).toInt ∧ (rowsW (ix1 e)).toInt < 2048)
    (hc : ∀ e : Fin 65536, 0 ≤ (colsW (ix1 e)).toInt ∧ (colsW (ix1 e)).toInt < 2048) (e : Fin 65536) :
    (addi (muli rowsW (broadcastInDim S65536 ![] bcast_S_S65536 (constantI S_ 32 2048#32))) colsW (ix1 e)).toInt
      = (rowsW (ix1 e)).toInt * 2048 + (colsW (ix1 e)).toInt := by
  show (rowsW (ix1 e) * 2048#32 + colsW (ix1 e)).toInt = _
  have h1 := hr e
  have h2 := hc e
  generalize rowsW (ix1 e) = a at h1 ⊢
  generalize colsW (ix1 e) = b at h2 ⊢
  rw [BitVec.toInt_add, BitVec.toInt_mul]
  have h3 : (2048#32 : BitVec 32).toInt = 2048 := by decide
  rw [h3, Int.bmod_eq_of_le (n := a.toInt * 2048) (by omega) (by omega), Int.bmod_eq_of_le (by omega) (by omega)]

theorem idxCol_apply {α : Type} (u : S65536.Idx → α) (p : Fin 65536) :
    broadcastInDim S65536x1 ![0] bcast_S65536_S65536x1_0 u (ix2 p ⟨0, Nat.one_pos⟩) = u (ix1 p) :=
  broadcastInDim_apply ![0] bcast_S65536_S65536x1_0 u _ (ix1 p) fun a => by
    match a with
    | ⟨0, h0⟩ =>
      have hne : ¬S65536.size ⟨0, h0⟩ = 1 := by
        show ¬(65536 : ℕ) = 1
        decide
      exact (if_neg hne).symm

theorem coef_eq (flatW : IVec S65536 32) (cv : FVec Ideal S65536 .f32) :
    mat (shapeCast S2048x2048 (Host.scatterAdd (F := Ideal) scatter_S4194304_S65536x1_S65536_n_0_0_1
        (broadcastInDim S4194304 ![] bcast_S_S4194304 (constant (F := Ideal) S_ .f32 0x00000000#32))
        (broadcastInDim S65536x1 ![0] bcast_S65536_S65536x1_0 flatW) cv) shapeCasts_S4194304_S2048x2048)
      = coef (vec cv) (fun e => (flatW (ix1 e)).toInt) := by
  funext i c
  have hk : i.val * 2048 + c.val < 4194304 := by omega
  show shapeCast S2048x2048 _ _ (ix2 i c) = _
  refine (shapeCast_apply _ _ (ix2 i c) (ix1 (⟨i.val * 2048 + c.val, hk⟩ : Fin 4194304)) ?_).trans ?_
  · rw [Shape.rowMajor_val_one, Shape.rowMajor_val_two]
    rfl
  refine (ScatterAddRows.scatterAdd_entries_apply scatter_S4194304_S65536x1_S65536_n_0_0_1_wf _ _ cv ⟨_, hk⟩).trans ?_
  rw [broadcastInDim_scalar_apply, constant_apply, Ideal.ofBits_zero_f32, zero_add]
  refine Finset.sum_congr rfl fun e _ => ?_
  rw [idxCol_apply flatW e]
  have hc : (((⟨i.val * 2048 + c.val, hk⟩ : Fin 4194304).val : ℕ) : ℤ) = (i.val : ℤ) * 2048 + (c.val : ℤ) := by
    push_cast; rfl
  rw [hc]
  rfl

end Cert.KernelIdeal.Val

end
-- ==== Proof.LibPlainMatmul.lean ====
import Idealize.ShloMosaic.Lib.ValueIdx
import Idealize.ShloMosaic.PureOps.Ideal.Laws

noncomputable section

namespace Cert.PlainMatmul

open Idealize.ShloMosaic Idealize.ShloMosaic.ValueIdx

variable {M K N : ℕ}

theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Val.P0.lean ====
import proofs.«412354_j76115410419855_2_alg».proof.Proof.Gen.KernelIdeal.Skeleton
import proofs.«412354_j76115410419855_2_alg».proof.Proof.Conv
import proofs.«412354_j76115410419855_2_alg».proof.Proof.LibPlainMatmul
import proofs.«412354_j76115410419855_2_alg».proof.Proof.LibRowOps
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen ClusterLoss Idealize.ShloMosaic Idealize.ShloMosaic.ValueIdx

theorem shapeCast_b_1b_apply {α : Type} {m : ℕ} (x : (⟨1, ![m]⟩ : Shape).Idx → α)
    (h : (⟨1, ![m]⟩ : Shape).ShapeCasts ⟨2, ![1, m]⟩) (u : Fin 1) (k : Fin m) :
    shapeCast ⟨2, ![1, m]⟩ x h (ix2 u k) = x (ix1 k) :=
  shapeCast_apply x h _ _ (by
    have hu : u.val = 0 := by omega
    rw [Shape.rowMajor_val_two, Shape.rowMajor_val_one]
    show k.val = u.val * m + k.val
    rw [hu, Nat.zero_mul, Nat.zero_add])

theorem P0.broadcastTo_1b_ab_apply {α : Type} {n m : ℕ} (hm : m ≠ 1) (v : (⟨2, ![1, m]⟩ : Shape).Idx → α)
    (h : (⟨2, ![1, m]⟩ : Shape).Broadcasts ⟨2, ![n, m]⟩) (r : Fin n) (k : Fin m) :
    broadcastTo ⟨2, ![n, m]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if m = 1 then 0 else k.val
    rw [if_neg hm]

theorem lin_apply {n i o : ℕ} {φ₁ φ₂ : FTy} (ho : o ≠ 1) (D : DotDims ⟨2, ![n, i]⟩ ⟨2, ![i, o]⟩ ⟨2, ![n, o]⟩)
    (hD : D = DotDims.plain n i o) (a : FVec Ideal ⟨2, ![n, i]⟩ φ₁) (W : FVec Ideal ⟨2, ![i, o]⟩ φ₂)
    (b : FVec Ideal ⟨1, ![o]⟩ .f32) (h1 : (⟨1, ![o]⟩ : Shape).ShapeCasts ⟨2, ![1, o]⟩)
    (h2 : (⟨2, ![1, o]⟩ : Shape).Broadcasts ⟨2, ![n, o]⟩) (r : Fin n) (c : Fin o) :
    addf (matmul D none a W (constant ⟨2, ![n, o]⟩ .f32 0x00000000#32))
        (broadcastTo ⟨2, ![n, o]⟩ (shapeCast ⟨2, ![1, o]⟩ b h1) h2) (ix2 r c)
      = lin (mat a) (mat W) (vec b) r c := by
  subst hD
  show FloatOps.matmul (DotDims.plain n i o) none a W _ (ix2 r c) + broadcastTo _ _ h2 (ix2 r c) = _
  rw [Cert.PlainMatmul.apply, P0.broadcastTo_1b_ab_apply ho, shapeCast_b_1b_apply]
  rfl

section Enc

variable (xT : Vec Ideal S2000x512 .f32) (W0 : Vec Ideal S512x256 .bf16) (b0 : Vec Ideal S256 .f32)
  (W1 : Vec Ideal S256x256 .f32) (b1 : Vec Ideal S256 .f32)

theorem pay0_8 (r : Fin 2000) (d : Fin 256) :
    k0_pay8 (F := Ideal) xT W0 b0 W1 b1 (ix2 r d) = enc (mat xT) (mat W0) (vec b0) (mat W1) (vec b1) r d := by
  unfold k0_pay8
  refine (lin_apply (by decide) _ rfl _ W1 b1 _ _ r d).trans ?_
  refine congrArg (fun a => lin a (mat W1) (vec b1) r d) (funext fun r' => funext fun k => ?_)
  refine (lin_apply (by decide) _ rfl _ _ b0 _ _ r' k).trans ?_
  rw [shapeCast_self]
  rfl

theorem pay0_9 (r : Fin 2000) (d : Fin 256) :
    k0_pay9 (F := Ideal) xT W0 b0 W1 b1 (ix2 r d) = enc (mat xT) (mat W0) (vec b0) (mat W1) (vec b1) r d :=
  pay0_8 xT W0 b0 W1 b1 r d

end Enc

section Norm

variable (xT : Vec Ideal S2000x512 .f32) (W0 : Vec Ideal S512x256 .bf16) (b0 : Vec Ideal S256 .f32)
  (W1 : Vec Ideal S256x256 .f32) (b1 : Vec Ideal S256 .f32)

theorem pay0_10 (r : Fin 2000) :
    k0_pay10 (F := Ideal) xT W0 b0 W1 b1 (ix2 r (0 : Fin 1))
      = Ideal.sqrt (∑ d : Fin 256, k0_pay9 (F := Ideal) xT W0 b0 W1 b1 (ix2 r d) * k0_pay9 (F := Ideal) xT W0 b0 W1 b1 (ix2 r d)) := by
  unfold k0_pay10
  show Ideal.sqrt (shapeCast S2000x1 _ shapeCasts_S2000_S2000x1 (ix2 r (0 : Fin 1))) = _
  refine congrArg Ideal.sqrt ?_
  refine (Cert.RowOps.shapeCast_a_a1_apply _ _ r 0).trans ?_
  exact Cert.RowOps.rowSum_apply _ _ _ _ _ r

end Norm

theorem pay0_11 (r : Fin 2000) : k0_pay11 (F := Ideal) (ix2 r (0 : Fin 1)) = eps := rfl

theorem pay0_5 (m : Fin 2048) (d : Fin 256) : k0_pay5 (F := Ideal) (ix2 m d) = 0 := Ideal.ofBits_zero_f32

theorem pay0_6 (m : Fin 2048) (d : Fin 256) : k0_pay6 (F := Ideal) (ix2 m d) = 0 := Ideal.ofBits_zero_f32

def colDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section ColDims

variable {K M N : ℕ} (wf : DotDims.WF ⟨2, ![K, M]⟩ ⟨2, ![K, N]⟩ ⟨2, ![M, N]⟩ [0] [0] [1] [1] [] [])

theorem colDims_lhs_col (j : (⟨2, ![M, N]⟩ : Shape).Idx) (q : (colDims K M N wf).contr.Idx) :
    ((colDims K M N wf).lhsIdx j q 1).val = (j 0).val := by
  unfold DotDims.lhsIdx
  rw [dif_neg (show ¬(1 : Fin (⟨2, ![K, M]⟩ : Shape).rank) ∈ (colDims K M N wf).lhsBatch from List.not_mem_nil),
    dif_pos (show (1 : Fin (⟨2, ![K, M]⟩ : Shape).rank) ∈ (colDims K M N wf).lhsNonContracting from List.mem_singleton.mpr rfl)]
  rfl

theorem colDims_rhs_col (j : (⟨2, ![M, N]⟩ : Shape).Idx) (q : (colDims K M N wf).contr.Idx) :
    ((colDims K M N wf).rhsIdx j q 1).val = (j 1).val := by
  unfold DotDims.rhsIdx
  rw [dif_neg (show ¬(1 : Fin (⟨2, ![K, N]⟩ : Shape).rank) ∈ (colDims K M N wf).rhsBatch from List.not_mem_nil),
    dif_pos (show (1 : Fin (⟨2, ![K, N]⟩ : Shape).rank) ∈ (colDims K M N wf).rhsNonContracting from List.mem_singleton.mpr rfl)]
  rfl

theorem colDims_apply (prec : Option ContractPrecision) {φ₁ φ₂ : FTy} (a : FVec Ideal ⟨2, ![K, M]⟩ φ₁)
    (b : FVec Ideal ⟨2, ![K, N]⟩ φ₂) (m : Fin M) (c : Fin N) :
    FloatOps.matmul (colDims K M N wf) prec a b (constant ⟨2, ![M, N]⟩ .f32 0x00000000#32) (ix2 m c)
      = ∑ k : Fin K, a (ix2 k m) * b (ix2 k c) := by
  rw [Ideal.matmul_constant_zero_apply, ← Equiv.sum_comp (contrEquiv1 (colDims K M N wf) K rfl rfl).symm]
  refine Finset.sum_congr rfl fun k _ => ?_
  have hk := contrEquiv1_symm_val (colDims K M N wf) K rfl rfl k
  have el : (colDims K M N wf).lhsIdx (ix2 m c) ((contrEquiv1 (colDims K M N wf) K rfl rfl).symm k) = ix2 k m :=
    funext fun x => Fin.ext (by
      match x with
      | ⟨0, _⟩ => exact ((colDims K M N wf).lhsIdx_val_of_single rfl _ _).trans hk
      | ⟨1, _⟩ => exact colDims_lhs_col wf _ _)
  have er : (colDims K M N wf).rhsIdx (ix2 m c) ((contrEquiv1 (colDims K M N wf) K rfl rfl).symm k) = ix2 k c :=
    funext fun x => Fin.ext (by
      match x with
      | ⟨0, _⟩ => exact ((colDims K M N wf).rhsIdx_val_of_single rfl _ _).trans hk
      | ⟨1, _⟩ => exact colDims_rhs_col wf _ _)
  rw [el, er]

end ColDims

theorem word_eq_iff (x : BitVec 32) (m : ℕ) (hm : m < 2048) : x = BitVec.ofNat 32 m ↔ x.toInt = (m : ℤ) := by
  rw [BitVec.toInt_eq_toNat_cond, ← BitVec.toNat_inj, BitVec.toNat_ofNat]
  have := x.isLt
  split_ifs <;> omega

theorem bit_toInt (c : Bool) : ((BitVec.ofBool c).setWidth 32).toInt = if c then 1 else 0 := by
  cases c <;> rfl

theorem sitofp_eq_word (x : BitVec 32) (m : ℕ) (hm : m < 2048) :
    FloatOps.sitofp (F := Ideal) .f32 ((IntOp.cmpi .eq x (BitVec.ofNat 32 m)).setWidth 32)
      = if x.toInt = (m : ℤ) then 1 else 0 := by
  show ((((BitVec.ofBool (x == BitVec.ofNat 32 m)).setWidth 32).toInt : ℝ) : EReal) = _
  rw [bit_toInt]
  by_cases h : x.toInt = (m : ℤ)
  · rw [if_pos h, (word_eq_iff x m hm).2 h, beq_self_eq_true, if_pos rfl]; simp
  · have hx : (x == BitVec.ofNat 32 m) = false := by
      rw [beq_eq_false_iff_ne]; exact fun e => h ((word_eq_iff x m hm).1 e)
    rw [if_neg h, hx]; simp

theorem onehot_apply (paT : Vec Ideal S2000x1 .i32) (r : Fin 2000) (m : Fin 2048) :
    k0_pay2 (F := Ideal) paT (ix2 r m) = if icol paT r = (m.val : ℤ) then 1 else 0 := by
  unfold k0_pay2
  show FloatOps.sitofp (F := Ideal) .f32 ((IntOp.cmpi .eq
      (broadcastTo S2000x2048 (shapeCast S2000x1 paT shapeCasts_S2000x1_S2000x1) broadcasts_S2000x1_S2000x2048 (ix2 r m))
      (iota .tc S2000x2048 32 [1] iota_S2000x2048_d1_w32 (ix2 r m))).setWidth 32) = _
  rw [Cert.RowOps.broadcastTo_a1_ab_apply (by decide), shapeCast_self, iota_single_apply]
  exact sitofp_eq_word _ m.val m.isLt

section Reduce

variable (paT : Vec Ideal S2000x1 .i32) (pvT : Vec Ideal S2000x1 .f32) (acc : Vec Ideal S2048x256 .f32)

theorem onehot_matmul (u : FVec Ideal S2000x256 .bf16) (m : Fin 2048) (d : Fin 256) :
    matmul dot_S2000x2048_S2000x256_S2048x256_0_0_1_1_n_n none (k0_pay2 (F := Ideal) paT) u
        (constant S2048x256 .f32 0x00000000#32) (ix2 m d)
      = ∑ r : Fin 2000, if icol paT r = (m.val : ℤ) then u (ix2 r d) else 0 := by
  refine (colDims_apply (K := 2000) (M := 2048) (N := 256)
    dot_S2000x2048_S2000x256_S2048x256_0_0_1_1_n_n.wf none (k0_pay2 (F := Ideal) paT) u m d).trans ?_
  refine Finset.sum_congr rfl fun r _ => ?_
  rw [onehot_apply]
  split_ifs
  · exact one_mul _
  · exact zero_mul _

theorem pay0_3 (hT : FVec Ideal S2000x256 .f32) (m : Fin 2048) (d : Fin 256) :
    k0_pay3 (F := Ideal) hT paT pvT acc (ix2 m d)
      = acc (ix2 m d) + ∑ r : Fin 2000, if icol paT r = (m.val : ℤ) then col pvT r * hT (ix2 r d) else 0 := by
  unfold k0_pay3
  show shapeCast S2048x256 acc shapeCasts_S2048x256_S2048x256 (ix2 m d) + matmul (F := Ideal) _ none _ _ _ (ix2 m d) = _
  rw [shapeCast_self, onehot_matmul]
  refine congrArg (acc (ix2 m d) + ·) (Finset.sum_congr rfl fun r _ => ?_)
  refine congrArg (fun t => if icol paT r = (m.val : ℤ) then t else 0) ?_
  show broadcastTo S2000x256 (k0_pay1 (F := Ideal) pvT) broadcasts_S2000x1_S2000x256 (ix2 r d) * hT (ix2 r d) = _
  rw [Cert.RowOps.broadcastTo_a1_ab_apply (by decide)]
  unfold k0_pay1
  rw [shapeCast_self]
  rfl

theorem pay0_4 (vT : FVec Ideal S2000x256 .f32) (nrm epsv : FVec Ideal S2000x1 .f32) (m : Fin 2048) (d : Fin 256) :
    k0_pay4 (F := Ideal) vT nrm epsv paT pvT acc (ix2 m d)
      = acc (ix2 m d) + ∑ r : Fin 2000, if icol paT r = (m.val : ℤ)
          then col pvT r * Ideal.div (vT (ix2 r d)) (max (nrm (ix2 r (0 : Fin 1))) (epsv (ix2 r (0 : Fin 1)))) else 0 := by
  unfold k0_pay4
  show shapeCast S2048x256 acc shapeCasts_S2048x256_S2048x256 (ix2 m d) + matmul (F := Ideal) _ none _ _ _ (ix2 m d) = _
  rw [shapeCast_self, onehot_matmul]
  refine congrArg (acc (ix2 m d) + ·) (Finset.sum_congr rfl fun r _ => ?_)
  refine congrArg (fun t => if icol paT r = (m.val : ℤ) then t else 0) ?_
  show broadcastTo S2000x256 (k0_pay1 (F := Ideal) pvT) broadcasts_S2000x1_S2000x256 (ix2 r d)
      * Ideal.div (vT (ix2 r d)) (broadcastTo S2000x256 (maximumf nrm epsv) broadcasts_S2000x1_S2000x256 (ix2 r d)) = _
  rw [Cert.RowOps.broadcastTo_a1_ab_apply (by decide), Cert.RowOps.broadcastTo_a1_ab_apply (by decide)]
  unfold k0_pay1
  rw [shapeCast_self]
  rfl

end Reduce

end Cert.KernelIdeal.Val

end
-- ==== Proof.Val.B0.lean ====
import proofs.«412354_j76115410419855_2_alg».proof.Proof.KI.R0
import proofs.«412354_j76115410419855_2_alg».proof.Proof.Conv

noncomputable section

namespace Cert.KernelIdeal.Val

open Cert.KernelIdeal Cert.KernelIdeal.Gen ClusterLoss Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_9 : ∀ t : Fin cfg0.N, win0_9.index t 0 = t.val ∧ win0_9.index t 1 = 0 :=
  (by decide +kernel : ∀ t : Fin grid0.N, win0_9.index t 0 = t.val ∧ win0_9.index t 1 = 0)
theorem idx0_10 : ∀ t : Fin cfg0.N, win0_10.index t 0 = t.val ∧ win0_10.index t 1 = 0 :=
  (by decide +kernel : ∀ t : Fin grid0.N, win0_10.index t 0 = t.val ∧ win0_10.index t 1 = 0)
theorem idxz0_1 : ∀ (t : Fin cfg0.N) (a : Fin main_v0.ty.shape.rank), win0_1.index t a * main_v0.ty.shape.size a = 0 :=
  (by decide +kernel : ∀ (t : Fin grid0.N) (a : Fin main_v0.ty.shape.rank), win0_1.index t a * main_v0.ty.shape.size a = 0)
theorem idxz0_2 : ∀ (t : Fin cfg0.N) (a : Fin main_arg2.ty.shape.rank), win0_2.index t a * main_arg2.ty.shape.size a = 0 :=
  (by decide +kernel : ∀ (t : Fin grid0.N) (a : Fin main_arg2.ty.shape.rank), win0_2.index t a * main_arg2.ty.shape.size a = 0)
theorem idxz0_3 : ∀ (t : Fin cfg0.N) (a : Fin main_arg3.ty.shape.rank), win0_3.index t a * main_arg3.ty.shape.size a = 0 :=
  (by decide +kernel : ∀ (t : Fin grid0.N) (a : Fin main_arg3.ty.shape.rank), win0_3.index t a * main_arg3.ty.shape.size a = 0)
theorem idxz0_4 : ∀ (t : Fin cfg0.N) (a : Fin main_arg4.ty.shape.rank), win0_4.index t a * main_arg4.ty.shape.size a = 0 :=
  (by decide +kernel : ∀ (t : Fin grid0.N) (a : Fin main_arg4.ty.shape.rank), win0_4.index t a * main_arg4.ty.shape.size a = 0)
theorem idxz0_5 : ∀ (t : Fin cfg0.N) (a : Fin main_v1.ty.shape.rank), win0_5.index t a * main_v1.ty.shape.size a = 0 :=
  (by decide +kernel : ∀ (t : Fin grid0.N) (a : Fin main_v1.ty.shape.rank), win0_5.index t a * main_v1.ty.shape.size a = 0)
theorem idxz0_6 : ∀ (t : Fin cfg0.N) (a : Fin main_arg6.ty.shape.rank), win0_6.index t a * main_arg6.ty.shape.size a = 0 :=
  (by decide +kernel : ∀ (t : Fin grid0.N) (a : Fin main_arg6.ty.shape.rank), win0_6.index t a * main_arg6.ty.shape.size a = 0)
theorem idxz0_7 : ∀ (t : Fin cfg0.N) (a : Fin main_arg7.ty.shape.rank), win0_7.index t a * main_arg7.ty.shape.size a = 0 :=
  (by decide +kernel : ∀ (t : Fin grid0.N) (a : Fin main_arg7.ty.shape.rank), win0_7.index t a * main_arg7.ty.shape.size a = 0)
theorem idxz0_8 : ∀ (t : Fin cfg0.N) (a : Fin main_arg8.ty.shape.rank), win0_8.index t a * main_arg8.ty.shape.size a = 0 :=
  (by decide +kernel : ∀ (t : Fin grid0.N) (a : Fin main_arg8.ty.shape.rank), win0_8.index t a * main_arg8.ty.shape.size a = 0)

theorem row0_lt (t : Fin cfg0.N) (r : Fin 2000) : 2000 * t.val + r.val < 100000 := by
  have : t.val < 50 := lt_of_lt_of_eq t.isLt (show cfg0.N = 50 from N_0)
  have := r.isLt; omega

theorem blk0_x (c : Dev nD) (t : Fin cfg0.N) (r : Fin 2000) (k : Fin 512) :
    mat (Hand.iblk0 V c 0 t) r k = mat (V c main_arg0) ⟨2000 * t.val + r.val, row0_lt t r⟩ k := by
  obtain ⟨h0, h1⟩ := idx0_0 t
  unfold mat Hand.iblk0
  rw [View.read_apply]
  show V c main_arg0 _ = V c main_arg0 _
  congr 1
  funext a
  apply Fin.ext
  match a with
  | ⟨0, _⟩ => show win0_0.index t 0 * 2000 + 1 * r.val = 2000 * t.val + r.val; rw [h0]; omega
  | ⟨1, _⟩ => show win0_0.index t 1 * 512 + 1 * k.val = k.val; rw [h1]; omega

theorem blk0_pa (c : Dev nD) (t : Fin cfg0.N) (r : Fin 2000) :
    icol (Hand.iblk0 V c 9 t) r = icol (V c main_v2) ⟨2000 * t.val + r.val, row0_lt t r⟩ := by
  obtain ⟨h0, h1⟩ := idx0_9 t
  unfold icol Hand.iblk0
  rw [View.read_apply]
  show BitVec.toInt (V c main_v2 _) = BitVec.toInt (V c main_v2 _)
  congr 2
  funext a
  apply Fin.ext
  match a with
  | ⟨0, _⟩ => show win0_9.index t 0 * 2000 + 1 * r.val = 2000 * t.val + r.val; rw [h0]; omega
  | ⟨1, _⟩ => show win0_9.index t 1 * 1 + 1 * 0 = 0; rw [h1]

theorem blk0_pv (c : Dev nD) (t : Fin cfg0.N) (r : Fin 2000) :
    col (Hand.iblk0 V c 10 t) r = col (V c main_v3) ⟨2000 * t.val + r.val, row0_lt t r⟩ := by
  obtain ⟨h0, h1⟩ := idx0_10 t
  unfold col Hand.iblk0
  rw [View.read_apply]
  show V c main_v3 _ = V c main_v3 _
  congr 1
  funext a
  apply Fin.ext
  match a with
  | ⟨0, _⟩ => show win0_10.index t 0 * 2000 + 1 * r.val = 2000 * t.val + r.val; rw [h0]; omega
  | ⟨1, _⟩ => show win0_10.index t 1 * 1 + 1 * 0 = 0; rw [h1]

theorem blk0_whole_1 (c : Dev nD) (t : Fin cfg0.N) : Hand.iblk0 V c 1 t = V c main_v0 := by
  have hz' : (fun a => win0_1.index t a * main_v0.ty.shape.size a) = fun _ => 0 := funext (idxz0_1 t)
  exact Memref.read_access_unit_zero (Elt Ideal) main_v0 hz' (fun a => by rw [congrFun hz' a]; simp) (V c main_v0)

theorem blk0_whole_2 (c : Dev nD) (t : Fin cfg0.N) : Hand.iblk0 V c 2 t = V c main_arg2 := by
  have hz' : (fun a => win0_2.index t a * main_arg2.ty.shape.size a) = fun _ => 0 := funext (idxz0_2 t)
  exact Memref.read_access_unit_zero (Elt Ideal) main_arg2 hz' (fun a => by rw [congrFun hz' a]; simp) (V c main_arg2)

theorem blk0_whole_3 (c : Dev nD) (t : Fin cfg0.N) : Hand.iblk0 V c 3 t = V c main_arg3 := by
  have hz' : (fun a => win0_3.index t a * main_arg3.ty.shape.size a) = fun _ => 0 := funext (idxz0_3 t)
  exact Memref.read_access_unit_zero (Elt Ideal) main_arg3 hz' (fun a => by rw [congrFun hz' a]; simp) (V c main_arg3)

theorem blk0_whole_4 (c : Dev nD) (t : Fin cfg0.N) : Hand.iblk0 V c 4 t = V c main_arg4 := by
  have hz' : (fun a => win0_4.index t a * main_arg4.ty.shape.size a) = fun _ => 0 := funext (idxz0_4 t)
  exact Memref.read_access_unit_zero (Elt Ideal) main_arg4 hz' (fun a => by rw [congrFun hz' a]; simp) (V c main_arg4)

theorem blk0_whole_5 (c : Dev nD) (t : Fin cfg0.N) : Hand.iblk0 V c 5 t = V c main_v1 := by
  have hz' : (fun a => win0_5.index t a * main_v1.ty.shape.size a) = fun _ => 0 := funext (idxz0_5 t)
  exact Memref.read_access_unit_zero (Elt Ideal) main_v1 hz' (fun a => by rw [congrFun hz' a]; simp) (V c main_v1)

theorem blk0_whole_6 (c : Dev nD) (t : Fin cfg0.N) : Hand.iblk0 V c 6 t = V c main_arg6 := by
  have hz' : (fun a => win0_6.index t a * main_arg6.ty.shape.size a) = fun _ => 0 := funext (idxz0_6 t)
  exact Memref.read_access_unit_zero (Elt Ideal) main_arg6 hz' (fun a => by rw [congrFun hz' a]; simp) (V c main_arg6)

theorem blk0_whole_7 (c : Dev nD) (t : Fin cfg0.N) : Hand.iblk0 V c 7 t = V c main_arg7 := by
  have hz' : (fun a => win0_7.index t a * main_arg7.ty.shape.size a) = fun _ => 0 := funext (idxz0_7 t)
  exact Memref.read_access_unit_zero (Elt Ideal) main_arg7 hz' (fun a => by rw [congrFun hz' a]; simp) (V c main_arg7)

theorem blk0_whole_8 (c : Dev nD) (t : Fin cfg0.N) : Hand.iblk0 V c 8 t = V c main_arg8 := by
  have hz' : (fun a => win0_8.index t a * main_arg8.ty.shape.size a) = fun _ => 0 := funext (idxz0_8 t)
  exact Memref.read_access_unit_zero (Elt Ideal) main_arg8 hz' (fun a => by rw [congrFun hz' a]; simp) (V c main_arg8)

end Cert.KernelIdeal.Val

end
-- ==== Proof.LibTileSum.lean ====
import Mathlib.Algebra.BigOperators.Fin
import Mathlib.Algebra.BigOperators.Group.Finset.Basic
import Mathlib.Logic.Equiv.Fin.Basic

namespace Cert.TileSum

variable {M : Type*} [AddCommMonoid M]

theorem tile_lt {T R N : ℕ} (h : T * R = N) (t : Fin T) (r : Fin R) : t.val * R + r.val < N :=
  calc t.val * R + r.val < t.val * R + R := Nat.add_lt_add_left r.isLt _
    _ = (t.val + 1) * R := (Nat.succ_mul _ _).symm
    _ ≤ T * R := Nat.mul_le_mul_right R t.isLt
    _ = N := h

theorem sum_tiles (T R N : ℕ) (h : T * R = N) (f : Fin N → M) :
    ∑ t : Fin T, ∑ r : Fin R, f ⟨t.val * R + r.val, tile_lt h t r⟩ = ∑ n : Fin N, f n := by
  subst h
  rw [← Equiv.sum_comp finProdFinEquiv f, Fintype.sum_prod_type]
  refine Finset.sum_congr rfl fun t _ => Finset.sum_congr rfl fun r _ => congrArg f (Fin.ext ?_)
  show t.val * R + r.val = r.val + R * t.val
  rw [Nat.mul_comm, Nat.add_comm]

theorem fold_sum_lt (K : ℕ) (z : M) (g acc : (k : ℕ) → k < K → M)
    (h0 : ∀ h : 0 < K, acc 0 h = z + g 0 h)
    (hs : ∀ (n : ℕ) (h : n + 1 < K), acc (n + 1) h = acc n (Nat.lt_of_succ_lt h) + g (n + 1) h)
    (n : ℕ) (hn : n < K) :
    acc n hn = z + ∑ k : Fin (n + 1), g k.val (lt_of_lt_of_le k.isLt (Nat.succ_le_of_lt hn)) := by
  induction n with
  | zero => rw [h0 hn, Fin.sum_univ_one]; rfl
  | succ n ih =>
    rw [hs n hn, ih (Nat.lt_of_succ_lt hn), add_assoc]
    refine congrArg (z + ·) ?_
    exact (Fin.sum_univ_castSucc
      (fun k : Fin (n + 1 + 1) => g k.val (lt_of_lt_of_le k.isLt (Nat.succ_le_of_lt hn)))).symm

end Cert.TileSum
-- ==== Proof.Val.V0.lean ====
import proofs.«412354_j76115410419855_2_alg».proof.Proof.KI.R0
import proofs.«412354_j76115410419855_2_alg».proof.Proof.Val.P0
import proofs.«412354_j76115410419855_2_alg».proof.Proof.Val.B0
import proofs.«412354_j76115410419855_2_alg».proof.Proof.Conv
import proofs.«412354_j76115410419855_2_alg».proof.Proof.LibTileSum

noncomputable section

namespace Cert.KernelIdeal.Val

open Cert.KernelIdeal Cert.KernelIdeal.Gen Cert.KernelIdeal.Hand ClusterLoss
open Idealize.ShloMosaic Idealize.ShloMosaic.TcCoe Idealize.ShloMosaic.ValueIdx Idealize.SL.Sem

variable (V : (c : Dev nD) → (b : Ref sig .tc) → Buf (Elt Ideal) ((c : Thread nD τ).loc b))

theorem enc_row {n n' i o : ℕ} (a : Fin n → Fin i → EReal) (a' : Fin n' → Fin i → EReal)
    (W0 : Fin i → Fin o → EReal) (b0 : Fin o → EReal) (W1 : Fin o → Fin o → EReal) (b1 : Fin o → EReal)
    (r : Fin n) (r' : Fin n') (h : ∀ k, a r k = a' r' k) (d : Fin o) :
    enc a W0 b0 W1 b1 r d = enc a' W0 b0 W1 b1 r' d := by
  unfold enc lin
  simp only [h]

section Hc

variable (c : Dev nD) (m : Fin 2048) (d : Fin 256)

def termH (n : Fin 100000) : EReal :=
  if icol (V c main_v2) n = (m.val : ℤ) then
    col (V c main_v3) n * h (mat (V c main_arg0)) (mat (V c main_v0)) (vec (V c main_arg2)) (mat (V c main_arg3)) (vec (V c main_arg4)) n d
  else 0

theorem step0_11_apply (t : Fin cfg0.N) (prev : Vec Ideal S2048x256 .f32) :
    Hand.step0_11 V c t prev (ix2 m d) = prev (ix2 m d) + ∑ r : Fin 2000, termH V c m d ⟨2000 * t.val + r.val, row0_lt t r⟩ := by
  unfold Hand.step0_11
  rw [pay0_3]
  refine congrArg (prev (ix2 m d) + ·) (Finset.sum_congr rfl fun r _ => ?_)
  unfold termH
  rw [blk0_pa, blk0_pv, pay0_8, blk0_whole_1, blk0_whole_2, blk0_whole_3, blk0_whole_4]
  rw [enc_row (mat (Hand.iblk0 V c 0 t)) (mat (V c main_arg0)) _ _ _ _ r ⟨2000 * t.val + r.val, row0_lt t r⟩ (fun k => blk0_x V c t r k) d]
  rfl

theorem acc0_11_apply (n : ℕ) (hn : n < cfg0.N) :
    (Hand.acc0 V c n hn).1 (ix2 m d)
      = 0 + ∑ k : Fin (n + 1), ∑ r : Fin 2000,
          termH V c m d ⟨2000 * k.val + r.val, row0_lt ⟨k.val, lt_of_lt_of_le k.isLt (Nat.succ_le_of_lt hn)⟩ r⟩ :=
  Cert.TileSum.fold_sum_lt cfg0.N 0
    (fun k hk => ∑ r : Fin 2000, termH V c m d ⟨2000 * k + r.val, row0_lt ⟨k, hk⟩ r⟩)
    (fun k hk => (Hand.acc0 V c k hk).1 (ix2 m d))
    (fun h0 => by
      show (Hand.acc0 V c 0 h0).1 (ix2 m d) = 0 + ∑ r : Fin 2000, termH V c m d ⟨2000 * 0 + r.val, row0_lt ⟨0, h0⟩ r⟩
      rw [Hand.acc0_zero]
      dsimp only
      rw [step0_11_apply, pay0_5])
    (fun k hk => by
      show (Hand.acc0 V c (k + 1) hk).1 (ix2 m d) = (Hand.acc0 V c k (Nat.lt_of_succ_lt hk)).1 (ix2 m d) + ∑ r : Fin 2000, termH V c m d ⟨2000 * (k + 1) + r.val, row0_lt ⟨k + 1, hk⟩ r⟩
      rw [Hand.acc0_succ]
      dsimp only
      rw [step0_11_apply])
    n hn

end Hc

theorem val0_hc (c : Dev nD) : mat ((Hand.dat0 V c).arrAt 11 cfg0.N)
    = hc (mat (V c main_arg0)) (mat (V c main_v0)) (vec (V c main_arg2)) (mat (V c main_arg3)) (vec (V c main_arg4)) (col (V c main_v3)) (icol (V c main_v2)) := by
  rw [Hand.final0_11]
  funext m d
  show (Hand.acc0 V c 49 Hand.h49).1 (ix2 m d) = ∑ n : Fin 100000, termH V c m d n
  rw [acc0_11_apply, zero_add]
  refine Eq.trans ?_ (Cert.TileSum.sum_tiles 50 2000 100000 rfl (termH V c m d))
  refine Finset.sum_congr rfl fun t _ => Finset.sum_congr rfl fun r _ => congrArg (termH V c m d) (Fin.ext ?_)
  show 2000 * t.val + r.val = t.val * 2000 + r.val
  omega

section Vnc

variable (c : Dev nD) (m : Fin 2048) (d : Fin 256)

def termV (n : Fin 100000) : EReal :=
  if icol (V c main_v2) n = (m.val : ℤ) then
    col (V c main_v3) n * vn (mat (V c main_arg0)) (mat (V c main_v1)) (vec (V c main_arg6)) (mat (V c main_arg7)) (vec (V c main_arg8)) n d
  else 0

theorem step0_12_apply (t : Fin cfg0.N) (prev : Vec Ideal S2048x256 .f32) :
    Hand.step0_12 V c t prev (ix2 m d) = prev (ix2 m d) + ∑ r : Fin 2000, termV V c m d ⟨2000 * t.val + r.val, row0_lt t r⟩ := by
  unfold Hand.step0_12
  rw [pay0_4]
  refine congrArg (prev (ix2 m d) + ·) (Finset.sum_congr rfl fun r _ => ?_)
  unfold termV
  have hrow : ∀ k : Fin 256, k0_pay9 (F := Ideal) (Hand.iblk0 V c 0 t) (Hand.iblk0 V c 5 t) (Hand.iblk0 V c 6 t) (Hand.iblk0 V c 7 t) (Hand.iblk0 V c 8 t) (ix2 r k)
      = v (mat (V c main_arg0)) (mat (V c main_v1)) (vec (V c main_arg6)) (mat (V c main_arg7)) (vec (V c main_arg8)) ⟨2000 * t.val + r.val, row0_lt t r⟩ k := fun k => by
    rw [pay0_9, blk0_whole_5, blk0_whole_6, blk0_whole_7, blk0_whole_8]
    exact enc_row (mat (Hand.iblk0 V c 0 t)) (mat (V c main_arg0)) _ _ _ _ r ⟨2000 * t.val + r.val, row0_lt t r⟩ (fun k' => blk0_x V c t r k') k
  rw [blk0_pa, blk0_pv, pay0_10, pay0_11]
  simp only [hrow]
  rfl

theorem acc0_12_apply (n : ℕ) (hn : n < cfg0.N) :
    (Hand.acc0 V c n hn).2 (ix2 m d)
      = 0 + ∑ k : Fin (n + 1), ∑ r : Fin 2000,
          termV V c m d ⟨2000 * k.val + r.val, row0_lt ⟨k.val, lt_of_lt_of_le k.isLt (Nat.succ_le_of_lt hn)⟩ r⟩ :=
  Cert.TileSum.fold_sum_lt cfg0.N 0
    (fun k hk => ∑ r : Fin 2000, termV V c m d ⟨2000 * k + r.val, row0_lt ⟨k, hk⟩ r⟩)
    (fun k hk => (Hand.acc0 V c k hk).2 (ix2 m d))
    (fun h0 => by
      show (Hand.acc0 V c 0 h0).2 (ix2 m d) = 0 + ∑ r : Fin 2000, termV V c m d ⟨2000 * 0 + r.val, row0_lt ⟨0, h0⟩ r⟩
      rw [Hand.acc0_zero]
      dsimp only
      rw [step0_12_apply, pay0_6])
    (fun k hk => by
      show (Hand.acc0 V c (k + 1) hk).2 (ix2 m d) = (Hand.acc0 V c k (Nat.lt_of_succ_lt hk)).2 (ix2 m d) + ∑ r : Fin 2000, termV V c m d ⟨2000 * (k + 1) + r.val, row0_lt ⟨k + 1, hk⟩ r⟩
      rw [Hand.acc0_succ]
      dsimp only
      rw [step0_12_apply])
    n hn

end Vnc

theorem val0_vnc (c : Dev nD) : mat ((Hand.dat0 V c).arrAt 12 cfg0.N)
    = vnc (mat (V c main_arg0)) (mat (V c main_v1)) (vec (V c main_arg6)) (mat (V c main_arg7)) (vec (V c main_arg8)) (col (V c main_v3)) (icol (V c main_v2)) := by
  rw [Hand.final0_12]
  funext m d
  show (Hand.acc0 V c 49 Hand.h49).2 (ix2 m d) = ∑ n : Fin 100000, termV V c m d n
  rw [acc0_12_apply, zero_add]
  refine Eq.trans ?_ (Cert.TileSum.sum_tiles 50 2000 100000 rfl (termV V c m d))
  refine Finset.sum_congr rfl fun t _ => Finset.sum_congr rfl fun r _ => congrArg (termV V c m d) (Fin.ext ?_)
  show 2000 * t.val + r.val = t.val * 2000 + r.val
  omega

end Cert.KernelIdeal.Val

end
-- ==== Proof.Val.P12.lean ====
import proofs.«412354_j76115410419855_2_alg».proof.Proof.Gen.KernelIdeal.Skeleton
import proofs.«412354_j76115410419855_2_alg».proof.Proof.Conv
import proofs.«412354_j76115410419855_2_alg».proof.Proof.Val.P0
import proofs.«412354_j76115410419855_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen ClusterLoss Idealize.ShloMosaic Idealize.ShloMosaic.ValueIdx

theorem normCol_apply {n m : ℕ} (y : FVec Ideal ⟨2, ![n, m]⟩ .f32)
    (hr : (⟨2, ![n, m]⟩ : Shape).Reduces [1] ⟨1, ![n]⟩)
    (hs : (⟨1, ![n]⟩ : Shape).ShapeCasts ⟨2, ![n, 1]⟩) (i : Fin n) :
    maximumf (F := Ideal) (sqrt (F := Ideal) (shapeCast ⟨2, ![n, 1]⟩
        (multiReduction (F := Ideal) .add [1] ⟨1, ![n]⟩ (mulf (F := Ideal) y y) 0x00000000#32 hr (.inl rfl) rfl) hs))
      (broadcast ⟨2, ![n, 1]⟩ (Scalar.ofBits (F := Ideal) .f32 0x2B8CBCCC#32)) (ix2 i (0 : Fin 1))
      = rownorm (mat y) i := by
  refine (maximumf_apply _ _ _).trans ?_
  refine congrArg (fun t => max (Ideal.sqrt t) eps) ?_
  refine (Cert.RowOps.shapeCast_a_a1_apply _ hs i 0).trans ?_
  exact Cert.RowOps.rowSum_apply (mulf (F := Ideal) y y) 0x00000000#32 hr (.inl rfl) rfl i

theorem l2nBlock_apply {n m : ℕ} (hn : n ≠ 1) (y : FVec Ideal ⟨2, ![n, m]⟩ .f32)
    (hr : (⟨2, ![n, m]⟩ : Shape).Reduces [1] ⟨1, ![n]⟩)
    (hs : (⟨1, ![n]⟩ : Shape).ShapeCasts ⟨2, ![n, 1]⟩)
    (hb : (⟨2, ![n, 1]⟩ : Shape).Broadcasts ⟨2, ![n, m]⟩) (i : Fin n) (d : Fin m) :
    divf (F := Ideal) y (broadcastTo ⟨2, ![n, m]⟩ (maximumf (F := Ideal) (sqrt (F := Ideal) (shapeCast ⟨2, ![n, 1]⟩
        (multiReduction (F := Ideal) .add [1] ⟨1, ![n]⟩ (mulf (F := Ideal) y y) 0x00000000#32 hr (.inl rfl) rfl) hs))
      (broadcast ⟨2, ![n, 1]⟩ (Scalar.ofBits (F := Ideal) .f32 0x2B8CBCCC#32))) hb) (ix2 i d)
      = l2n (mat y) i d := by
  refine (divf_apply _ _ _).trans ?_
  refine congrArg (fun t => Ideal.div (y (ix2 i d)) t) ?_
  refine (Cert.RowOps.broadcastTo_a1_ab_apply hn _ hb i d).trans ?_
  exact normCol_apply y hr hs i

theorem pay1_1 (hcA : Vec Ideal S2048x256 .f32) : k1_pay1 (F := Ideal) hcA = hcA := by
  unfold k1_pay1
  exact shapeCast_self _ _

theorem pay1_2 (hcA : Vec Ideal S2048x256 .f32) : mat (k1_pay2 (F := Ideal) hcA) = hn (mat hcA) := by
  funext i d
  unfold k1_pay2
  rw [pay1_1]
  exact l2nBlock_apply (by decide) hcA _ _ _ i d

section TransposedRhs

variable {M K N : ℕ}

theorem tlhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tlhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem trhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem trhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

theorem transposedRhs_apply (prec : Option ContractPrecision) {φ₁ φ₂ : FTy} (a : FVec Ideal ⟨2, ![M, K]⟩ φ₁)
    (b : FVec Ideal ⟨2, ![N, K]⟩ φ₂) (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun x => Fin.ext (by
      match x with
      | ⟨0, _⟩ => exact tlhs_row _ _
      | ⟨1, _⟩ => exact (tlhs_col _ _).trans hk)
  have er : (DotDims.transposedRhs M K N).rhsIdx (ix2 r c) ((contrEquiv1 (DotDims.transposedRhs M K N) K rfl rfl).symm k) = ix2 c k :=
    funext fun x => Fin.ext (by
      match x with
      | ⟨0, _⟩ => exact trhs_row _ _
      | ⟨1, _⟩ => exact (trhs_col _ _).trans hk)
  rw [el, er]

end TransposedRhs

theorem dot2_eq : dot_S256x256_S2048x256_S256x2048_1_1_0_0_n_n = DotDims.transposedRhs 256 256 2048 := rfl

theorem pay2_1 (rowsA : Vec Ideal S256x256 .f32) (hnA : Vec Ideal S2048x256 .f32) (r : Fin 256) (j : Fin 2048) :
    k2_pay1 (F := Ideal) rowsA hnA (ix2 r j) = Ideal.exp (Ideal.div (∑ d, mat rowsA r d * mat hnA j d) half) := by
  unfold k2_pay1
  show Ideal.exp (Ideal.div (FloatOps.matmul (F := Ideal) (φ₁ := .f32) (φ₂ := .f32) dot_S256x256_S2048x256_S256x2048_1_1_0_0_n_n none
      (shapeCast S256x256 rowsA shapeCasts_S256x256_S256x256) (shapeCast S2048x256 hnA shapeCasts_S2048x256_S2048x256)
      (constant (F := Ideal) S256x2048 .f32 0x00000000#32) (ix2 r j)) half) = _
  rw [shapeCast_self, shapeCast_self, dot2_eq]
  exact congrArg (fun t => Ideal.exp (Ideal.div t half)) (transposedRhs_apply none rowsA hnA r j)

theorem pay2_2 (rowsA : Vec Ideal S256x256 .f32) (hnA : Vec Ideal S2048x256 .f32) (r : Fin 256) :
    k2_pay2 (F := Ideal) rowsA hnA (ix2 r 0) = ∑ j : Fin 2048, k2_pay1 (F := Ideal) rowsA hnA (ix2 r j) := by
  unfold k2_pay2
  refine (Cert.RowOps.shapeCast_a_a1_apply _ _ r 0).trans ?_
  exact Cert.RowOps.rowSum_apply _ _ _ _ _ r

def qBlock (hcA : FVec Ideal S2048x256 .f32) (Wp0 : FVec Ideal S256x256 .f32) (bp0 : FVec Ideal S256 .f32)
    (Wp1 : FVec Ideal S256x256 .f32) (bp1 : FVec Ideal S256 .f32) : FVec Ideal S2048x256 .f32 :=
  addf (F := Ideal) (FloatOps.matmul (F := Ideal) dot_S2048x256_S256x256_S2048x256_1_0_0_1_n_n none
      (maximumf (F := Ideal) (addf (F := Ideal) (FloatOps.matmul (F := Ideal) dot_S2048x256_S256x256_S2048x256_1_0_0_1_n_n none hcA Wp0
          (constant (F := Ideal) S2048x256 .f32 0x00000000#32))
        (broadcastTo S2048x256 (shapeCast S1x256 bp0 shapeCasts_S256_S1x256) broadcasts_S1x256_S2048x256))
        (broadcast S2048x256 (Scalar.ofBits (F := Ideal) .f32 0x00000000#32))) Wp1
      (constant (F := Ideal) S2048x256 .f32 0x00000000#32))
    (broadcastTo S2048x256 (shapeCast S1x256 bp1 shapeCasts_S256_S1x256) broadcasts_S1x256_S2048x256)

theorem qBlock_mat (hcA : FVec Ideal S2048x256 .f32) (Wp0 : FVec Ideal S256x256 .f32) (bp0 : FVec Ideal S256 .f32)
    (Wp1 : FVec Ideal S256x256 .f32) (bp1 : FVec Ideal S256 .f32) :
    mat (qBlock hcA Wp0 bp0 Wp1 bp1) = q (mat Wp0) (vec bp0) (mat Wp1) (vec bp1) (mat hcA) := by
  funext r c
  unfold qBlock
  refine (lin_apply (by decide) _ rfl _ Wp1 bp1 _ _ r c).trans ?_
  refine congrArg (fun A => lin A (mat Wp1) (vec bp1) r c) (funext fun r' => funext fun c' => ?_)
  refine (maximumf_apply _ _ _).trans ?_
  show max _ (Ideal.ofBits .f32 0x00000000#32) = max (lin (mat hcA) (mat Wp0) (vec bp0) r' c') 0
  rw [Ideal.ofBits_zero_f32]
  exact congrArg (fun t => max t 0) (lin_apply (by decide) _ rfl hcA Wp0 bp0 _ _ r' c')

def l2nBlock (y : FVec Ideal S2048x256 .f32) : FVec Ideal S2048x256 .f32 :=
  divf (F := Ideal) y (broadcastTo S2048x256 (maximumf (F := Ideal) (sqrt (F := Ideal) (shapeCast S2048x1
      (multiReduction (F := Ideal) .add [1] S2048 (mulf (F := Ideal) y y) 0x00000000#32 reduces_S2048x256_S2048 (.inl rfl) rfl)
      shapeCasts_S2048_S2048x1))
    (broadcast S2048x1 (Scalar.ofBits (F := Ideal) .f32 0x2B8CBCCC#32))) broadcasts_S2048x1_S2048x256)

theorem l2nBlock_mat (y : FVec Ideal S2048x256 .f32) : mat (l2nBlock y) = l2n (mat y) := by
  funext i d
  unfold l2nBlock
  exact l2nBlock_apply (by decide) y _ _ _ i d

theorem pay1_3_eq (hcA vncA : Vec Ideal S2048x256 .f32) (Wp0 Wp1 : Vec Ideal S256x256 .f32) (bp0 bp1 : Vec Ideal S256 .f32) :
    k1_pay3 (F := Ideal) hcA Wp0 bp0 Wp1 bp1 vncA
      = exp (F := Ideal) (divf (F := Ideal) (shapeCast S2048x1 (multiReduction (F := Ideal) .add [1] S2048
          (mulf (F := Ideal) (l2nBlock (qBlock (k1_pay1 (F := Ideal) hcA) Wp0 bp0 Wp1 bp1))
            (shapeCast S2048x256 vncA shapeCasts_S2048x256_S2048x256))
          0x00000000#32 reduces_S2048x256_S2048 (.inl rfl) rfl) shapeCasts_S2048_S2048x1)
        (broadcast S2048x1 (Scalar.ofBits (F := Ideal) .f32 0x3F000000#32))) := rfl

theorem pay1_3 (hcA vncA : Vec Ideal S2048x256 .f32) (Wp0 Wp1 : Vec Ideal S256x256 .f32) (bp0 bp1 : Vec Ideal S256 .f32) :
    col (k1_pay3 (F := Ideal) hcA Wp0 bp0 Wp1 bp1 vncA)
      = posK (qn (mat Wp0) (vec bp0) (mat Wp1) (vec bp1) (mat hcA)) (mat vncA) := by
  funext m
  rw [pay1_3_eq, pay1_1, shapeCast_self]
  show Ideal.exp (Ideal.div _ half) = Ideal.exp (Ideal.div _ half)
  refine congrArg (fun t => Ideal.exp (Ideal.div t half)) ?_
  refine (Cert.RowOps.shapeCast_a_a1_apply _ _ m 0).trans ?_
  refine (Cert.RowOps.rowSum_apply _ _ _ _ _ m).trans ?_
  refine Finset.sum_congr rfl fun d _ => ?_
  refine (mulf_apply _ _ _).trans ?_
  have h1 : l2nBlock (qBlock hcA Wp0 bp0 Wp1 bp1) (ix2 m d)
      = qn (mat Wp0) (vec bp0) (mat Wp1) (vec bp1) (mat hcA) m d := by
    have h := congrFun (congrFun (l2nBlock_mat (qBlock hcA Wp0 bp0 Wp1 bp1)) m) d
    rw [qBlock_mat] at h
    exact h
  rw [h1]
  rfl

end Cert.KernelIdeal.Val

end
-- ==== Proof.Val.V1.lean ====
import proofs.«412354_j76115410419855_2_alg».proof.Proof.KI.R1
import proofs.«412354_j76115410419855_2_alg».proof.Proof.Val.P12
import proofs.«412354_j76115410419855_2_alg».proof.Proof.Conv

noncomputable section

namespace Cert.KernelIdeal.Val

open Cert.KernelIdeal Cert.KernelIdeal.Gen Cert.KernelIdeal.Hand ClusterLoss
open Idealize.ShloMosaic Idealize.ShloMosaic.TcCoe Idealize.ShloMosaic.ValueIdx Idealize.SL.Sem

variable (V : (c : Dev nD) → (b : Ref sig .tc) → Buf (Elt Ideal) ((c : Thread nD τ).loc b))

theorem val1_hn (c : Dev nD) : mat ((Hand.dat1 V c).arrAt 6 cfg1.N) = hn (mat (V c main_v4_0)) := by
  rw [Hand.final1_6]
  exact pay1_2 (V c main_v4_0)

theorem val1_pos (c : Dev nD) : col ((Hand.dat1 V c).arrAt 7 cfg1.N)
    = posK (qn (mat (V c main_arg9)) (vec (V c main_arg10)) (mat (V c main_arg11)) (vec (V c main_arg12)) (mat (V c main_v4_0))) (mat (V c main_v4_1)) := by
  rw [Hand.final1_7]
  exact pay1_3 (V c main_v4_0) (V c main_v4_1) (V c main_arg9) (V c main_arg11) (V c main_arg10) (V c main_arg12)

end Cert.KernelIdeal.Val

end
-- ==== Proof.Val.V2.lean ====
import proofs.«412354_j76115410419855_2_alg».proof.Proof.KI.R2
import proofs.«412354_j76115410419855_2_alg».proof.Proof.Val.P12
import proofs.«412354_j76115410419855_2_alg».proof.Proof.Conv

set_option maxRecDepth 16384

noncomputable section

namespace Cert.KernelIdeal.Val

open Cert.KernelIdeal Cert.KernelIdeal.Gen ClusterLoss Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hand_ix2 {n m : Nat} (r : Fin n) (k : Fin m) : Hand.ix2 r k = ix2 r k := by
  funext a; match a with | ⟨0, _⟩ => rfl | ⟨1, _⟩ => rfl

theorem rows2_mat (a : Vec Ideal S2048x256 .f32) (q : Nat) (hq : q < 8) (r d : Fin 256) (i : Fin 2048)
    (h : i.val = q * 256 + r.val) : mat (Hand.rows2 a q hq) r d = mat a i d := by
  show a (Hand.ix2 _ _) = a (ix2 i d)
  rw [hand_ix2]
  congr 1
  funext x
  match x with
  | ⟨0, _⟩ => apply Fin.ext; show q * 256 + r.val = i.val; omega
  | ⟨1, _⟩ => rfl

theorem pay1_rows (a : Vec Ideal S2048x256 .f32) (i k : Fin 2048) (hq : i.val / 256 < 8) (hr : i.val % 256 < 256) :
    k2_pay1 (F := Ideal) (Hand.rows2 a (i.val / 256) hq) a (ix2 ⟨i.val % 256, hr⟩ k) = neg (mat a) i k := by
  rw [pay2_1]
  unfold neg
  congr 2
  refine Finset.sum_congr rfl fun d _ => ?_
  rw [rows2_mat a _ hq ⟨i.val % 256, hr⟩ d i (by show i.val = i.val / 256 * 256 + i.val % 256; omega)]

theorem val2_neg (c : Dev nD) : mat ((Hand.dat2 V c).arrAt 2 cfg2.N) = neg (mat (V c main_v5_0)) := by
  funext i j
  rw [Hand.final2_2]
  show k2_pay1 (F := Ideal) (Hand.rows2 (V c main_v5_0) (i.val / 256) _) (V c main_v5_0) (Hand.ix2 ⟨i.val % 256, _⟩ ⟨j.val, _⟩) = _
  rw [hand_ix2]
  exact pay1_rows (V c main_v5_0) i j _ _

theorem val2_rs (c : Dev nD) : col ((Hand.dat2 V c).arrAt 3 cfg2.N) = rs (neg (mat (V c main_v5_0))) := by
  funext i
  rw [Hand.final2_3]
  show k2_pay2 (F := Ideal) (Hand.rows2 (V c main_v5_0) (i.val / 256) _) (V c main_v5_0) (Hand.ix2 ⟨i.val % 256, _⟩ ⟨0, _⟩) = _
  rw [hand_ix2]
  refine (pay2_2 _ _ ⟨i.val % 256, Nat.mod_lt _ (by decide)⟩).trans ?_
  unfold rs
  exact Finset.sum_congr rfl fun k _ => pay1_rows (V c main_v5_0) i k _ _

end Cert.KernelIdeal.Val

end
-- ==== Proof.Val.P3.lean ====
import proofs.«412354_j76115410419855_2_alg».proof.Proof.Gen.KernelIdeal.Skeleton
import proofs.«412354_j76115410419855_2_alg».proof.Proof.Conv
import proofs.«412354_j76115410419855_2_alg».proof.Proof.LibPlainMatmul
import proofs.«412354_j76115410419855_2_alg».proof.Proof.LibRowOps
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen ClusterLoss Idealize.ShloMosaic Idealize.ShloMosaic.ValueIdx

theorem pay3_1 (a : Vec Ideal S1x1 .f32) : k3_pay1 (F := Ideal) a (ix2 0 0) = Ideal.div (a (ix2 0 0)) cnt := rfl

theorem pay3_2 : k3_pay2 (F := Ideal) (ix2 0 0) = 0 := by
  unfold k3_pay2
  exact (congrFun (shapeCast_self _ _) _).trans Ideal.ofBits_zero_f32

theorem P3.broadcastTo_1b_ab_apply {α : Type} {n m : ℕ} (hm : m ≠ 1) (v : (⟨2, ![1, m]⟩ : Shape).Idx → α)
    (h : (⟨2, ![1, m]⟩ : Shape).Broadcasts ⟨2, ![n, m]⟩) (r : Fin n) (k : Fin m) :
    broadcastTo ⟨2, ![n, m]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if m = 1 then 0 else k.val
    rw [if_neg hm]

def idxEquiv1ab {n m : ℕ} : (⟨3, ![1, n, m]⟩ : Shape).Idx ≃ Fin n × Fin m where
  toFun i := (i 1, i 2)
  invFun p := ix3 (0 : Fin 1) p.1 p.2
  left_inv i := by
    have h0 : i 0 = (0 : Fin 1) := Fin.ext (by have := (i 0).isLt; change (i 0).val < 1 at this; show (i 0).val = 0; omega)
    exact ((eq_ix3 i).trans (by rw [h0]; rfl)).symm
  right_inv _ := rfl

theorem sum_idx1ab {n m : ℕ} (f : (⟨3, ![1, n, m]⟩ : Shape).Idx → EReal) :
    ∑ i, f i = ∑ a : Fin n, ∑ b : Fin m, f (ix3 (0 : Fin 1) a b) := by
  rw [← Equiv.sum_comp (idxEquiv1ab (n := n) (m := m)).symm f, Fintype.sum_prod_type]
  rfl

theorem shapeCast_ab_1ab_apply {α : Type} {n m : ℕ} (x : (⟨2, ![n, m]⟩ : Shape).Idx → α)
    (h : (⟨2, ![n, m]⟩ : Shape).ShapeCasts ⟨3, ![1, n, m]⟩) (a : Fin n) (b : Fin m) :
    shapeCast ⟨3, ![1, n, m]⟩ x h (ix3 (0 : Fin 1) a b) = x (ix2 a b) := by
  refine (shapeCast_addUnit_apply ![n, m] x h (ix3 (0 : Fin 1) a b)).trans (congrArg x ?_)
  funext c
  match c with
  | ⟨0, _⟩ => rfl
  | ⟨1, _⟩ => rfl

theorem total3 (w : FVec Ideal S256x2048 .f32) (acc : FVec Ideal S1x1 .f32) :
    shapeCast S1x1 (addf acc (broadcast S1x1 (extractAt ![0, 0, 0]
      (shapeCast S1x1x1 (multiReduction .add [1, 2] S1 (shapeCast S1x256x2048 w shapeCasts_S256x2048_S1x256x2048) 0x00000000#32
        reduces_S1x256x2048_S1 (.inl rfl) rfl) shapeCasts_S1_S1x1x1) inpos_S1x1x1_p0_0_0))) shapeCasts_S1x1_S1x1 (ix2 0 0)
      = acc (ix2 0 0) + ∑ r : Fin 256, ∑ j : Fin 2048, w (ix2 r j) := by
  refine (congrFun (shapeCast_self _ _) _).trans ?_
  show acc (ix2 0 0) + _ = _
  congr 1
  show multiReduction .add [1, 2] S1 (shapeCast S1x256x2048 w shapeCasts_S256x2048_S1x256x2048) 0x00000000#32
        reduces_S1x256x2048_S1 (.inl rfl) rfl (Shape.reshapeEquiv shapeCasts_S1_S1x1x1 fun a => ⟨![0, 0, 0] a, inpos_S1x1x1_p0_0_0 a⟩) = _
  refine (Ideal.multiReduction_add_total _ _ reduces_S1x256x2048_S1 (fun b => ?_) _ _ _).trans ?_
  · match b with
    | ⟨0, _⟩ => rfl
  refine (sum_idx1ab _).trans ?_
  exact Finset.sum_congr rfl fun r _ => Finset.sum_congr rfl fun j _ => shapeCast_ab_1ab_apply w _ r j

theorem pay3_3 (sT : Vec Ideal S256x2048 .f32) (negA : Vec Ideal S2048x2048 .f32) (rsA : Vec Ideal S1x2048 .f32)
    (posT : Vec Ideal S256x1 .f32) (acc : Vec Ideal S1x1 .f32) :
    k3_pay3 (F := Ideal) sT negA rsA posT acc (ix2 0 0)
      = acc (ix2 0 0) + ∑ r : Fin 256, ∑ j : Fin 2048,
          (-(Ideal.log (col posT r + one * (∑ c : Fin 2048, mat sT r c * mat negA c j))) + Ideal.log (col posT r + row rsA j)) := by
  unfold k3_pay3
  refine (total3 _ acc).trans (congrArg _ (Finset.sum_congr rfl fun r _ => Finset.sum_congr rfl fun j _ => ?_))
  have e1 : broadcastTo S256x2048 (shapeCast S256x1 posT shapeCasts_S256x1_S256x1) broadcasts_S256x1_S256x2048 (ix2 r j) = col posT r :=
    (Cert.RowOps.broadcastTo_a1_ab_apply (by decide) _ _ r j).trans (congrFun (shapeCast_self posT _) _)
  have e2 : broadcastTo S256x2048 (shapeCast S1x2048 rsA shapeCasts_S1x2048_S1x2048) broadcasts_S1x2048_S256x2048 (ix2 r j) = row rsA j :=
    (P3.broadcastTo_1b_ab_apply (by decide) _ _ r j).trans (congrFun (shapeCast_self rsA _) _)
  have e3 : matmul (F := Ideal) (φ₁ := .f32) (φ₂ := .f32) dot_S256x2048_S2048x2048_S256x2048_1_0_0_1_n_n none
      (shapeCast S256x2048 sT shapeCasts_S256x2048_S256x2048 : FVec Ideal S256x2048 .f32)
      (shapeCast S2048x2048 negA shapeCasts_S2048x2048_S2048x2048 : FVec Ideal S2048x2048 .f32) (constant S256x2048 .f32 0x00000000#32) (ix2 r j)
        = ∑ c : Fin 2048, mat sT r c * mat negA c j := by
    rw [shapeCast_self, shapeCast_self]
    exact Cert.PlainMatmul.apply none sT negA r j
  show (Ideal.ofBits .f32 0x00000000#32 - Ideal.log (_ + Ideal.ofBits .f32 0x3F800000#32 * _)) + Ideal.log (_ + _) = _
  rw [e1, e2, e3, Ideal.ofBits_zero_f32, zero_sub]
  rfl

end Cert.KernelIdeal.Val

end
-- ==== Proof.Val.V3.lean ====
import proofs.«412354_j76115410419855_2_alg».proof.Proof.KI.R3
import proofs.«412354_j76115410419855_2_alg».proof.Proof.Val.P3
import proofs.«412354_j76115410419855_2_alg».proof.Proof.Conv
import Mathlib.Algebra.BigOperators.Fin
import Mathlib.Logic.Equiv.Fin.Basic
import Mathlib.Data.Fintype.BigOperators

noncomputable section

namespace Cert.KernelIdeal.Val

open Cert.KernelIdeal Cert.KernelIdeal.Gen ClusterLoss Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = 0 ∧ win3_1.index t 1 = 0 :=
  (by decide +kernel : ∀ t : Fin grid3.N, win3_1.index t 0 = 0 ∧ win3_1.index t 1 = 0)
theorem idx3_2 : ∀ t : Fin cfg3.N, win3_2.index t 0 = 0 ∧ win3_2.index t 1 = 0 :=
  (by decide +kernel : ∀ t : Fin grid3.N, win3_2.index t 0 = 0 ∧ win3_2.index t 1 = 0)
theorem idx3_3 : ∀ t : Fin cfg3.N, win3_3.index t 0 = t.val ∧ win3_3.index t 1 = 0 :=
  (by decide +kernel : ∀ t : Fin grid3.N, win3_3.index t 0 = t.val ∧ win3_3.index t 1 = 0)

theorem row_lt (t : Fin cfg3.N) (r : Fin 256) : 256 * t.val + r.val < 2048 := by
  have := Hand.N3_lt t.isLt; have := r.isLt; omega

theorem iblk0_apply (c : Dev nD) (t : Fin cfg3.N) (r : Fin 256) (k : Fin 2048) :
    mat (Hand.iblk3 V c 0 t) r k = mat (V c main_v14) ⟨256 * t.val + r.val, row_lt t r⟩ k := by
  obtain ⟨h0, h1⟩ := idx3_0 t
  unfold mat Hand.iblk3
  rw [View.read_apply]
  show V c main_v14 _ = V c main_v14 _
  congr 1
  funext a
  apply Fin.ext
  match a with
  | ⟨0, _⟩ => show win3_0.index t 0 * 256 + 1 * r.val = 256 * t.val + r.val; rw [h0]; omega
  | ⟨1, _⟩ => show win3_0.index t 1 * 2048 + 1 * k.val = k.val; rw [h1]; omega

theorem iblk1_apply (c : Dev nD) (t : Fin cfg3.N) (k j : Fin 2048) :
    mat (Hand.iblk3 V c 1 t) k j = mat (V c main_v6_0) k j := by
  obtain ⟨h0, h1⟩ := idx3_1 t
  unfold mat Hand.iblk3
  rw [View.read_apply]
  show V c main_v6_0 _ = V c main_v6_0 _
  congr 1
  funext a
  apply Fin.ext
  match a with
  | ⟨0, _⟩ => show win3_1.index t 0 * 2048 + 1 * k.val = k.val; rw [h0]; omega
  | ⟨1, _⟩ => show win3_1.index t 1 * 2048 + 1 * j.val = j.val; rw [h1]; omega

theorem iblk2_apply (c : Dev nD) (t : Fin cfg3.N) (j : Fin 2048) :
    row (Hand.iblk3 V c 2 t) j = row (V c main_v7) j := by
  obtain ⟨h0, h1⟩ := idx3_2 t
  unfold row Hand.iblk3
  rw [View.read_apply]
  show V c main_v7 _ = V c main_v7 _
  congr 1
  funext a
  apply Fin.ext
  match a with
  | ⟨0, _⟩ => show win3_2.index t 0 * 1 + 1 * 0 = 0; rw [h0]
  | ⟨1, _⟩ => show win3_2.index t 1 * 2048 + 1 * j.val = j.val; rw [h1]; omega

theorem iblk3_apply (c : Dev nD) (t : Fin cfg3.N) (r : Fin 256) :
    col (Hand.iblk3 V c 3 t) r = col (V c main_v5_1) ⟨256 * t.val + r.val, row_lt t r⟩ := by
  obtain ⟨h0, h1⟩ := idx3_3 t
  unfold col Hand.iblk3
  rw [View.read_apply]
  show V c main_v5_1 _ = V c main_v5_1 _
  congr 1
  funext a
  apply Fin.ext
  match a with
  | ⟨0, _⟩ => show win3_3.index t 0 * 256 + 1 * r.val = 256 * t.val + r.val; rw [h0]; omega
  | ⟨1, _⟩ => show win3_3.index t 1 * 1 + 1 * 0 = 0; rw [h1]

abbrev pos3 (c : Dev nD) : Fin 2048 → EReal := col (V c main_v5_1)
abbrev part3 (c : Dev nD) : Fin 2048 → Fin 2048 → EReal := fun i j => ∑ k : Fin 2048, mat (V c main_v14) i k * mat (V c main_v6_0) k j
abbrev rs3 (c : Dev nD) : Fin 2048 → EReal := row (V c main_v7)

abbrev rowsum3 (c : Dev nD) (i : Fin 2048) : EReal := ∑ j : Fin 2048, term (pos3 V c) (part3 V c) (rs3 V c) i j

abbrev blk3 (c : Dev nD) (t : Fin cfg3.N) : EReal := ∑ r : Fin 256, rowsum3 V c ⟨256 * t.val + r.val, row_lt t r⟩

theorem pay3_3_block (c : Dev nD) (t : Fin cfg3.N) (acc : Vec Ideal S1x1 .f32) :
    k3_pay3 (F := Ideal) (Hand.iblk3 V c 0 t) (Hand.iblk3 V c 1 t) (Hand.iblk3 V c 2 t) (Hand.iblk3 V c 3 t) acc (ix2 0 0)
      = acc (ix2 0 0) + blk3 V c t := by
  refine (pay3_3 _ _ _ _ _).trans (congrArg _ (Finset.sum_congr rfl fun r _ => Finset.sum_congr rfl fun j _ => ?_))
  unfold term
  rw [iblk3_apply V c t r, iblk2_apply V c t j]
  simp only [iblk0_apply V c t r, iblk1_apply V c t]

theorem acc3_val (c : Dev nD) : ∀ (n : ℕ) (hn : n < cfg3.N),
    Hand.acc3 V c n hn (ix2 0 0) = ∑ k : Fin (n + 1), blk3 V c ⟨k.val, lt_of_le_of_lt (Nat.lt_succ_iff.mp k.isLt) hn⟩
  | 0, hn => by
    rw [Hand.acc3_zero, pay3_3_block, pay3_2, zero_add, Fin.sum_univ_one]
    rfl
  | n + 1, hn => by
    rw [Hand.acc3_succ, pay3_3_block, acc3_val c n (Nat.lt_of_succ_lt hn)]
    conv_rhs => rw [Fin.sum_univ_castSucc]
    rfl

theorem sum_blocks (f : Fin 2048 → EReal) :
    ∑ i : Fin 2048, f i = ∑ t : Fin 8, ∑ r : Fin 256, f ⟨256 * t.val + r.val, by have := t.isLt; have := r.isLt; omega⟩ := by
  rw [← Equiv.sum_comp ((finProdFinEquiv (m := 8) (n := 256)).trans (finCongr (by norm_num : 8 * 256 = 2048))) f, Fintype.sum_prod_type]
  refine Finset.sum_congr rfl fun t _ => Finset.sum_congr rfl fun r _ => congrArg f (Fin.ext ?_)
  show r.val + 256 * t.val = 256 * t.val + r.val
  omega

theorem val3_loss (c : Dev nD) :
    (Hand.dat3 V c).arrAt 4 cfg3.N (ix2 0 0)
      = loss (col (V c main_v5_1)) (fun i j => ∑ k : Fin 2048, mat (V c main_v14) i k * mat (V c main_v6_0) k j) (row (V c main_v7)) := by
  rw [Hand.final3_4]
  show k3_pay1 (F := Ideal) (Hand.acc3 V c 7 Hand.seven_lt_N3) (ix2 0 0) = _
  rw [pay3_1, acc3_val]
  unfold loss
  congr 1
  rw [sum_blocks]

end Cert.KernelIdeal.Val

end
-- ==== Proof.Val.Kernel.lean ====
import proofs.«412354_j76115410419855_2_alg».proof.Proof.KI.Run
import proofs.«412354_j76115410419855_2_alg».proof.Proof.Conv
import proofs.«412354_j76115410419855_2_alg».proof.Proof.Val.HostRead
import proofs.«412354_j76115410419855_2_alg».proof.Proof.Val.Host
import proofs.«412354_j76115410419855_2_alg».proof.Proof.Val.V0
import proofs.«412354_j76115410419855_2_alg».proof.Proof.Val.V1
import proofs.«412354_j76115410419855_2_alg».proof.Proof.Val.V2
import proofs.«412354_j76115410419855_2_alg».proof.Proof.Val.V3

noncomputable section

namespace Cert.KernelIdeal.Val

open Cert.KernelIdeal Cert.KernelIdeal.Gen Cert.KernelIdeal.Hand ClusterLoss
open Idealize.ShloMosaic Idealize.ShloMosaic.TcCoe Idealize.ShloMosaic.ValueIdx Idealize.SL.Sem

def flatW (rowsW colsW : IVec S65536 32) : IVec S65536 32 :=
  addi (muli rowsW (broadcastInDim S65536 ![] bcast_S_S65536 (constantI S_ 32 2048#32))) colsW
def flatOf (rowsW colsW : IVec S65536 32) : Fin 65536 → ℤ := fun e => (flatW rowsW colsW (ix1 e)).toInt

variable (m : (ℓ : Loc nD τ sig) → Buf (Elt Ideal) ℓ) (c : Dev nD)

def HC : Fin 2048 → Fin 256 → EReal :=
  hc (mat (m ((c.tc : Thread nD τ).loc main_arg0))) (mat (m ((c.tc : Thread nD τ).loc main_arg1))) (vec (m ((c.tc : Thread nD τ).loc main_arg2)))
    (mat (m ((c.tc : Thread nD τ).loc main_arg3))) (vec (m ((c.tc : Thread nD τ).loc main_arg4)))
    (vec (m ((c.tc : Thread nD τ).loc main_arg13))) (ints (m ((c.tc : Thread nD τ).loc main_arg15)))
def VNC : Fin 2048 → Fin 256 → EReal :=
  vnc (mat (m ((c.tc : Thread nD τ).loc main_arg0))) (mat (m ((c.tc : Thread nD τ).loc main_arg5))) (vec (m ((c.tc : Thread nD τ).loc main_arg6)))
    (mat (m ((c.tc : Thread nD τ).loc main_arg7))) (vec (m ((c.tc : Thread nD τ).loc main_arg8)))
    (vec (m ((c.tc : Thread nD τ).loc main_arg13))) (ints (m ((c.tc : Thread nD τ).loc main_arg15)))
def POS : Fin 2048 → EReal :=
  posK (qn (mat (m ((c.tc : Thread nD τ).loc main_arg9))) (vec (m ((c.tc : Thread nD τ).loc main_arg10)))
    (mat (m ((c.tc : Thread nD τ).loc main_arg11))) (vec (m ((c.tc : Thread nD τ).loc main_arg12))) (HC m c)) (VNC m c)
def NEG : Fin 2048 → Fin 2048 → EReal := neg (hn (HC m c))

theorem at1_arg (r : Ref sig .tc) (h : r ∉ hostOps0_W) : Hand.V1 (F := Ideal) m c r = m ((c.tc : Thread nD τ).loc r) :=
  (W1_of m c r h).trans rfl

theorem at1_v0 : mat (Hand.V1 (F := Ideal) m c main_v0) = mat (m ((c.tc : Thread nD τ).loc main_arg1)) :=
  congrArg mat (after0_v0 (W0 m c))
theorem at1_v1 : mat (Hand.V1 (F := Ideal) m c main_v1) = mat (m ((c.tc : Thread nD τ).loc main_arg5)) :=
  congrArg mat (after0_v1 (W0 m c))

theorem at1_v2 : icol (Hand.V1 (F := Ideal) m c main_v2) = ints (m ((c.tc : Thread nD τ).loc main_arg15)) := by
  funext n
  show (Hand.V1 (F := Ideal) m c main_v2 (ValueIdx.ix2 n 0)).toInt = _
  rw [show Hand.V1 (F := Ideal) m c main_v2 = _ from after0_v2 (W0 m c)]
  exact congrArg BitVec.toInt (col_of_vec _ n)

theorem at1_v3 : col (Hand.V1 (F := Ideal) m c main_v3) = vec (m ((c.tc : Thread nD τ).loc main_arg13)) := by
  funext n
  show Hand.V1 (F := Ideal) m c main_v3 (ValueIdx.ix2 n 0) = _
  rw [show Hand.V1 (F := Ideal) m c main_v3 = _ from after0_v3 (W0 m c)]
  exact col_of_vec _ n

theorem at2_arg (r : Ref sig .tc) (h0 : r ∉ hostOps0_W)
    (k0 : ∀ w, Pipeline.arrRef spec0 w = r → (cfg0.win w).isOut = false) :
    Hand.V2 (F := Ideal) m c r = m ((c.tc : Thread nD τ).loc r) :=
  (W2_keep m c r k0).trans (at1_arg m c r h0)

theorem at2_hc : mat (Hand.V2 (F := Ideal) m c main_v4_0) = HC m c := by
  have h := val0_hc (Hand.V1 (F := Ideal) m) c
  rw [at1_v0, at1_v2, at1_v3, at1_arg m c main_arg0 (by decide), at1_arg m c main_arg2 (by decide),
    at1_arg m c main_arg3 (by decide), at1_arg m c main_arg4 (by decide)] at h
  exact (congrArg mat (W2_arr m c 11)).trans h

theorem at2_vnc : mat (Hand.V2 (F := Ideal) m c main_v4_1) = VNC m c := by
  have h := val0_vnc (Hand.V1 (F := Ideal) m) c
  rw [at1_v1, at1_v2, at1_v3, at1_arg m c main_arg0 (by decide), at1_arg m c main_arg6 (by decide),
    at1_arg m c main_arg7 (by decide), at1_arg m c main_arg8 (by decide)] at h
  exact (congrArg mat (W2_arr m c 12)).trans h

theorem at3_hn : mat (Hand.V3 (F := Ideal) m c main_v5_0) = hn (HC m c) := by
  have h := val1_hn (Hand.V2 (F := Ideal) m) c
  rw [at2_hc] at h
  exact (congrArg mat (W3_arr m c 6)).trans h

theorem at3_pos : col (Hand.V3 (F := Ideal) m c main_v5_1) = POS m c := by
  have h := val1_pos (Hand.V2 (F := Ideal) m) c
  rw [at2_hc, at2_vnc, at2_arg m c main_arg9 (by decide) (by decide), at2_arg m c main_arg10 (by decide) (by decide),
    at2_arg m c main_arg11 (by decide) (by decide), at2_arg m c main_arg12 (by decide) (by decide)] at h
  exact (congrArg col (W3_arr m c 7)).trans h

theorem at3_arg (r : Ref sig .tc) (h0 : r ∉ hostOps0_W)
    (k0 : ∀ w, Pipeline.arrRef spec0 w = r → (cfg0.win w).isOut = false)
    (k1 : ∀ w, Pipeline.arrRef spec1 w = r → (cfg1.win w).isOut = false) :
    Hand.V3 (F := Ideal) m c r = m ((c.tc : Thread nD τ).loc r) :=
  (W3_keep m c r k1).trans (at2_arg m c r h0 k0)

theorem at4_neg : mat (Hand.V4 (F := Ideal) m c main_v6_0) = NEG m c := by
  have h := val2_neg (Hand.V3 (F := Ideal) m) c
  rw [at3_hn] at h
  exact (congrArg mat (W4_v6_0 m c)).trans h

theorem at4_rs : col (Hand.V4 (F := Ideal) m c main_v6_1) = rs (NEG m c) := by
  have h := val2_rs (Hand.V3 (F := Ideal) m) c
  rw [at3_hn] at h
  exact (congrArg col (W4_v6_1 m c)).trans h

theorem at4_pos : col (Hand.V4 (F := Ideal) m c main_v5_1) = POS m c :=
  (congrArg col (W4_of m c main_v5_1 (by decide))).trans (at3_pos m c)

theorem at4_arg (r : Ref sig .tc) (h0 : r ∉ hostOps0_W)
    (k0 : ∀ w, Pipeline.arrRef spec0 w = r → (cfg0.win w).isOut = false)
    (k1 : ∀ w, Pipeline.arrRef spec1 w = r → (cfg1.win w).isOut = false)
    (k2 : r ∉ ([main_v6_0, main_v6_1] : List (Ref sig .tc))) :
    Hand.V4 (F := Ideal) m c r = m ((c.tc : Thread nD τ).loc r) :=
  (W4_of m c r k2).trans (at3_arg m c r h0 k0 k1)

theorem at5_pos : col (Hand.V5 (F := Ideal) m c main_v5_1) = POS m c :=
  (congrArg col (W5_of m c main_v5_1 (by decide))).trans (at4_pos m c)

theorem at5_neg : mat (Hand.V5 (F := Ideal) m c main_v6_0) = NEG m c :=
  (congrArg mat (W5_of m c main_v6_0 (by decide))).trans (at4_neg m c)

theorem at5_rs : row (Hand.V5 (F := Ideal) m c main_v7) = rs (NEG m c) := by
  funext j
  show Hand.V5 (F := Ideal) m c main_v7 (ValueIdx.ix2 0 j) = _
  rw [show Hand.V5 (F := Ideal) m c main_v7 = _ from after3_v7 (W4 m c)]
  refine (row_of_col _ j).trans ?_
  exact congrFun (at4_rs m c) j

theorem at5_coef : mat (Hand.V5 (F := Ideal) m c main_v14)
    = coef (vec (m ((c.tc : Thread nD τ).loc main_arg14)))
        (flatOf (m ((c.tc : Thread nD τ).loc main_arg16)) (m ((c.tc : Thread nD τ).loc main_arg17))) := by
  have e14 : W4 (F := Ideal) m c main_arg14 = m ((c.tc : Thread nD τ).loc main_arg14) :=
    at4_arg m c main_arg14 (by decide) (by decide) (by decide) (by decide)
  have e16 : W4 (F := Ideal) m c main_arg16 = m ((c.tc : Thread nD τ).loc main_arg16) :=
    at4_arg m c main_arg16 (by decide) (by decide) (by decide) (by decide)
  have e17 : W4 (F := Ideal) m c main_arg17 = m ((c.tc : Thread nD τ).loc main_arg17) :=
    at4_arg m c main_arg17 (by decide) (by decide) (by decide) (by decide)
  refine (congrArg mat (after3_v14 (W4 m c))).trans ?_
  rw [e14, e16, e17]
  exact coef_eq _ _

theorem at6_loss : Hand.V6 (F := Ideal) m c main_v15 (ValueIdx.ix2 0 0)
    = loss (POS m c)
        (partK (vec (m ((c.tc : Thread nD τ).loc main_arg14)))
          (flatOf (m ((c.tc : Thread nD τ).loc main_arg16)) (m ((c.tc : Thread nD τ).loc main_arg17))) (NEG m c))
        (rs (NEG m c)) := by
  have h := val3_loss (Hand.V5 (F := Ideal) m) c
  rw [at5_pos, at5_neg, at5_rs, at5_coef] at h
  exact (congrFun (W6_arr m c 4) (ValueIdx.ix2 0 0)).trans h

theorem at7_result : scal (W7 (F := Ideal) m c main_v16) = Hand.V6 (F := Ideal) m c main_v15 (ValueIdx.ix2 0 0) := by
  show W7 (F := Ideal) m c main_v16 ix0 = _
  rw [show W7 (F := Ideal) m c main_v16 = _ from after4_v16 (W6 m c)]
  exact scal_of_11 _

theorem kernel_value (m : (ℓ : Loc nD τ sig) → Buf (Elt Ideal) ℓ) (c : Dev nD) :
    scal (W7 (F := Ideal) m c main_v16)
      = lossK (mat (m ((c.tc : Thread nD τ).loc main_arg0))) (mat (m ((c.tc : Thread nD τ).loc main_arg1))) (vec (m ((c.tc : Thread nD τ).loc main_arg2)))
          (mat (m ((c.tc : Thread nD τ).loc main_arg3))) (vec (m ((c.tc : Thread nD τ).loc main_arg4)))
          (mat (m ((c.tc : Thread nD τ).loc main_arg5))) (vec (m ((c.tc : Thread nD τ).loc main_arg6)))
          (mat (m ((c.tc : Thread nD τ).loc main_arg7))) (vec (m ((c.tc : Thread nD τ).loc main_arg8)))
          (mat (m ((c.tc : Thread nD τ).loc main_arg9))) (vec (m ((c.tc : Thread nD τ).loc main_arg10)))
          (mat (m ((c.tc : Thread nD τ).loc main_arg11))) (vec (m ((c.tc : Thread nD τ).loc main_arg12)))
          (vec (m ((c.tc : Thread nD τ).loc main_arg13))) (vec (m ((c.tc : Thread nD τ).loc main_arg14)))
          (ints (m ((c.tc : Thread nD τ).loc main_arg15)))
          (flatOf (m ((c.tc : Thread nD τ).loc main_arg16)) (m ((c.tc : Thread nD τ).loc main_arg17))) :=
  (at7_result m c).trans ((at6_loss m c).trans rfl)

end Cert.KernelIdeal.Val

end
-- ==== Proof.LibGatherRows.lean ====
import Idealize.ShloMosaic.PureOps
import Idealize.ShloMosaic.Lib.ValueIdx

namespace Idealize.ShloMosaic.GatherRows

open Idealize.ShloMosaic Idealize.ShloMosaic.ValueIdx

variable {α : Type}

abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.Ref.Value.lean ====
import proofs.«412354_j76115410419855_2_alg».proof.Proof.Gen.ReferenceIdeal.Run
import proofs.«412354_j76115410419855_2_alg».proof.Proof.Gen.ReferenceIdeal.Read
import proofs.«412354_j76115410419855_2_alg».proof.Proof.Conv
import proofs.«412354_j76115410419855_2_alg».proof.Proof.LibScatterAddRows
import proofs.«412354_j76115410419855_2_alg».proof.Proof.LibGatherRows

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read ClusterLoss

variable (x0 : (⟨S100000x512, .f32⟩ : BufTy).Contents (Elt Ideal)) (x1 : (⟨S512x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S512x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S256x256, .f32⟩ : BufTy).Contents (Elt Ideal))
  (x10 : (⟨S256, .f32⟩ : BufTy).Contents (Elt Ideal)) (x11 : (⟨S256x256, .f32⟩ : BufTy).Contents (Elt Ideal))
  (x12 : (⟨S256, .f32⟩ : BufTy).Contents (Elt Ideal)) (x13 : (⟨S100000, .f32⟩ : BufTy).Contents (Elt Ideal))
  (x14 : (⟨S65536, .f32⟩ : BufTy).Contents (Elt Ideal)) (x15 : (⟨S100000, .i32⟩ : BufTy).Contents (Elt Ideal))
  (x16 x17 : (⟨S65536, .i32⟩ : BufTy).Contents (Elt Ideal))

local notation "Hs" => ClusterLoss.h (mat x0) (mat x1) (vec x2) (mat x3) (vec x4)
local notation "HCs" => ClusterLoss.hc (mat x0) (mat x1) (vec x2) (mat x3) (vec x4) (vec x13) (ints x15)
local notation "Vs" => ClusterLoss.v (mat x0) (mat x5) (vec x6) (mat x7) (vec x8)
local notation "VNs" => ClusterLoss.vn (mat x0) (mat x5) (vec x6) (mat x7) (vec x8)
local notation "Qs" => ClusterLoss.q (mat x9) (vec x10) (mat x11) (vec x12) HCs
local notation "QNs" => ClusterLoss.qn (mat x9) (vec x10) (mat x11) (vec x12) HCs
local notation "HNs" => ClusterLoss.hn HCs
local notation "NEGs" => ClusterLoss.neg HNs

theorem lidx_v0 (r : Fin 100000) (c : Fin 256) (k : Fin 512) : lidx_main_v0 (ix2 r c) k = ix2 r k := eq_ix2 _
theorem ridx_v0 (r : Fin 100000) (c : Fin 256) (k : Fin 512) : ridx_main_v0 (ix2 r c) k = ix2 k c := eq_ix2 _
theorem idx_v1 (r : Fin 1) (c : Fin 256) : idx_main_v1 (ix2 r c) = ix1 c := eq_ix1 _
theorem idx_v2 (r : Fin 100000) (c : Fin 256) : idx_main_v2 (ix2 r c) = ix2 0 c := eq_ix2 _
theorem lidx_v4 (r : Fin 100000) (c : Fin 256) (k : Fin 256) : lidx_main_v4 (ix2 r c) k = ix2 r k := eq_ix2 _
theorem ridx_v4 (r : Fin 100000) (c : Fin 256) (k : Fin 256) : ridx_main_v4 (ix2 r c) k = ix2 k c := eq_ix2 _
theorem idx_v5 (r : Fin 1) (c : Fin 256) : idx_main_v5 (ix2 r c) = ix1 c := eq_ix1 _
theorem idx_v6 (r : Fin 100000) (c : Fin 256) : idx_main_v6 (ix2 r c) = ix2 0 c := eq_ix2 _
theorem idx_v8 (r : Fin 100000) (c : Fin 1) : idx_main_v8 (ix2 r c) = ix1 r := eq_ix1 _
theorem idx_v9 (r : Fin 100000) (c : Fin 256) : idx_main_v9 (ix2 r c) = ix2 r 0 := eq_ix2 _
theorem idx_v12 (r : Fin 100000) (c : Fin 1) : idx_main_v12 (ix2 r c) = ix1 r := eq_ix1 _

theorem v3_eq (r : Fin 100000) (c : Fin 256) :
    val_main_v3 (F := Ideal) x0 x1 x2 (ix2 r c) = lin (mat x0) (mat x1) (vec x2) r c := by
  rw [val_main_v3_apply, val_main_v0_apply, val_main_v2_apply, idx_v2, val_main_v1_apply, idx_v1]
  simp only [lidx_v0, ridx_v0, Ideal.addf_def]
  rfl

theorem v7_eq (r : Fin 100000) (c : Fin 256) :
    val_main_v7 (F := Ideal) x0 x1 x2 x3 x4 (ix2 r c) = Hs r c := by
  rw [val_main_v7_apply, val_main_v4_apply, val_main_v6_apply, idx_v6, val_main_v5_apply, idx_v5]
  simp only [lidx_v4, ridx_v4, v3_eq, Ideal.addf_def]
  rfl

theorem v10_eq (r : Fin 100000) (c : Fin 256) :
    val_main_v10 (F := Ideal) x0 x1 x2 x3 x4 x13 (ix2 r c) = vec x13 r * Hs r c := by
  rw [val_main_v10_apply, val_main_v9_apply, idx_v9, val_main_v8_apply, idx_v8, v7_eq, Ideal.mulf_def]
  rfl

theorem v13_eq (m : Fin 2048) (c : Fin 256) :
    val_main_v13 (F := Ideal) x0 x1 x2 x3 x4 x13 x15 (ix2 m c) = HCs m c := by
  unfold val_main_v13 Host.scatterAdd
  rw [Ideal.hostScatterAdd_def]
  show Ideal.hostScatterAdd (ScatterAddRows.rowDims 2048 256 100000 Facts₀.scatter_S2048x256_S100000x1_S100000x256_1_0_0_1_wf) _ _ _ (ix2 m c) = _
  rw [ScatterAddRows.scatterAdd_rows_apply, val_main_v11_apply, val_main_cst_apply, Ideal.ofBits_def, Ideal.ofBits_zero_f32, zero_add]
  simp only [val_main_v12_apply, idx_v12, v10_eq]
  rfl

theorem lidx_v14 (r : Fin 100000) (c : Fin 256) (k : Fin 512) : lidx_main_v14 (ix2 r c) k = ix2 r k := eq_ix2 _
theorem ridx_v14 (r : Fin 100000) (c : Fin 256) (k : Fin 512) : ridx_main_v14 (ix2 r c) k = ix2 k c := eq_ix2 _
theorem idx_v15 (r : Fin 1) (c : Fin 256) : idx_main_v15 (ix2 r c) = ix1 c := eq_ix1 _
theorem idx_v16 (r : Fin 100000) (c : Fin 256) : idx_main_v16 (ix2 r c) = ix2 0 c := eq_ix2 _
theorem lidx_v18 (r : Fin 100000) (c : Fin 256) (k : Fin 256) : lidx_main_v18 (ix2 r c) k = ix2 r k := eq_ix2 _
theorem ridx_v18 (r : Fin 100000) (c : Fin 256) (k : Fin 256) : ridx_main_v18 (ix2 r c) k = ix2 k c := eq_ix2 _
theorem idx_v19 (r : Fin 1) (c : Fin 256) : idx_main_v19 (ix2 r c) = ix1 c := eq_ix1 _
theorem idx_v20 (r : Fin 100000) (c : Fin 256) : idx_main_v20 (ix2 r c) = ix2 0 c := eq_ix2 _

theorem v17_eq (r : Fin 100000) (c : Fin 256) :
    val_main_v17 (F := Ideal) x0 x5 x6 (ix2 r c) = lin (mat x0) (mat x5) (vec x6) r c := by
  rw [val_main_v17_apply, val_main_v14_apply, val_main_v16_apply, idx_v16, val_main_v15_apply, idx_v15]
  simp only [lidx_v14, ridx_v14, Ideal.addf_def]
  rfl

theorem v21_eq (r : Fin 100000) (c : Fin 256) :
    val_main_v21 (F := Ideal) x0 x5 x6 x7 x8 (ix2 r c) = Vs r c := by
  rw [val_main_v21_apply, val_main_v18_apply, val_main_v20_apply, idx_v20, val_main_v19_apply, idx_v19]
  simp only [lidx_v18, ridx_v18, v17_eq, Ideal.addf_def]
  rfl

theorem lidx_v22 (r : Fin 2048) (c : Fin 256) (k : Fin 256) : lidx_main_v22 (ix2 r c) k = ix2 r k := eq_ix2 _
theorem ridx_v22 (r : Fin 2048) (c : Fin 256) (k : Fin 256) : ridx_main_v22 (ix2 r c) k = ix2 k c := eq_ix2 _
theorem idx_v23 (r : Fin 1) (c : Fin 256) : idx_main_v23 (ix2 r c) = ix1 c := eq_ix1 _
theorem idx_v24 (r : Fin 2048) (c : Fin 256) : idx_main_v24 (ix2 r c) = ix2 0 c := eq_ix2 _
theorem lidx_v27 (r : Fin 2048) (c : Fin 256) (k : Fin 256) : lidx_main_v27 (ix2 r c) k = ix2 r k := eq_ix2 _
theorem ridx_v27 (r : Fin 2048) (c : Fin 256) (k : Fin 256) : ridx_main_v27 (ix2 r c) k = ix2 k c := eq_ix2 _
theorem idx_v28 (r : Fin 1) (c : Fin 256) : idx_main_v28 (ix2 r c) = ix1 c := eq_ix1 _
theorem idx_v29 (r : Fin 2048) (c : Fin 256) : idx_main_v29 (ix2 r c) = ix2 0 c := eq_ix2 _

theorem v26_eq (m : Fin 2048) (c : Fin 256) :
    val_main_v26 (F := Ideal) x0 x1 x2 x3 x4 x9 x10 x13 x15 (ix2 m c) = max (lin HCs (mat x9) (vec x10) m c) 0 := by
  rw [val_main_v26_apply, val_main_v25_apply, val_main_v22_apply, val_main_v24_apply, idx_v24, val_main_v23_apply, idx_v23,
    val_main_call0_v0_apply, val_main_call0_cst_apply, Ideal.ofBits_def, Ideal.ofBits_zero_f32]
  simp only [lidx_v22, ridx_v22, v13_eq, Ideal.addf_def, Ideal.maximumf_def]
  rfl

theorem v30_eq (m : Fin 2048) (c : Fin 256) :
    val_main_v30 (F := Ideal) x0 x1 x2 x3 x4 x9 x10 x11 x12 x13 x15 (ix2 m c) = Qs m c := by
  rw [val_main_v30_apply, val_main_v27_apply, val_main_v29_apply, idx_v29, val_main_v28_apply, idx_v28]
  simp only [lidx_v27, ridx_v27, v26_eq, Ideal.addf_def]
  rfl

theorem idx_call1_v1 (r : Fin 2048) (k : Fin 256) : idx_main_call1_v1 (ix1 r) k = ix2 r k := eq_ix2 _
theorem idx_call1_v2 (r : Fin 2048) (c : Fin 1) : idx_main_call1_v2 (ix2 r c) = ix1 r := eq_ix1 _
theorem idx_v34 (r : Fin 2048) (c : Fin 256) : idx_main_v34 (ix2 r c) = ix2 r 0 := eq_ix2 _

theorem v33_eq (m : Fin 2048) (u : Fin 1) :
    val_main_v33 (F := Ideal) x0 x1 x2 x3 x4 x9 x10 x11 x12 x13 x15 (ix2 m u) = rownorm Qs m := by
  rw [val_main_v33_apply, val_main_v31_apply, val_main_call1_v2_apply, idx_call1_v2, val_main_call1_v1_apply,
    val_main_call1_cst_apply, val_main_v32_apply, val_main_cst_0_apply, Ideal.ofBits_def, Ideal.ofBits_def,
    Ideal.ofBits_zero_f32, zero_add]
  simp only [idx_call1_v1, val_main_call1_v0_apply, v30_eq, Ideal.mulf_def, Ideal.maximumf_def, Ideal.hostUnary_sqrt_def]
  rfl

theorem v35_eq (m : Fin 2048) (c : Fin 256) :
    val_main_v35 (F := Ideal) x0 x1 x2 x3 x4 x9 x10 x11 x12 x13 x15 (ix2 m c) = QNs m c := by
  rw [val_main_v35_apply, val_main_v34_apply, idx_v34, v33_eq, v30_eq, Ideal.hostDivf_def]
  rfl

theorem idx_call2_v1 (r : Fin 100000) (k : Fin 256) : idx_main_call2_v1 (ix1 r) k = ix2 r k := eq_ix2 _
theorem idx_call2_v2 (r : Fin 100000) (c : Fin 1) : idx_main_call2_v2 (ix2 r c) = ix1 r := eq_ix1 _
theorem idx_v39 (r : Fin 100000) (c : Fin 256) : idx_main_v39 (ix2 r c) = ix2 r 0 := eq_ix2 _

theorem v38_eq (n : Fin 100000) (u : Fin 1) :
    val_main_v38 (F := Ideal) x0 x5 x6 x7 x8 (ix2 n u) = rownorm Vs n := by
  rw [val_main_v38_apply, val_main_v36_apply, val_main_call2_v2_apply, idx_call2_v2, val_main_call2_v1_apply,
    val_main_call2_cst_apply, val_main_v37_apply, val_main_cst_1_apply, Ideal.ofBits_def, Ideal.ofBits_def,
    Ideal.ofBits_zero_f32, zero_add]
  simp only [idx_call2_v1, val_main_call2_v0_apply, v21_eq, Ideal.mulf_def, Ideal.maximumf_def, Ideal.hostUnary_sqrt_def]
  rfl

theorem v40_eq (n : Fin 100000) (c : Fin 256) :
    val_main_v40 (F := Ideal) x0 x5 x6 x7 x8 (ix2 n c) = VNs n c := by
  rw [val_main_v40_apply, val_main_v39_apply, idx_v39, v38_eq, v21_eq, Ideal.hostDivf_def]
  rfl

def wrap (w : BitVec 32) : BitVec 32 := Scalar.select (IntOp.cmpi .slt w 0#32) (IntOp.addi w 2048#32) w

theorem wrap_of_nonneg (w : BitVec 32) (h : 0 ≤ w.toInt) : wrap w = w := by
  unfold wrap Scalar.select
  refine if_neg fun hc => ?_
  have hlt : w.toInt < (0#32 : BitVec 32).toInt := IntOp.cmpi_slt.mp hc
  have h0 : (0#32 : BitVec 32).toInt = 0 := by decide
  omega

def gq (pa : IVec S100000 32) : Fin 100000 → Fin 2048 :=
  fun n => ⟨min (wrap (pa (ix1 n))).toInt.toNat (2048 - 1), by omega⟩

def gcol (cc : IVec S65536 32) : Fin 65536 → Fin 2048 :=
  fun e => ⟨min (wrap (cc (ix1 e))).toInt.toNat (2048 - 1), by omega⟩

theorem gq_spec (pa : IVec S100000 32) : ∀ n (m : Fin 2048), ClusterLoss.ints pa n = (m.val : ℤ) → gq pa n = m := by
  intro n m h
  have h' : (pa (ix1 n)).toInt = (m.val : ℤ) := h
  apply Fin.ext
  show min (wrap (pa (ix1 n))).toInt.toNat (2048 - 1) = m.val
  rw [wrap_of_nonneg _ (by omega), h']
  have := m.isLt
  omega

theorem gcol_spec (cc : IVec S65536 32) (hcc : ∀ e, 0 ≤ ClusterLoss.ints cc e ∧ ClusterLoss.ints cc e < 2048) :
    ∀ e, ((gcol cc e).val : ℤ) = ClusterLoss.ints cc e := by
  intro e
  have h0 : 0 ≤ (cc (ix1 e)).toInt := (hcc e).1
  have h1 : (cc (ix1 e)).toInt < 2048 := (hcc e).2
  show ((min (wrap (cc (ix1 e))).toInt.toNat (2048 - 1) : ℕ) : ℤ) = (cc (ix1 e)).toInt
  rw [wrap_of_nonneg _ h0]
  omega

theorem idx_v46 (r : Fin 100000) (c : Fin 1) : idx_main_v46 (ix2 r c) = ix1 r := eq_ix1 _
theorem idx_v49 (r : Fin 100000) (k : Fin 256) : idx_main_v49 (ix1 r) k = ix2 r k := eq_ix2 _
theorem idx_v54 (r : Fin 100000) (c : Fin 1) : idx_main_v54 (ix2 r c) = ix1 r := eq_ix1 _
theorem idx_v57 (r : Fin 2048) (c : Fin 1) : idx_main_v57 (ix2 r c) = ix1 r := eq_ix1 _

theorem v46_eq (n : Fin 100000) (u : Fin 1) : val_main_v46 (F := Ideal) x15 (ix2 n u) = wrap (x15 (ix1 n)) := by
  rw [val_main_v46_apply, idx_v46, val_main_v45_apply, val_main_v42_apply, val_main_v44_apply, val_main_v41_apply,
    val_main_c_apply, val_main_v43_apply, val_main_c_2_apply]
  rfl

theorem v47_eq (n : Fin 100000) (c : Fin 256) :
    val_main_v47 (F := Ideal) x0 x1 x2 x3 x4 x9 x10 x11 x12 x13 x15 (ix2 n c) = QNs (gq x15 n) c := by
  unfold val_main_v47
  show Host.gather (GatherRows.rowDims 2048 256 100000 Facts₀.gather_S2048x256_S100000x1_S100000x256_1_0_n_n_0_1_1256_wf) _ _ (ix2 n c) = _
  rw [GatherRows.gather_rows_apply (by decide : 0 < 2048), v35_eq]
  refine congrArg (fun t => QNs t c) (Fin.ext ?_)
  show min ((val_main_v46 (F := Ideal) x15) (ix2 n ⟨0, Nat.one_pos⟩)).toInt.toNat (2048 - 1) = _
  rw [v46_eq]
  rfl

theorem v52_eq (n : Fin 100000) :
    val_main_v52 (F := Ideal) x0 x1 x2 x3 x4 x5 x6 x7 x8 x9 x10 x11 x12 x13 x15 (ix1 n)
      = vec x13 n * Ideal.div (∑ d, VNs n d * QNs (gq x15 n) d) half := by
  rw [val_main_v52_apply, val_main_v51_apply, val_main_v49_apply, val_main_cst_3_apply, val_main_v50_apply, val_main_cst_4_apply,
    Ideal.ofBits_def, Ideal.ofBits_def, Ideal.ofBits_zero_f32, zero_add]
  simp only [idx_v49, val_main_v48_apply, v40_eq, v47_eq, Ideal.mulf_def, Ideal.hostDivf_def]
  rfl

theorem v55_eq (m : Fin 2048) :
    val_main_v55 (F := Ideal) x0 x1 x2 x3 x4 x5 x6 x7 x8 x9 x10 x11 x12 x13 x15 (ix1 m)
      = ∑ n, if ints x15 n = (m.val : ℤ) then vec x13 n * Ideal.div (∑ d, VNs n d * QNs (gq x15 n) d) half else 0 := by
  unfold val_main_v55 Host.scatterAdd
  rw [Ideal.hostScatterAdd_def]
  show Ideal.hostScatterAdd (ScatterAddRows.entryDims 2048 100000 Facts₀.scatter_S2048_S100000x1_S100000_n_0_0_1_wf) _ _ _ (ix1 m) = _
  rw [ScatterAddRows.scatterAdd_entries_apply, val_main_v53_apply, val_main_cst_5_apply, Ideal.ofBits_def, Ideal.ofBits_zero_f32, zero_add]
  simp only [val_main_v54_apply, idx_v54, v52_eq]
  rfl

local notation "POSs" => ClusterLoss.posR (vec x13) (ints x15) QNs VNs (gq x15)

theorem v57_eq (m : Fin 2048) (u : Fin 1) :
    val_main_v57 (F := Ideal) x0 x1 x2 x3 x4 x5 x6 x7 x8 x9 x10 x11 x12 x13 x15 (ix2 m u) = POSs m := by
  rw [val_main_v57_apply, idx_v57, val_main_v56_apply, v55_eq, Ideal.hostUnary_exp_def]
  rfl

theorem idx_call3_v1 (r : Fin 2048) (k : Fin 256) : idx_main_call3_v1 (ix1 r) k = ix2 r k := eq_ix2 _
theorem idx_call3_v2 (r : Fin 2048) (c : Fin 1) : idx_main_call3_v2 (ix2 r c) = ix1 r := eq_ix1 _
theorem idx_v61 (r : Fin 2048) (c : Fin 256) : idx_main_v61 (ix2 r c) = ix2 r 0 := eq_ix2 _
theorem idx_v63 (r : Fin 256) (c : Fin 2048) : idx_main_v63 (ix2 r c) = ix2 c r := eq_ix2 _
theorem lidx_v64 (r : Fin 2048) (c : Fin 2048) (k : Fin 256) : lidx_main_v64 (ix2 r c) k = ix2 r k := eq_ix2 _
theorem ridx_v64 (r : Fin 2048) (c : Fin 2048) (k : Fin 256) : ridx_main_v64 (ix2 r c) k = ix2 k c := eq_ix2 _

theorem v60_eq (m : Fin 2048) (u : Fin 1) :
    val_main_v60 (F := Ideal) x0 x1 x2 x3 x4 x13 x15 (ix2 m u) = rownorm HCs m := by
  rw [val_main_v60_apply, val_main_v58_apply, val_main_call3_v2_apply, idx_call3_v2, val_main_call3_v1_apply,
    val_main_call3_cst_apply, val_main_v59_apply, val_main_cst_6_apply, Ideal.ofBits_def, Ideal.ofBits_def,
    Ideal.ofBits_zero_f32, zero_add]
  simp only [idx_call3_v1, val_main_call3_v0_apply, v13_eq, Ideal.mulf_def, Ideal.maximumf_def, Ideal.hostUnary_sqrt_def]
  rfl

theorem v62_eq (m : Fin 2048) (c : Fin 256) :
    val_main_v62 (F := Ideal) x0 x1 x2 x3 x4 x13 x15 (ix2 m c) = HNs m c := by
  rw [val_main_v62_apply, val_main_v61_apply, idx_v61, v60_eq, v13_eq, Ideal.hostDivf_def]
  rfl

theorem v67_eq (i j : Fin 2048) :
    val_main_v67 (F := Ideal) x0 x1 x2 x3 x4 x13 x15 (ix2 i j) = NEGs i j := by
  rw [val_main_v67_apply, val_main_v66_apply, val_main_v64_apply, val_main_v65_apply, val_main_cst_7_apply, Ideal.ofBits_def]
  simp only [lidx_v64, ridx_v64, val_main_v63_apply, idx_v63, v62_eq, Ideal.hostDivf_def, Ideal.hostUnary_exp_def]
  rfl

theorem idx_v68 (r : Fin 65536) (c : Fin 1) : idx_main_v68 (ix2 r c) = ix1 r := eq_ix1 _
theorem idx_v74 (r : Fin 65536) (c : Fin 1) : idx_main_v74 (ix2 r c) = ix1 r := eq_ix1 _
theorem idx_v76 (r : Fin 65536) (c : Fin 2048) : idx_main_v76 (ix2 r c) = ix2 r 0 := eq_ix2 _
theorem idx_v79 (r : Fin 65536) (c : Fin 1) : idx_main_v79 (ix2 r c) = ix1 r := eq_ix1 _

theorem v74_eq (e : Fin 65536) (u : Fin 1) : val_main_v74 (F := Ideal) x17 (ix2 e u) = wrap (x17 (ix1 e)) := by
  rw [val_main_v74_apply, idx_v74, val_main_v73_apply, val_main_v70_apply, val_main_v72_apply, val_main_v69_apply,
    val_main_c_8_apply, val_main_v71_apply, val_main_c_9_apply]
  rfl

theorem v75_eq (e : Fin 65536) (j : Fin 2048) :
    val_main_v75 (F := Ideal) x0 x1 x2 x3 x4 x13 x15 x17 (ix2 e j) = NEGs (gcol x17 e) j := by
  unfold val_main_v75
  show Host.gather (GatherRows.rowDims 2048 2048 65536 Facts₀.gather_S2048x2048_S65536x1_S65536x2048_1_0_n_n_0_1_12048_wf) _ _ (ix2 e j) = _
  rw [GatherRows.gather_rows_apply (by decide : 0 < 2048), v67_eq]
  refine congrArg (fun t => NEGs t j) (Fin.ext ?_)
  show min ((val_main_v74 (F := Ideal) x17) (ix2 e ⟨0, Nat.one_pos⟩)).toInt.toNat (2048 - 1) = _
  rw [v74_eq]
  rfl

local notation "PARTs" => ClusterLoss.partR (vec x14) (ints x16) NEGs (gcol x17)

theorem v80_eq (i j : Fin 2048) :
    val_main_v80 (F := Ideal) x0 x1 x2 x3 x4 x13 x14 x15 x16 x17 (ix2 i j) = PARTs i j := by
  unfold val_main_v80 Host.scatterAdd
  rw [Ideal.hostScatterAdd_def]
  show Ideal.hostScatterAdd (ScatterAddRows.rowDims 2048 2048 65536 Facts₀.scatter_S2048x2048_S65536x1_S65536x2048_1_0_0_1_wf) _ _ _ (ix2 i j) = _
  rw [ScatterAddRows.scatterAdd_rows_apply, val_main_v78_apply, val_main_cst_10_apply, Ideal.ofBits_def, Ideal.ofBits_zero_f32, zero_add]
  simp only [val_main_v79_apply, idx_v79, val_main_v77_apply, val_main_v76_apply, idx_v76, val_main_v68_apply, idx_v68, v75_eq, Ideal.mulf_def]
  rfl

theorem idx_v83 (r : Fin 2048) (c : Fin 2048) : idx_main_v83 (ix2 r c) = ix2 r 0 := eq_ix2 _
theorem idx_v87 (r : Fin 2048) (k : Fin 2048) : idx_main_v87 (ix1 r) k = ix2 r k := eq_ix2 _
theorem idx_v88 (r : Fin 1) (c : Fin 2048) : idx_main_v88 (ix2 r c) = ix1 c := eq_ix1 _
theorem idx_v89 (r : Fin 2048) (c : Fin 2048) : idx_main_v89 (ix2 r c) = ix2 r 0 := eq_ix2 _
theorem idx_v90 (r : Fin 2048) (c : Fin 2048) : idx_main_v90 (ix2 r c) = ix2 0 c := eq_ix2 _

theorem v87_eq (j : Fin 2048) :
    val_main_v87 (F := Ideal) x0 x1 x2 x3 x4 x13 x15 (ix1 j) = rs NEGs j := by
  rw [val_main_v87_apply, val_main_cst_12_apply, Ideal.ofBits_def, Ideal.ofBits_zero_f32, zero_add]
  simp only [idx_v87, v67_eq]
  rfl

theorem v93_eq (i j : Fin 2048) :
    val_main_v93 (F := Ideal) x0 x1 x2 x3 x4 x5 x6 x7 x8 x9 x10 x11 x12 x13 x14 x15 x16 x17 (ix2 i j)
      = term POSs PARTs (rs NEGs) i j := by
  simp only [val_main_v93_apply, val_main_v86_apply, val_main_v85_apply, val_main_v84_apply, val_main_v83_apply, idx_v83,
    val_main_v82_apply, val_main_v81_apply, val_main_cst_11_apply, val_main_v92_apply, val_main_v91_apply, val_main_v89_apply,
    idx_v89, val_main_v90_apply, idx_v90, val_main_v88_apply, idx_v88, v57_eq, v80_eq, v87_eq,
    Ideal.ofBits_def, Ideal.hostNegf_def, Ideal.negf_def, Ideal.hostUnary_log_def, Ideal.addf_def, Ideal.mulf_def]
  rfl

theorem v94_eq :
    val_main_v94 (F := Ideal) x0 x1 x2 x3 x4 x5 x6 x7 x8 x9 x10 x11 x12 x13 x14 x15 x16 x17 ix0
      = ∑ i, ∑ j, term POSs PARTs (rs NEGs) i j := by
  rw [val_main_v94_apply, val_main_cst_13_apply, Ideal.ofBits_def, Ideal.ofBits_zero_f32, zero_add, sum_idx2]
  simp only [v93_eq]

theorem v95_eq :
    val_main_v95 (F := Ideal) x0 x1 x2 x3 x4 x5 x6 x7 x8 x9 x10 x11 x12 x13 x14 x15 x16 x17 ix0
      = lossR (mat x0) (mat x1) (vec x2) (mat x3) (vec x4) (mat x5) (vec x6) (mat x7) (vec x8) (mat x9) (vec x10)
          (mat x11) (vec x12) (vec x13) (vec x14) (ints x15) (ints x16) (gq x15) (gcol x17) := by
  rw [val_main_v95_apply, v94_eq, val_main_cst_14_apply, Ideal.ofBits_def, Ideal.hostDivf_def]
  rfl

theorem result_eq (m : (ℓ : Loc nD τ sig) → Buf (Elt Ideal) ℓ) (c : Dev nD) :
    ClusterLoss.scal (Cert.ReferenceIdeal.Value.res_out0 (F := Ideal) m c)
      = ClusterLoss.lossR (mat (m ((c.tc : Thread nD τ).loc main_arg0))) (mat (m ((c.tc : Thread nD τ).loc main_arg1)))
          (vec (m ((c.tc : Thread nD τ).loc main_arg2))) (mat (m ((c.tc : Thread nD τ).loc main_arg3)))
          (vec (m ((c.tc : Thread nD τ).loc main_arg4))) (mat (m ((c.tc : Thread nD τ).loc main_arg5)))
          (vec (m ((c.tc : Thread nD τ).loc main_arg6))) (mat (m ((c.tc : Thread nD τ).loc main_arg7)))
          (vec (m ((c.tc : Thread nD τ).loc main_arg8))) (mat (m ((c.tc : Thread nD τ).loc main_arg9)))
          (vec (m ((c.tc : Thread nD τ).loc main_arg10))) (mat (m ((c.tc : Thread nD τ).loc main_arg11)))
          (vec (m ((c.tc : Thread nD τ).loc main_arg12))) (vec (m ((c.tc : Thread nD τ).loc main_arg13)))
          (vec (m ((c.tc : Thread nD τ).loc main_arg14))) (ints (m ((c.tc : Thread nD τ).loc main_arg15)))
          (ints (m ((c.tc : Thread nD τ).loc main_arg16))) (gq (m ((c.tc : Thread nD τ).loc main_arg15)))
          (gcol (m ((c.tc : Thread nD τ).loc main_arg17))) := by
  show Cert.ReferenceIdeal.Value.res_main_v95 (F := Ideal) m c ix0 = _
  rw [val_main_v95_eq]
  exact v95_eq _ _ _ _ _ _ _ _ _ _ _ _ _ _ _ _ _ _

end Cert.ReferenceIdeal.RefValue

end
-- ==== Proof.PreFacts.lean ====
import proofs.«412354_j76115410419855_2_alg».proof.Pre_finite_inputs
import proofs.«412354_j76115410419855_2_alg».proof.Proof.Gen.Pre_finite_inputs
import proofs.«412354_j76115410419855_2_alg».proof.Proof.Conv
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

abbrev S0 : Shape := ⟨0, ![]⟩

instance : Subsingleton S0.Idx := ⟨fun a b => funext fun d => d.elim0⟩

theorem inf_bits : Ideal.ofBits .f32 0x7F800000#32 = (⊤ : EReal) := by simp [Ideal.ofBits, Ideal.ieee]

theorem real_of_abs_lt_top (x : EReal) (h : Ideal.cmp .olt (max x (-x)) (⊤ : EReal) = 1#1) : ∃ r : ℝ, x = (r : EReal) := by
  simp only [Ideal.cmp, StableHlo.Predicate.ofBool_eq_one_iff, decide_eq_true_eq] at h
  induction x using EReal.rec with
  | bot => simp at h
  | coe r => exact ⟨r, rfl⟩
  | top => simp at h

theorem real_of_all {s : Shape} {axes : List (Fin s.rank)} (x : FVec Ideal s .f32)
    (hb : S0.BroadcastsInDim s (![] : Fin 0 → Fin s.rank)) (hr : s.ReducesTo axes S0) (h0 : 0 < S0.numel)
    (init : IVec S0 1)
    (e : Host.reduce IntOp.andi (cmpf .olt (Host.absf x) (broadcastInDim s ![] hb (constant S0 .f32 0x7F800000#32))) init hr h0 ix0 = 1#1)
    (i : s.Idx) : ∃ r : ℝ, x i = (r : EReal) := by
  have h1 := Host.reduce_andi_all _ init hr h0 ix0 e i
  apply real_of_abs_lt_top
  rw [← inf_bits]
  exact h1

theorem nonneg_of_all {s : Shape} {axes : List (Fin s.rank)} (a : IVec s 32)
    (hb : S0.BroadcastsInDim s (![] : Fin 0 → Fin s.rank)) (hr : s.ReducesTo axes S0) (h0 : 0 < S0.numel)
    (init : IVec S0 1)
    (e : Host.reduce IntOp.andi (cmpi .sge a (broadcastInDim s ![] hb (constantI S0 32 0#32))) init hr h0 ix0 = 1#1)
    (i : s.Idx) : 0 ≤ (a i).toInt := by
  have h1 := Host.reduce_andi_all _ init hr h0 ix0 e i
  have h2 : IntOp.cmpi .sge (a i) (0#32) = 1#1 := h1
  simp only [IntOp.cmpi, StableHlo.Predicate.ofBool_eq_one_iff, BitVec.sle, decide_eq_true_eq] at h2
  simpa using h2

theorem lt_of_all {s : Shape} {axes : List (Fin s.rank)} (a : IVec s 32)
    (hb : S0.BroadcastsInDim s (![] : Fin 0 → Fin s.rank)) (hr : s.ReducesTo axes S0) (h0 : 0 < S0.numel)
    (init : IVec S0 1)
    (e : Host.reduce IntOp.andi (cmpi .slt a (broadcastInDim s ![] hb (constantI S0 32 2048#32))) init hr h0 ix0 = 1#1)
    (i : s.Idx) : (a i).toInt < 2048 := by
  have h1 := Host.reduce_andi_all _ init hr h0 ix0 e i
  have h2 : IntOp.cmpi .slt (a i) (2048#32) = 1#1 := h1
  simp only [IntOp.cmpi, StableHlo.Predicate.ofBool_eq_one_iff, BitVec.slt, decide_eq_true_eq] at h2
  have : (2048#32 : BitVec 32).toInt = 2048 := by decide
  omega

section Instances

variable
    (a0 : FVec Ideal Cert.Pre_finite_inputs.S100000x512 .f32) (a1 : FVec Ideal Cert.Pre_finite_inputs.S512x256 .f32) (a2 : FVec Ideal Cert.Pre_finite_inputs.S256 .f32)
    (a3 : FVec Ideal Cert.Pre_finite_inputs.S256x256 .f32) (a4 : FVec Ideal Cert.Pre_finite_inputs.S256 .f32) (a5 : FVec Ideal Cert.Pre_finite_inputs.S512x256 .f32)
    (a6 : FVec Ideal Cert.Pre_finite_inputs.S256 .f32) (a7 : FVec Ideal Cert.Pre_finite_inputs.S256x256 .f32) (a8 : FVec Ideal Cert.Pre_finite_inputs.S256 .f32)
    (a9 : FVec Ideal Cert.Pre_finite_inputs.S256x256 .f32) (a10 : FVec Ideal Cert.Pre_finite_inputs.S256 .f32) (a11 : FVec Ideal Cert.Pre_finite_inputs.S256x256 .f32)
    (a12 : FVec Ideal Cert.Pre_finite_inputs.S256 .f32) (a13 : FVec Ideal Cert.Pre_finite_inputs.S100000 .f32) (a14 : FVec Ideal Cert.Pre_finite_inputs.S65536 .f32)
    (a15 : IVec Cert.Pre_finite_inputs.S100000 32) (a16 : IVec Cert.Pre_finite_inputs.S65536 32) (a17 : IVec Cert.Pre_finite_inputs.S65536 32) (a18 : IVec Cert.Pre_finite_inputs.S100000 32)

structure Entrywise : Prop where
  r0 : ∀ i, ∃ r : ℝ, a0 i = (r : EReal)
  r1 : ∀ i, ∃ r : ℝ, a1 i = (r : EReal)
  r2 : ∀ i, ∃ r : ℝ, a2 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  r13 : ∀ i, ∃ r : ℝ, a13 i = (r : EReal)
  r14 : ∀ i, ∃ r : ℝ, a14 i = (r : EReal)
  g16 : ∀ i, 0 ≤ (a16 i).toInt
  l16 : ∀ i, (a16 i).toInt < 2048
  g17 : ∀ i, 0 ≤ (a17 i).toInt
  l17 : ∀ i, (a17 i).toInt < 2048

variable (h : Cert.Pre_finite_inputs.fn (F := Ideal) a0 a1 a2 a3 a4 a5 a6 a7 a8 a9 a10 a11 a12 a13 a14 a15 a16 a17 a18 = (fun _ => 1#1))

include h

theorem split : Entrywise a0 a1 a2 a3 a4 a5 a6 a7 a8 a9 a10 a11 a12 a13 a14 a16 a17 := by
  have h0 := congrFun h ix0
  simp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5,
    Idealize.ShloMosaic.andi, IntOp.andi_eq_one, and_assoc] at h0
  obtain ⟨c0, c1, c2, c3, c4, c5, c6, c7, c8, c9, c10, c11, c12, c13, c14, g16, l16, g17, l17⟩ := h0
  exact ⟨real_of_all _ _ _ _ _ c0, real_of_all _ _ _ _ _ c1, real_of_all _ _ _ _ _ c2, real_of_all _ _ _ _ _ c3,
    real_of_all _ _ _ _ _ c4, real_of_all _ _ _ _ _ c5, real_of_all _ _ _ _ _ c6, real_of_all _ _ _ _ _ c7,
    real_of_all _ _ _ _ _ c8, real_of_all _ _ _ _ _ c9, real_of_all _ _ _ _ _ c10, real_of_all _ _ _ _ _ c11,
    real_of_all _ _ _ _ _ c12, real_of_all _ _ _ _ _ c13, real_of_all _ _ _ _ _ c14,
    nonneg_of_all _ _ _ _ _ g16, lt_of_all _ _ _ _ _ l16, nonneg_of_all _ _ _ _ _ g17, lt_of_all _ _ _ _ _ l17⟩

end Instances

end Cert.PreFacts

end
-- ==== Proof.SpecBridge.lean ====
import proofs.«412354_j76115410419855_2_alg».proof.Proof.Spec
import Idealize.ShloMosaic.PureOps.Ideal
import Mathlib.Data.EReal.Operations
import Mathlib.Algebra.BigOperators.Ring.Finset
import Mathlib.Algebra.Order.BigOperators.Group.Finset
import Mathlib.Tactic.Ring
import Mathlib.Tactic.Positivity

noncomputable section

namespace ClusterLoss

open Idealize.ShloMosaic

def IsR (a : EReal) : Prop := ∃ r : ℝ, a = (r : EReal)

theorem IsR.coe (r : ℝ) : IsR (r : EReal) := ⟨r, rfl⟩

theorem IsR.zero : IsR 0 := ⟨0, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem coe_max (r s : ℝ) : max (r : EReal) (s : EReal) = ((max r s : ℝ) : EReal) :=
  (EReal.coe_strictMono.monotone.map_max).symm

theorem IsR.max {a b : EReal} (ha : IsR a) (hb : IsR b) : IsR (max a b) := by
  obtain ⟨r, rfl⟩ := ha; obtain ⟨s, rfl⟩ := hb; exact ⟨_, coe_max r s⟩

theorem IsR.ite {p : Prop} [Decidable p] {a b : EReal} (ha : IsR a) (hb : IsR b) : IsR (if p then a else b) := by
  split_ifs <;> assumption

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) (f : ι → EReal) (h : ∀ i, IsR (f i)) : IsR (∑ i ∈ s, f i) := by
  choose f' hf' using h
  exact ⟨∑ i ∈ s, f' i, by rw [← coe_sum]; exact Finset.sum_congr rfl fun i _ => hf' i⟩

theorem coe_ite_zero (p : Prop) [Decidable p] (a : ℝ) :
    (if p then ((a : ℝ) : EReal) else 0) = (((if p then a else 0 : ℝ)) : EReal) := by
  split_ifs <;> rfl

theorem IsR.exp {a : EReal} (ha : IsR a) : IsR (Ideal.exp a) := by
  obtain ⟨r, rfl⟩ := ha; exact ⟨Real.exp r, rfl⟩

theorem IsR.div {a y : EReal} (ha : IsR a) {r : ℝ} (hy : y = (r : EReal)) (hr : r ≠ 0) : IsR (Ideal.div a y) := by
  subst hy; rw [Ideal.div_coe hr]; exact ha.mul (IsR.coe _)

theorem IsR.sqrt_sum_sq {ι : Type*} (s : Finset ι) (f : ι → EReal) (h : ∀ i, IsR (f i)) :
    IsR (Ideal.sqrt (∑ i ∈ s, f i * f i)) := by
  choose f' hf' using h
  have : ∑ i ∈ s, f i * f i = ((∑ i ∈ s, f' i * f' i : ℝ) : EReal) := by
    rw [← coe_sum]; exact Finset.sum_congr rfl fun i _ => by rw [hf' i, EReal.coe_mul]
  rw [this, Ideal.sqrt_coe, if_neg (not_lt.2 (Finset.sum_nonneg fun i _ => mul_self_nonneg (f' i)))]
  exact IsR.coe _

theorem half_eq : half = ((1 / 2 : ℝ) : EReal) := by
  have h : half = ((8388608 * ((2 : ℝ) ^ 24)⁻¹ : ℝ) : EReal) := by simp [half, Ideal.ofBits, Ideal.ieee]
  rw [h]; congr 1; norm_num

theorem eps_pos : ∃ e : ℝ, 0 < e ∧ eps = (e : EReal) := by
  refine ⟨9223372 * ((2 : ℝ) ^ 63)⁻¹, by positivity, ?_⟩
  simp [eps, Ideal.ofBits, Ideal.ieee]

theorem lin_real {n i o : Nat} {a : Fin n → Fin i → EReal} {W : Fin i → Fin o → EReal} {b : Fin o → EReal}
    (ha : Real2 a) (hW : Real2 W) (hb : Real1 b) : Real2 (lin a W b) :=
  fun r c => IsR.add (IsR.sum _ _ fun k => IsR.mul (ha r k) (hW k c)) (hb c)

theorem enc_real {n i o : Nat} {a : Fin n → Fin i → EReal} {W0 : Fin i → Fin o → EReal} {b0 : Fin o → EReal}
    {W1 : Fin o → Fin o → EReal} {b1 : Fin o → EReal}
    (ha : Real2 a) (hW0 : Real2 W0) (hb0 : Real1 b0) (hW1 : Real2 W1) (hb1 : Real1 b1) : Real2 (enc a W0 b0 W1 b1) :=
  lin_real (lin_real ha hW0 hb0) hW1 hb1

theorem rownorm_real {n d : Nat} {a : Fin n → Fin d → EReal} (ha : Real2 a) (r : Fin n) :
    ∃ y : ℝ, y ≠ 0 ∧ rownorm a r = (y : EReal) := by
  obtain ⟨e, he, hee⟩ := eps_pos
  obtain ⟨s, hs⟩ := IsR.sqrt_sum_sq Finset.univ (a r) (ha r)
  refine ⟨max s e, ne_of_gt (lt_of_lt_of_le he (le_max_right s e)), ?_⟩
  rw [rownorm, hs, hee, coe_max]

theorem l2n_real {n d : Nat} {a : Fin n → Fin d → EReal} (ha : Real2 a) : Real2 (l2n a) := fun r c => by
  obtain ⟨y, hy, hyy⟩ := rownorm_real ha r
  exact IsR.div (ha r c) hyy hy

theorem segsum_real {n s d : Nat} (ids : Fin n → ℤ) {u : Fin n → Fin d → EReal} (hu : Real2 u) :
    Real2 (segsum (s := s) ids u) :=
  fun _ c => IsR.sum _ _ fun r => IsR.ite (hu r c) IsR.zero

theorem neg_real {hn : Fin 2048 → Fin 256 → EReal} (h : Real2 hn) : Real2 (neg hn) := fun i j =>
  IsR.exp (IsR.div (IsR.sum _ _ fun d => IsR.mul (h i d) (h j d)) half_eq (by norm_num))

theorem pos_real {N D : Type*} [Fintype N] [Fintype D] (P : N → Prop) [DecidablePred P]
    (pv : N → ℝ) (vn : N → D → ℝ) (qm : D → ℝ) (c : ℝ) :
    (∑ d, qm d * ∑ n, if P n then pv n * vn n d else 0) * c
      = ∑ n, if P n then pv n * ((∑ d, vn n d * qm d) * c) else 0 := by
  simp only [Finset.mul_sum, Finset.sum_mul]
  rw [Finset.sum_comm]
  refine Finset.sum_congr rfl fun n _ => ?_
  by_cases h : P n
  · simp only [if_pos h]; exact Finset.sum_congr rfl fun d _ => by ring
  · simp only [if_neg h, mul_zero, zero_mul, Finset.sum_const_zero]

theorem pos_core {N D : Type*} [Fintype N] [Fintype D] (P : N → Prop) [DecidablePred P]
    (pv : N → EReal) (vn : N → D → EReal) (qm : D → EReal) (qg : N → D → EReal)
    (hpv : ∀ n, IsR (pv n)) (hvn : ∀ n d, IsR (vn n d)) (hqm : ∀ d, IsR (qm d))
    (hqg : ∀ n, P n → qg n = qm) :
    Ideal.div (∑ d, qm d * ∑ n, if P n then pv n * vn n d else 0) half
      = ∑ n, if P n then pv n * Ideal.div (∑ d, vn n d * qg n d) half else 0 := by
  have hR : (∑ n, if P n then pv n * Ideal.div (∑ d, vn n d * qg n d) half else 0)
      = ∑ n, if P n then pv n * Ideal.div (∑ d, vn n d * qm d) half else 0 :=
    Finset.sum_congr rfl fun n _ => by
      by_cases h : P n
      · simp only [if_pos h, hqg n h]
      · simp only [if_neg h]
  rw [hR]
  choose pv' hpv' using hpv
  choose vn' hvn' using hvn
  choose qm' hqm' using hqm
  obtain rfl : pv = fun n => ((pv' n : ℝ) : EReal) := funext hpv'
  obtain rfl : vn = fun n d => ((vn' n d : ℝ) : EReal) := funext fun n => funext (hvn' n)
  obtain rfl : qm = fun d => ((qm' d : ℝ) : EReal) := funext hqm'
  rw [half_eq]
  simp only [Ideal.div_coe (show (1 / 2 : ℝ) ≠ 0 by norm_num), ← EReal.coe_mul, coe_ite_zero, coe_sum]
  rw [pos_real]

theorem part_real {E C : Type*} [Fintype E] [Fintype C] [DecidableEq C] (A : E → C → Prop)
    [∀ e c, Decidable (A e c)] (B : E → Prop) [DecidablePred B] (gc : E → C)
    (hA : ∀ e c, A e c ↔ (B e ∧ c = gc e)) (cv : E → ℝ) (ng : C → ℝ) :
    ∑ c, (∑ e, if A e c then cv e else 0) * ng c = ∑ e, if B e then cv e * ng (gc e) else 0 := by
  simp only [Finset.sum_mul]
  rw [Finset.sum_comm]
  refine Finset.sum_congr rfl fun e _ => ?_
  by_cases h : B e
  · simp only [hA, h, true_and, if_true, ite_mul, zero_mul, Finset.sum_ite_eq', Finset.mem_univ]
  · simp only [hA, h, false_and, if_false, zero_mul, Finset.sum_const_zero]

theorem part_core {E C : Type*} [Fintype E] [Fintype C] [DecidableEq C] (A : E → C → Prop)
    [∀ e c, Decidable (A e c)] (B : E → Prop) [DecidablePred B] (gc : E → C)
    (hA : ∀ e c, A e c ↔ (B e ∧ c = gc e)) (cv : E → EReal) (ng : C → EReal)
    (hcv : ∀ e, IsR (cv e)) (hng : ∀ c, IsR (ng c)) :
    ∑ c, (∑ e, if A e c then cv e else 0) * ng c = ∑ e, if B e then cv e * ng (gc e) else 0 := by
  choose cv' hcv' using hcv
  choose ng' hng' using hng
  obtain rfl : cv = fun e => ((cv' e : ℝ) : EReal) := funext hcv'
  obtain rfl : ng = fun c => ((ng' c : ℝ) : EReal) := funext hng'
  simp only [← EReal.coe_mul, coe_ite_zero, coe_sum]
  rw [part_real A B gc hA]

theorem flat_iff (cr cc fl : Fin 65536 → ℤ) (gc : Fin 65536 → Fin 2048)
    (hcr : ∀ e, 0 ≤ cr e ∧ cr e < 2048) (hcc : ∀ e, 0 ≤ cc e ∧ cc e < 2048)
    (hfl : ∀ e, fl e = cr e * 2048 + cc e) (hgc : ∀ e, ((gc e).val : ℤ) = cc e)
    (i : Fin 2048) (e : Fin 65536) (c : Fin 2048) :
    fl e = (i.val : ℤ) * 2048 + (c.val : ℤ) ↔ (cr e = (i.val : ℤ) ∧ c = gc e) := by
  have h1 := hcr e; have h2 := hcc e; have h3 := hgc e; have h4 := c.isLt; have h5 := i.isLt
  rw [hfl e]
  constructor
  · intro h
    refine ⟨by omega, Fin.ext ?_⟩
    omega
  · rintro ⟨h, rfl⟩
    omega

theorem lossK_eq_lossR
    (x : Fin 100000 → Fin 512 → EReal) (We0 : Fin 512 → Fin 256 → EReal) (be0 : Fin 256 → EReal) (We1 : Fin 256 → Fin 256 → EReal) (be1 : Fin 256 → EReal)
    (Wt0 : Fin 512 → Fin 256 → EReal) (bt0 : Fin 256 → EReal) (Wt1 : Fin 256 → Fin 256 → EReal) (bt1 : Fin 256 → EReal)
    (Wp0 : Fin 256 → Fin 256 → EReal) (bp0 : Fin 256 → EReal) (Wp1 : Fin 256 → Fin 256 → EReal) (bp1 : Fin 256 → EReal)
    (pv : Fin 100000 → EReal) (cv : Fin 65536 → EReal) (pa : Fin 100000 → ℤ) (cr cc : Fin 65536 → ℤ)
    (fl : Fin 65536 → ℤ) (g : Fin 100000 → Fin 2048) (gc : Fin 65536 → Fin 2048)
    (hx : Real2 x) (hWe0 : Real2 We0) (hbe0 : Real1 be0) (hWe1 : Real2 We1) (hbe1 : Real1 be1)
    (hWt0 : Real2 Wt0) (hbt0 : Real1 bt0) (hWt1 : Real2 Wt1) (hbt1 : Real1 bt1)
    (hWp0 : Real2 Wp0) (hbp0 : Real1 bp0) (hWp1 : Real2 Wp1) (hbp1 : Real1 bp1) (hpv : Real1 pv) (hcv : Real1 cv)
    (hcr : ∀ e, 0 ≤ cr e ∧ cr e < 2048) (hcc : ∀ e, 0 ≤ cc e ∧ cc e < 2048)
    (hfl : ∀ e, fl e = cr e * 2048 + cc e)
    (hg : ∀ n (m : Fin 2048), pa n = (m.val : ℤ) → g n = m)
    (hgc : ∀ e, ((gc e).val : ℤ) = cc e) :
    lossK x We0 be0 We1 be1 Wt0 bt0 Wt1 bt1 Wp0 bp0 Wp1 bp1 pv cv pa fl
      = lossR x We0 be0 We1 be1 Wt0 bt0 Wt1 bt1 Wp0 bp0 Wp1 bp1 pv cv pa cr g gc := by
  have hh : Real2 (h x We0 be0 We1 be1) := enc_real hx hWe0 hbe0 hWe1 hbe1
  have hv : Real2 (v x Wt0 bt0 Wt1 bt1) := enc_real hx hWt0 hbt0 hWt1 hbt1
  have hvn : Real2 (vn x Wt0 bt0 Wt1 bt1) := l2n_real hv
  have hHC : Real2 (hc x We0 be0 We1 be1 pv pa) := segsum_real pa fun n d => IsR.mul (hpv n) (hh n d)
  have hqn : Real2 (qn Wp0 bp0 Wp1 bp1 (hc x We0 be0 We1 be1 pv pa)) :=
    l2n_real (lin_real (fun r c => IsR.max (lin_real hHC hWp0 hbp0 r c) IsR.zero) hWp1 hbp1)
  have hNEG : Real2 (neg (hn (hc x We0 be0 We1 be1 pv pa))) := neg_real (l2n_real hHC)
  have hpos : posK (qn Wp0 bp0 Wp1 bp1 (hc x We0 be0 We1 be1 pv pa)) (vnc x Wt0 bt0 Wt1 bt1 pv pa)
      = posR pv pa (qn Wp0 bp0 Wp1 bp1 (hc x We0 be0 We1 be1 pv pa)) (vn x Wt0 bt0 Wt1 bt1) g := by
    funext m
    simp only [posK, posR, vnc, segsum]
    exact congrArg Ideal.exp (pos_core (fun n => pa n = (m.val : ℤ)) pv (vn x Wt0 bt0 Wt1 bt1)
      (qn Wp0 bp0 Wp1 bp1 (hc x We0 be0 We1 be1 pv pa) m)
      (fun n => qn Wp0 bp0 Wp1 bp1 (hc x We0 be0 We1 be1 pv pa) (g n)) hpv hvn (hqn m)
      (fun n hn => by rw [hg n m hn]))
  have hpart : partK cv fl (neg (hn (hc x We0 be0 We1 be1 pv pa)))
      = partR cv cr (neg (hn (hc x We0 be0 We1 be1 pv pa))) gc := by
    funext i j
    simp only [partK, partR, coef]
    have hA : ∀ (e : Fin 65536) (c : Fin 2048),
        fl e = (i.val : ℤ) * 2048 + (c.val : ℤ) ↔ (cr e = (i.val : ℤ) ∧ c = gc e) :=
      fun e c => flat_iff cr cc fl gc hcr hcc hfl hgc i e c
    have key := part_core (E := Fin 65536) (C := Fin 2048) _ _ gc hA cv
      (fun c => neg (hn (hc x We0 be0 We1 be1 pv pa)) c j) hcv (fun c => hNEG c j)
    exact key
  simp only [lossK, lossR]
  rw [hpos, hpart]

end ClusterLoss

end
-- ==== Proof.Assemble.lean ====
import proofs.«412354_j76115410419855_2_alg».proof.Defs
import proofs.«412354_j76115410419855_2_alg».proof.Proof.KI.Run
import proofs.«412354_j76115410419855_2_alg».proof.Proof.Val.Kernel
import proofs.«412354_j76115410419855_2_alg».proof.Proof.Val.Host
import proofs.«412354_j76115410419855_2_alg».proof.Proof.Ref.Value
import proofs.«412354_j76115410419855_2_alg».proof.Proof.PreFacts
import proofs.«412354_j76115410419855_2_alg».proof.Proof.SpecBridge

noncomputable section

namespace Cert.Proof.Assemble

open Idealize.ShloMosaic Idealize.ShloMosaic.TcCoe Idealize.SL.Sem Idealize.ShloMosaic.ValueIdx ClusterLoss

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem loss_eq (a0 : FVec Ideal Cert.Pre_finite_inputs.S100000x512 .f32) (a1 : FVec Ideal Cert.Pre_finite_inputs.S512x256 .f32) (a2 : FVec Ideal Cert.Pre_finite_inputs.S256 .f32) (a3 : FVec Ideal Cert.Pre_finite_inputs.S256x256 .f32) (a4 : FVec Ideal Cert.Pre_finite_inputs.S256 .f32) (a5 : FVec Ideal Cert.Pre_finite_inputs.S512x256 .f32) (a6 : FVec Ideal Cert.Pre_finite_inputs.S256 .f32) (a7 : FVec Ideal Cert.Pre_finite_inputs.S256x256 .f32) (a8 : FVec Ideal Cert.Pre_finite_inputs.S256 .f32) (a9 : FVec Ideal Cert.Pre_finite_inputs.S256x256 .f32) (a10 : FVec Ideal Cert.Pre_finite_inputs.S256 .f32) (a11 : FVec Ideal Cert.Pre_finite_inputs.S256x256 .f32) (a12 : FVec Ideal Cert.Pre_finite_inputs.S256 .f32) (a13 : FVec Ideal Cert.Pre_finite_inputs.S100000 .f32) (a14 : FVec Ideal Cert.Pre_finite_inputs.S65536 .f32) (a15 : IVec Cert.Pre_finite_inputs.S100000 32) (a16 : IVec Cert.Pre_finite_inputs.S65536 32) (a17 : IVec Cert.Pre_finite_inputs.S65536 32) (a18 : IVec Cert.Pre_finite_inputs.S100000 32)
    (h : Cert.Pre_finite_inputs.fn (F := Ideal) a0 a1 a2 a3 a4 a5 a6 a7 a8 a9 a10 a11 a12 a13 a14 a15 a16 a17 a18 = (fun _ => 1#1)) :
    lossR (mat a0) (mat a1) (vec a2) (mat a3) (vec a4) (mat a5) (vec a6) (mat a7) (vec a8) (mat a9) (vec a10) (mat a11) (vec a12) (vec a13) (vec a14) (ints a15) (ints a16)
        (Cert.ReferenceIdeal.RefValue.gq a15) (Cert.ReferenceIdeal.RefValue.gcol a17)
      = lossK (mat a0) (mat a1) (vec a2) (mat a3) (vec a4) (mat a5) (vec a6) (mat a7) (vec a8) (mat a9) (vec a10) (mat a11) (vec a12) (vec a13) (vec a14) (ints a15) (Cert.KernelIdeal.Val.flatOf a16 a17) := by
  have s := Cert.PreFacts.split a0 a1 a2 a3 a4 a5 a6 a7 a8 a9 a10 a11 a12 a13 a14 a15 a16 a17 a18 h
  have r16 : ∀ e, 0 ≤ ints a16 e ∧ ints a16 e < 2048 := fun e => ⟨s.g16 (ix1 e), s.l16 (ix1 e)⟩
  have r17 : ∀ e, 0 ≤ ints a17 e ∧ ints a17 e < 2048 := fun e => ⟨s.g17 (ix1 e), s.l17 (ix1 e)⟩
  exact (lossK_eq_lossR (mat a0) (mat a1) (vec a2) (mat a3) (vec a4) (mat a5) (vec a6) (mat a7) (vec a8) (mat a9) (vec a10) (mat a11) (vec a12) (vec a13) (vec a14) (ints a15) (ints a16) (ints a17)
    (Cert.KernelIdeal.Val.flatOf a16 a17) (Cert.ReferenceIdeal.RefValue.gq a15) (Cert.ReferenceIdeal.RefValue.gcol a17)
    (fun i j => s.r0 (ix2 i j)) (fun i j => s.r1 (ix2 i j)) (fun i => s.r2 (ix1 i)) (fun i j => s.r3 (ix2 i j)) (fun i => s.r4 (ix1 i)) (fun i j => s.r5 (ix2 i j)) (fun i => s.r6 (ix1 i)) (fun i j => s.r7 (ix2 i j)) (fun i => s.r8 (ix1 i)) (fun i j => s.r9 (ix2 i j)) (fun i => s.r10 (ix1 i)) (fun i j => s.r11 (ix2 i j)) (fun i => s.r12 (ix1 i)) (fun i => s.r13 (ix1 i)) (fun i => s.r14 (ix1 i))
    r16 r17 (Cert.KernelIdeal.Val.flat_toInt a16 a17 r16 r17) (Cert.ReferenceIdeal.RefValue.gq_spec a15) (Cert.ReferenceIdeal.RefValue.gcol_spec a17 r17)).symm

theorem algebraic : Cert.algebraic_KernelIdeal_ReferenceIdeal := by
  intro m g m' g' hpre hagree
  refine ⟨_, Cert.KernelIdeal.Hand.run_result (F := Ideal) m g, ?_⟩
  refine (θ_run Cert.ReferenceIdeal.defs _ _).mono (fun _ h c => ⟨(h c).1.trans ?_, (h c).2⟩)
    (Cert.ReferenceIdeal.Value.run (F := Ideal) m' g')
  funext i
  obtain rfl : i = ix0 := eq_ix0 i
  show scal (Cert.ReferenceIdeal.Value.res_out0 (F := Ideal) m' c)
    = scal (Cert.KernelIdeal.Hand.W7 (F := Ideal) m c Cert.KernelIdeal.main_v16)
  rw [Cert.ReferenceIdeal.RefValue.result_eq m' c, Cert.KernelIdeal.Val.kernel_value m c]
  obtain ⟨e0, e1, e2, e3, e4, e5, e6, e7, e8, e9, e10, e11, e12, e13, e14, e15, e16, e17, _⟩ := hagree c
  rw [e0, e1, e2, e3, e4, e5, e6, e7, e8, e9, e10, e11, e12, e13, e14, e15, e16, e17]
  exact loss_eq _ _ _ _ _ _ _ _ _ _ _ _ _ _ _ _ _ _ _ (hpre c)

end Cert.Proof.Assemble

end
-- ==== Proof.lean ====
import proofs.«412354_j76115410419855_2_alg».proof.Defs
import proofs.«412354_j76115410419855_2_alg».proof.Proof.Gen.Kernel
import proofs.«412354_j76115410419855_2_alg».proof.Proof.Gen.KernelIdeal
import proofs.«412354_j76115410419855_2_alg».proof.Proof.Gen.ReferenceIdeal
import proofs.«412354_j76115410419855_2_alg».proof.Proof.Gen.Pre_finite_inputs
import proofs.«412354_j76115410419855_2_alg».proof.Proof.K.Run
import proofs.«412354_j76115410419855_2_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  Cert.Proof.Assemble.frame_pi,
  Cert.Proof.Assemble.frame_ri,
  trivial,
  Cert.Proof.Assemble.algebraic⟩

end Cert.Proof

end
